-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v561) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x6144 : Shape := ⟨2, ![4096, 6144]⟩
abbrev S4x2304x768 : Shape := ⟨3, ![4, 2304, 768]⟩
abbrev S4x2304 : Shape := ⟨2, ![4, 2304]⟩
abbrev S4x768x768 : Shape := ⟨3, ![4, 768, 768]⟩
abbrev S4x768 : Shape := ⟨2, ![4, 768]⟩
abbrev S512x6144 : Shape := ⟨2, ![512, 6144]⟩
abbrev S512 : Shape := ⟨1, ![512]⟩
abbrev S128x512 : Shape := ⟨2, ![128, 512]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S4096x6144 : S_.BroadcastsInDim S4096x6144 (![] : Fin 0 → Fin S4096x6144.rank)
  reducesTo_S4096x6144_S_d0_1 : S4096x6144.ReducesTo [0, 1] S_
  h_S_ : 0 < S_.numel
  bcast_S_S4x2304x768 : S_.BroadcastsInDim S4x2304x768 (![] : Fin 0 → Fin S4x2304x768.rank)
  reducesTo_S4x2304x768_S_d0_1_2 : S4x2304x768.ReducesTo [0, 1, 2] S_
  bcast_S_S4x2304 : S_.BroadcastsInDim S4x2304 (![] : Fin 0 → Fin S4x2304.rank)
  reducesTo_S4x2304_S_d0_1 : S4x2304.ReducesTo [0, 1] S_
  bcast_S_S4x768x768 : S_.BroadcastsInDim S4x768x768 (![] : Fin 0 → Fin S4x768x768.rank)
  reducesTo_S4x768x768_S_d0_1_2 : S4x768x768.ReducesTo [0, 1, 2] S_
  bcast_S_S4x768 : S_.BroadcastsInDim S4x768 (![] : Fin 0 → Fin S4x768.rank)
  reducesTo_S4x768_S_d0_1 : S4x768.ReducesTo [0, 1] S_
  bcast_S_S512x6144 : S_.BroadcastsInDim S512x6144 (![] : Fin 0 → Fin S512x6144.rank)
  reducesTo_S512x6144_S_d0_1 : S512x6144.ReducesTo [0, 1] S_
  bcast_S_S512 : S_.BroadcastsInDim S512 (![] : Fin 0 → Fin S512.rank)
  reducesTo_S512_S_d0 : S512.ReducesTo [0] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg21 : FVec F S1x128 .f32) (main_arg22 : FVec F S1 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S1x128 .f32 := Host.absf main_arg21
  let main_cst_40 : FVec F S_ .f32 := constant S_ .f32 0x7F800000#32
  let main_v105 : FVec F S1x128 .f32 := broadcastInDim S1x128 ![] bcast_S_S1x128 main_cst_40
  let main_v106 : IVec S1x128 1 := cmpf .olt main_v104 main_v105
  let main_c_41 : IVec S_ 1 := constantI S_ 1 1#1
  let main_v107 : IVec S_ 1 := (fun x v => Host.reduce IntOp.andi x v reducesTo_S1x128_S_d0_1 h_S_) main_v106 main_c_41
  let main_v108 : IVec S_ 1 := andi main_v103 main_v107
  let main_v109 : FVec F S1 .f32 := Host.absf main_arg22
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  main_v113

def fn_part5 {F : FTy → Type} [FloatOps F] (main_arg18 : FVec F S128 .f32) (main_arg19 : FVec F S128 .f32) (main_arg20 : FVec F S128 .f32) (main_arg21 : FVec F S1x128 .f32) (main_arg22 : FVec F S1 .f32) (main_v83 : IVec S_ 1) (main_v84 : FVec F S128x512 .f32) (main_cst_32 : FVec F S_ .f32) : IVec S_ 1 :=
  let main_v85 : FVec F S128x512 .f32 := broadcastInDim S128x512 ![] bcast_S_S128x512 main_cst_32
  let main_v86 : IVec S128x512 1 := cmpf .olt main_v84 main_v85
  let main_c_33 : IVec S_ 1 := constantI S_ 1 1#1
  let main_v87 : IVec S_ 1 := (fun x v => Host.reduce IntOp.andi x v reducesTo_S128x512_S_d0_1 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S512 .f32) (main_arg15 : FVec F S512 .f32) (main_arg16 : FVec F S512 .f32) (main_arg17 : FVec F S128x512 .f32) (main_arg18 : FVec F S128 .f32) (main_arg19 : FVec F S128 .f32) (main_arg20 : FVec F S128 .f32) (main_arg21 : FVec F S1x128 .f32) (main_arg22 : FVec F S1 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S128x512 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S4x768 .f32) (main_arg12 : FVec F S4x768 .f32) (main_arg13 : FVec F S512x6144 .f32) (main_arg14 : FVec F S512 .f32) (main_arg15 : FVec F S512 .f32) (main_arg16 : FVec F S512 .f32) (main_arg17 : FVec F S128x512 .f32) (main_arg18 : FVec F S128 .f32) (main_arg19 : FVec F S128 .f32) (main_arg20 : FVec F S128 .f32) (main_arg21 : FVec F S1x128 .f32) (main_arg22 : FVec F S1 .f32) (main_v48 : IVec S_ 1) (main_v49 : FVec F S4x768 .f32) (main_v50 : FVec F S4x768 .f32) : IVec S_ 1 :=
  let main_v51 : IVec S4x768 1 := cmpf .olt main_v49 main_v50
  let main_c_19 : IVec S_ 1 := constantI S_ 1 1#1
  let main_v52 : IVec S_ 1 := (fun x v => Host.reduce IntOp.andi x v reducesTo_S4x768_S_d0_1 h_S_) main_v51 main_c_19
  let main_v53 : IVec S_ 1 := andi main_v48 main_v52
  let main_v54 : FVec F S4x768 .f32 := Host.absf main_arg11
  let main_cst_20 : FVec F S_ .f32 := constant S_ .f32 0x7F800000#32
  let main_v55 : FVec F S4x768 .f32 := broadcastInDim S4x768 ![] bcast_S_S4x768 main_cst_20
  let main_v56 : IVec S4x768 1 := cmpf .olt main_v54 main_v55
  let main_c_21 : IVec S_ 1 := constantI S_ 1 1#1
  let main_v57 : IVec S_ 1 := (fun x v => Host.reduce IntOp.andi x v reducesTo_S4x768_S_d0_1 h_S_) main_v56 main_c_21
  let main_v58 : IVec S_ 1 := andi main_v53 main_v57
  let main_v59 : FVec F S4x768 .f32 := Host.absf main_arg12
  let main_cst_22 : FVec F S_ .f32 := constant S_ .f32 0x7F800000#32
  let main_v60 : FVec F S4x768 .f32 := broadcastInDim S4x768 ![] bcast_S_S4x768 main_cst_22
  let main_v61 : IVec S4x768 1 := cmpf .olt main_v59 main_v60
  let main_c_23 : IVec S_ 1 := constantI S_ 1 1#1
  let main_v62 : IVec S_ 1 := (fun x v => Host.reduce IntOp.andi x v reducesTo_S4x768_S_d0_1 h_S_) main_v61 main_c_23
  let main_v63 : IVec S_ 1 := andi main_v58 main_v62
  let main_v64 : FVec F S512x6144 .f32 := Host.absf main_arg13
  let main_cst_24 : FVec F S_ .f32 := constant S_ .f32 0x7F800000#32
  let main_v65 : FVec F S512x6144 .f32 := broadcastInDim S512x6144 ![] bcast_S_S512x6144 main_cst_24
  let main_v66 : IVec S512x6144 1 := cmpf .olt main_v64 main_v65
  let main_c_25 : IVec S_ 1 := constantI S_ 1 1#1
  let main_v67 : IVec S_ 1 := (fun x v => Host.reduce IntOp.andi x v reducesTo_S512x6144_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S4x2304x768 .f32) (main_arg8 : FVec F S4x2304 .f32) (main_arg9 : FVec F S4x768x768 .f32) (main_arg10 : FVec F S4x768 .f32) (main_arg11 : FVec F S4x768 .f32) (main_arg12 : FVec F S4x768 .f32) (main_arg13 : FVec F S512x6144 .f32) (main_arg14 : FVec F S512 .f32) (main_arg15 : FVec F S512 .f32) (main_arg16 : FVec F S512 .f32) (main_arg17 : FVec F S128x512 .f32) (main_arg18 : FVec F S128 .f32) (main_arg19 : FVec F S128 .f32) (main_arg20 : FVec F S128 .f32) (main_arg21 : FVec F S1x128 .f32) (main_arg22 : FVec F S1 .f32) (main_v33 : IVec S_ 1) : IVec S_ 1 :=
  let main_v34 : FVec F S4x2304x768 .f32 := Host.absf main_arg7
  let main_cst_12 : FVec F S_ .f32 := constant S_ .f32 0x7F800000#32
  let main_v35 : FVec F S4x2304x768 .f32 := broadcastInDim S4x2304x768 ![] bcast_S_S4x2304x768 main_cst_12
  let main_v36 : IVec S4x2304x768 1 := cmpf .olt main_v34 main_v35
  let main_c_13 : IVec S_ 1 := constantI S_ 1 1#1
  let main_v37 : IVec S_ 1 := (fun x v => Host.reduce IntOp.andi x v reducesTo_S4x2304x768_S_d0_1_2 h_S_) main_v36 main_c_13
  let main_v38 : IVec S_ 1 := andi main_v33 main_v37
  let main_v39 : FVec F S4x2304 .f32 := Host.absf main_arg8
  let main_cst_14 : FVec F S_ .f32 := constant S_ .f32 0x7F800000#32
  let main_v40 : FVec F S4x2304 .f32 := broadcastInDim S4x2304 ![] bcast_S_S4x2304 main_cst_14
  let main_v41 : IVec S4x2304 1 := cmpf .olt main_v39 main_v40
  let main_c_15 : IVec S_ 1 := constantI S_ 1 1#1
  let main_v42 : IVec S_ 1 := (fun x v => Host.reduce IntOp.andi x v reducesTo_S4x2304_S_d0_1 h_S_) main_v41 main_c_15
  let main_v43 : IVec S_ 1 := andi main_v38 main_v42
  let main_v44 : FVec F S4x768x768 .f32 := Host.absf main_arg9
  let main_cst_16 : FVec F S_ .f32 := constant S_ .f32 0x7F800000#32
  let main_v45 : FVec F S4x768x768 .f32 := broadcastInDim S4x768x768 ![] bcast_S_S4x768x768 main_cst_16
  let main_v46 : IVec S4x768x768 1 := cmpf .olt main_v44 main_v45
  let main_c_17 : IVec S_ 1 := constantI S_ 1 1#1
  let main_v47 : IVec S_ 1 := (fun x v => Host.reduce IntOp.andi x v reducesTo_S4x768x768_S_d0_1_2 h_S_) main_v46 main_c_17
  let main_v48 : IVec S_ 1 := andi main_v43 main_v47
  let main_v49 : FVec F S4x768 .f32 := Host.absf main_arg10
  let main_cst_18 : FVec F S_ .f32 := constant S_ .f32 0x7F800000#32
  let main_v50 : FVec F S4x768 .f32 := broadcastInDim S4x768 ![] bcast_S_S4x768 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S4x768 .f32) (main_arg5 : FVec F S4x768 .f32) (main_arg6 : FVec F S4x768 .f32) (main_arg7 : FVec F S4x2304x768 .f32) (main_arg8 : FVec F S4x2304 .f32) (main_arg9 : FVec F S4x768x768 .f32) (main_arg10 : FVec F S4x768 .f32) (main_arg11 : FVec F S4x768 .f32) (main_arg12 : FVec F S4x768 .f32) (main_arg13 : FVec F S512x6144 .f32) (main_arg14 : FVec F S512 .f32) (main_arg15 : FVec F S512 .f32) (main_arg16 : FVec F S512 .f32) (main_arg17 : FVec F S128x512 .f32) (main_arg18 : FVec F S128 .f32) (main_arg19 : FVec F S128 .f32) (main_arg20 : FVec F S128 .f32) (main_arg21 : FVec F S1x128 .f32) (main_arg22 : FVec F S1 .f32) (main_v13 : IVec S_ 1) (main_v16 : IVec S4x768x768 1) : IVec S_ 1 :=
  let main_c_5 : IVec S_ 1 := constantI S_ 1 1#1
  let main_v17 : IVec S_ 1 := (fun x v => Host.reduce IntOp.andi x v reducesTo_S4x768x768_S_d0_1_2 h_S_) main_v16 main_c_5
  let main_v18 : IVec S_ 1 := andi main_v13 main_v17
  let main_v19 : FVec F S4x768 .f32 := Host.absf main_arg4
  let main_cst_6 : FVec F S_ .f32 := constant S_ .f32 0x7F800000#32
  let main_v20 : FVec F S4x768 .f32 := broadcastInDim S4x768 ![] bcast_S_S4x768 main_cst_6
  let main_v21 : IVec S4x768 1 := cmpf .olt main_v19 main_v20
  let main_c_7 : IVec S_ 1 := constantI S_ 1 1#1
  let main_v22 : IVec S_ 1 := (fun x v => Host.reduce IntOp.andi x v reducesTo_S4x768_S_d0_1 h_S_) main_v21 main_c_7
  let main_v23 : IVec S_ 1 := andi main_v18 main_v22
  let main_v24 : FVec F S4x768 .f32 := Host.absf main_arg5
  let main_cst_8 : FVec F S_ .f32 := constant S_ .f32 0x7F800000#32
  let main_v25 : FVec F S4x768 .f32 := broadcastInDim S4x768 ![] bcast_S_S4x768 main_cst_8
  let main_v26 : IVec S4x768 1 := cmpf .olt main_v24 main_v25
  let main_c_9 : IVec S_ 1 := constantI S_ 1 1#1
  let main_v27 : IVec S_ 1 := (fun x v => Host.reduce IntOp.andi x v reducesTo_S4x768_S_d0_1 h_S_) main_v26 main_c_9
  let main_v28 : IVec S_ 1 := andi main_v23 main_v27
  let main_v29 : FVec F S4x768 .f32 := Host.absf main_arg6
  let main_cst_10 : FVec F S_ .f32 := constant S_ .f32 0x7F800000#32
  let main_v30 : FVec F S4x768 .f32 := broadcastInDim S4x768 ![] bcast_S_S4x768 main_cst_10
  let main_v31 : IVec S4x768 1 := cmpf .olt main_v29 main_v30
  let main_c_11 : IVec S_ 1 := constantI S_ 1 1#1
  let main_v32 : IVec S_ 1 := (fun x v => Host.reduce IntOp.andi x v reducesTo_S4x768_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S4096x6144 .f32) (main_arg1 : FVec F S4x2304x768 .f32) (main_arg2 : FVec F S4x2304 .f32) (main_arg3 : FVec F S4x768x768 .f32) (main_arg4 : FVec F S4x768 .f32) (main_arg5 : FVec F S4x768 .f32) (main_arg6 : FVec F S4x768 .f32) (main_arg7 : FVec F S4x2304x768 .f32) (main_arg8 : FVec F S4x2304 .f32) (main_arg9 : FVec F S4x768x768 .f32) (main_arg10 : FVec F S4x768 .f32) (main_arg11 : FVec F S4x768 .f32) (main_arg12 : FVec F S4x768 .f32) (main_arg13 : FVec F S512x6144 .f32) (main_arg14 : FVec F S512 .f32) (main_arg15 : FVec F S512 .f32) (main_arg16 : FVec F S512 .f32) (main_arg17 : FVec F S128x512 .f32) (main_arg18 : FVec F S128 .f32) (main_arg19 : FVec F S128 .f32) (main_arg20 : FVec F S128 .f32) (main_arg21 : FVec F S1x128 .f32) (main_arg22 : FVec F S1 .f32) : IVec S_ 1 :=
  let main_v0 : FVec F S4096x6144 .f32 := Host.absf main_arg0
  let main_cst : FVec F S_ .f32 := constant S_ .f32 0x7F800000#32
  let main_v1 : FVec F S4096x6144 .f32 := broadcastInDim S4096x6144 ![] bcast_S_S4096x6144 main_cst
  let main_v2 : IVec S4096x6144 1 := cmpf .olt main_v0 main_v1
  let main_c : IVec S_ 1 := constantI S_ 1 1#1
  let main_v3 : IVec S_ 1 := (fun x v => Host.reduce IntOp.andi x v reducesTo_S4096x6144_S_d0_1 h_S_) main_v2 main_c
  let main_v4 : FVec F S4x2304x768 .f32 := Host.absf main_arg1
  let main_cst_0 : FVec F S_ .f32 := constant S_ .f32 0x7F800000#32
  let main_v5 : FVec F S4x2304x768 .f32 := broadcastInDim S4x2304x768 ![] bcast_S_S4x2304x768 main_cst_0
  let main_v6 : IVec S4x2304x768 1 := cmpf .olt main_v4 main_v5
  let main_c_1 : IVec S_ 1 := constantI S_ 1 1#1
  let main_v7 : IVec S_ 1 := (fun x v => Host.reduce IntOp.andi x v reducesTo_S4x2304x768_S_d0_1_2 h_S_) main_v6 main_c_1
  let main_v8 : IVec S_ 1 := andi main_v3 main_v7
  let main_v9 : FVec F S4x2304 .f32 := Host.absf main_arg2
  let main_cst_2 : FVec F S_ .f32 := constant S_ .f32 0x7F800000#32
  let main_v10 : FVec F S4x2304 .f32 := broadcastInDim S4x2304 ![] bcast_S_S4x2304 main_cst_2
  let main_v11 : IVec S4x2304 1 := cmpf .olt main_v9 main_v10
  let main_c_3 : IVec S_ 1 := constantI S_ 1 1#1
  let main_v12 : IVec S_ 1 := (fun x v => Host.reduce IntOp.andi x v reducesTo_S4x2304_S_d0_1 h_S_) main_v11 main_c_3
  let main_v13 : IVec S_ 1 := andi main_v8 main_v12
  let main_v14 : FVec F S4x768x768 .f32 := Host.absf main_arg3
  let main_cst_4 : FVec F S_ .f32 := constant S_ .f32 0x7F800000#32
  let main_v15 : FVec F S4x768x768 .f32 := broadcastInDim S4x768x768 ![] bcast_S_S4x768x768 main_cst_4
  let main_v16 : IVec S4x768x768 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S4096x6144 : Shape := ⟨2, ![4096, 6144]⟩
abbrev S4x2304x768 : Shape := ⟨3, ![4, 2304, 768]⟩
abbrev S4x2304 : Shape := ⟨2, ![4, 2304]⟩
abbrev S4x768x768 : Shape := ⟨3, ![4, 768, 768]⟩
abbrev S4x768 : Shape := ⟨2, ![4, 768]⟩
abbrev S512x6144 : Shape := ⟨2, ![512, 6144]⟩
abbrev S512 : Shape := ⟨1, ![512]⟩
abbrev S128x512 : Shape := ⟨2, ![128, 512]⟩
abbrev S128 : Shape := ⟨1, ![128]⟩
abbrev S1x128 : Shape := ⟨2, ![1, 128]⟩
abbrev S1 : Shape := ⟨1, ![1]⟩
abbrev S4096x3072 : Shape := ⟨2, ![4096, 3072]⟩
abbrev S128x3072 : Shape := ⟨2, ![128, 3072]⟩
abbrev S128x6144 : Shape := ⟨2, ![128, 6144]⟩
abbrev S128x768 : Shape := ⟨2, ![128, 768]⟩
abbrev S1x768x768 : Shape := ⟨3, ![1, 768, 768]⟩
abbrev S768x768 : Shape := ⟨2, ![768, 768]⟩
abbrev S1x768 : Shape := ⟨2, ![1, 768]⟩
abbrev S768 : Shape := ⟨1, ![768]⟩
abbrev S6144x512 : Shape := ⟨2, ![6144, 512]⟩
abbrev S512x128 : Shape := ⟨2, ![512, 128]⟩
abbrev S128x1 : Shape := ⟨2, ![128, 1]⟩
abbrev S4096x1 : Shape := ⟨2, ![4096, 1]⟩
abbrev S512x1 : Shape := ⟨2, ![512, 1]⟩
abbrev S512x512 : Shape := ⟨2, ![512, 512]⟩
abbrev S1x512 : Shape := ⟨2, ![1, 512]⟩
abbrev S1x1 : Shape := ⟨2, ![1, 1]⟩

abbrev nBuf : Space → Nat
  | .hbm => 45
  | .vmem => 32
  | .smem => 0
  | _ => 0

abbrev bufTy : (tb : Table) → Fin (tcTables nBuf tb) → BufTy
  | .hbm, ⟨0, _⟩ => ⟨S4096x6144, .f32⟩
  | .hbm, ⟨1, _⟩ => ⟨S4x2304x768, .f32⟩
  | .hbm, ⟨2, _⟩ => ⟨S4x2304, .f32⟩
  | .hbm, ⟨3, _⟩ => ⟨S4x768x768, .f32⟩
  | .hbm, ⟨4, _⟩ => ⟨S4x768, .f32⟩
  | .hbm, ⟨5, _⟩ => ⟨S4x768, .f32⟩
  | .hbm, ⟨6, _⟩ => ⟨S4x768, .f32⟩
  | .hbm, ⟨7, _⟩ => ⟨S4x2304x768, .f32⟩
  | .hbm, ⟨8, _⟩ => ⟨S4x2304, .f32⟩
  | .hbm, ⟨9, _⟩ => ⟨S4x768x768, .f32⟩
  | .hbm, ⟨10, _⟩ => ⟨S4x768, .f32⟩
  | .hbm, ⟨11, _⟩ => ⟨S4x768, .f32⟩
  | .hbm, ⟨12, _⟩ => ⟨S4x768, .f32⟩
  | .hbm, ⟨13, _⟩ => ⟨S512x6144, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S128x512, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S1x128, .f32⟩
  | .hbm, ⟨22, _⟩ => ⟨S1, .f32⟩
  | .hbm, ⟨23, _⟩ => ⟨S4096x3072, .f32⟩
  | .hbm, ⟨24, _⟩ => ⟨S4096x3072, .f32⟩
  | .hbm, ⟨25, _⟩ => ⟨S4x768x768, .f32⟩
  | .hbm, ⟨26, _⟩ => ⟨S4x768, .f32⟩
  | .hbm, ⟨27, _⟩ => ⟨S4x768x768, .f32⟩
  | .hbm, ⟨28, _⟩ => ⟨S4x768x768, .bf16⟩
  | .hbm, ⟨29, _⟩ => ⟨S4x768x768, .f32⟩
  | .hbm, ⟨30, _⟩ => ⟨S4x768x768, .bf16⟩
  | .hbm, ⟨31, _⟩ => ⟨S4x768x768, .f32⟩
  | .hbm, ⟨32, _⟩ => ⟨S4x768, .f32⟩
  | .hbm, ⟨33, _⟩ => ⟨S4x768x768, .f32⟩
  | .hbm, ⟨34, _⟩ => ⟨S4x768x768, .bf16⟩
  | .hbm, ⟨35, _⟩ => ⟨S4x768x768, .f32⟩
  | .hbm, ⟨36, _⟩ => ⟨S4x768x768, .bf16⟩
  | .hbm, ⟨37, _⟩ => ⟨S4096x6144, .f32⟩
  | .hbm, ⟨38, _⟩ => ⟨S6144x512, .f32⟩
  | .hbm, ⟨39, _⟩ => ⟨S6144x512, .bf16⟩
  | .hbm, ⟨40, _⟩ => ⟨S512x128, .f32⟩
  | .hbm, ⟨41, _⟩ => ⟨S512x128, .bf16⟩
  | .hbm, ⟨42, _⟩ => ⟨S128x1, .f32⟩
  | .hbm, ⟨43, _⟩ => ⟨S128x1, .bf16⟩
  | .hbm, ⟨44, _⟩ => ⟨S4096x1, .f32⟩
  | .local _ .vmem, ⟨0, _⟩ => ⟨S128x3072, .f32⟩
  | .local _ .vmem, ⟨1, _⟩ => ⟨S128x3072, .f32⟩
  | .local _ .vmem, ⟨2, _⟩ => ⟨S128x3072, .f32⟩
  | .local _ .vmem, ⟨3, _⟩ => ⟨S128x3072, .f32⟩
  | .local _ .vmem, ⟨4, _⟩ => ⟨S4x768x768, .bf16⟩
  | .local _ .vmem, ⟨5, _⟩ => ⟨S4x768x768, .bf16⟩
  | .local _ .vmem, ⟨6, _⟩ => ⟨S4x768, .f32⟩
  | .local _ .vmem, ⟨7, _⟩ => ⟨S4x768, .f32⟩
  | .local _ .vmem, ⟨8, _⟩ => ⟨S4x768, .f32⟩
  | .local _ .vmem, ⟨9, _⟩ => ⟨S4x768, .f32⟩
  | .local _ .vmem, ⟨10, _⟩ => ⟨S4x768x768, .bf16⟩
  | .local _ .vmem, ⟨11, _⟩ => ⟨S4x768x768, .bf16⟩
  | .local _ .vmem, ⟨12, _⟩ => ⟨S4x768, .f32⟩
  | .local _ .vmem, ⟨13, _⟩ => ⟨S4x768, .f32⟩
  | .local _ .vmem, ⟨14, _⟩ => ⟨S4x768, .f32⟩
  | .local _ .vmem, ⟨15, _⟩ => ⟨S4x768, .f32⟩
  | .local _ .vmem, ⟨16, _⟩ => ⟨S128x6144, .f32⟩
  | .local _ .vmem, ⟨17, _⟩ => ⟨S128x6144, .f32⟩
  | .local _ .vmem, ⟨18, _⟩ => ⟨S512x6144, .f32⟩
  | .local _ .vmem, ⟨19, _⟩ => ⟨S512x6144, .f32⟩
  | .local _ .vmem, ⟨20, _⟩ => ⟨S6144x512, .bf16⟩
  | .local _ .vmem, ⟨21, _⟩ => ⟨S512, .f32⟩
  | .local _ .vmem, ⟨22, _⟩ => ⟨S512, .f32⟩
  | .local _ .vmem, ⟨23, _⟩ => ⟨S512, .f32⟩
  | .local _ .vmem, ⟨24, _⟩ => ⟨S512x128, .bf16⟩
  | .local _ .vmem, ⟨25, _⟩ => ⟨S128, .f32⟩
  | .local _ .vmem, ⟨26, _⟩ => ⟨S128, .f32⟩
  | .local _ .vmem, ⟨27, _⟩ => ⟨S128, .f32⟩
  | .local _ .vmem, ⟨28, _⟩ => ⟨S128x1, .bf16⟩
  | .local _ .vmem, ⟨29, _⟩ => ⟨S1, .f32⟩
  | .local _ .vmem, ⟨30, _⟩ => ⟨S512x1, .f32⟩
  | .local _ .vmem, ⟨31, _⟩ => ⟨S512x1, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg11_0 : Ref sig .tc := ⟨.vmem, 30, rfl⟩
abbrev cc1_stg11_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc1_sem0_0 : DmaSem sig := 18
abbrev cc1_sem0_1 : DmaSem sig := 19
abbrev cc1_sem1_0 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem10_0 : DmaSem sig := 29
abbrev cc1_sem11_0 : DmaSem sig := 30
abbrev cc1_sem11_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x768x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x768x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S128x6144 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x6144 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S6144x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x1 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S512x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S4096x6144_S4096x3072_0_0 : S4096x6144.Slices ![0, 0] S4096x3072
  slices_S4096x6144_S4096x3072_0_3072 : S4096x6144.Slices ![0, 3072] S4096x3072
  slices_S4x2304x768_S4x768x768_0_1536_0 : S4x2304x768.Slices ![0, 1536, 0] S4x768x768
  slices_S4x2304_S4x768_0_1536 : S4x2304.Slices ![0, 1536] S4x768
  transposes_S4x768x768_S4x768x768_0_2_1 : S4x768x768.Transposes [0, 2, 1] S4x768x768
  bitsLt_bf16_f32 : FTy.bits .bf16 < FTy.bits .f32
  inb_S128x3072_S128x768_0_0 : ∀ a, (![0, 0] : Fin 2 → Nat) a + S128x768.size a ≤ S128x3072.size a
  h_S128x768 : 0 < S128x768.numel
  shapeCasts_S128x768_S128x768 : S128x768.ShapeCasts S128x768
  inb_S4x768x768_S1x768x768_0_0_0 : ∀ a, (![0, 0, 0] : Fin 3 → Nat) a + S1x768x768.size a ≤ S4x768x768.size a
  h_S1x768x768 : 0 < S1x768x768.numel
  shapeCasts_S1x768x768_S768x768 : S1x768x768.ShapeCasts S768x768
  inb_S4x768_S1x768_0_0 : ∀ a, (![0, 0] : Fin 2 → Nat) a + S1x768.size a ≤ S4x768.size a
  h_S1x768 : 0 < S1x768.numel
  shapeCasts_S1x768_S768 : S1x768.ShapeCasts S768
  shapeCasts_S768_S1x768 : S768.ShapeCasts S1x768
  broadcasts_S1x768_S128x768 : S1x768.Broadcasts S128x768
  inb_S128x6144_S128x768_0_0 : ∀ a, (![0, 0] : Fin 2 → Nat) a + S128x768.size a ≤ S128x6144.size a
  inb_S128x3072_S128x768_0_768 : ∀ a, (![0, 768] : Fin 2 → Nat) a + S128x768.size a ≤ S128x3072.size a
  inb_S4x768x768_S1x768x768_1_0_0 : ∀ a, (![1, 0, 0] : Fin 3 → Nat) a + S1x768x768.size a ≤ S4x768x768.size a
  inb_S4x768_S1x768_1_0 : ∀ a, (![1, 0] : Fin 2 → Nat) a + S1x768.size a ≤ S4x768.size a
  inb_S128x6144_S128x768_0_768 : ∀ a, (![0, 768] : Fin 2 → Nat) a + S128x768.size a ≤ S128x6144.size a
  inb_S128x3072_S128x768_0_1536 : ∀ a, (![0, 1536] : Fin 2 → Nat) a + S128x768.size a ≤ S128x3072.size a
  inb_S4x768x768_S1x768x768_2_0_0 : ∀ a, (![2, 0, 0] : Fin 3 → Nat) a + S1x768x768.size a ≤ S4x768x768.size a
  inb_S4x768_S1x768_2_0 : ∀ a, (![2, 0] : Fin 2 → Nat) a + S1x768.size a ≤ S4x768.size a
  inb_S128x6144_S128x768_0_1536 : ∀ a, (![0, 1536] : Fin 2 → Nat) a + S128x768.size a ≤ S128x6144.size a
  inb_S128x3072_S128x768_0_2304 : ∀ a, (![0, 2304] : Fin 2 → Nat) a + S128x768.size a ≤ S128x3072.size a
  inb_S4x768x768_S1x768x768_3_0_0 : ∀ a, (![3, 0, 0] : Fin 3 → Nat) a + S1x768x768.size a ≤ S4x768x768.size a
  inb_S4x768_S1x768_3_0 : ∀ a, (![3, 0] : Fin 2 → Nat) a + S1x768.size a ≤ S4x768.size a
  inb_S128x6144_S128x768_0_2304 : ∀ a, (![0, 2304] : Fin 2 → Nat) a + S128x768.size a ≤ S128x6144.size a
  inb_S128x6144_S128x768_0_3072 : ∀ a, (![0, 3072] : Fin 2 → Nat) a + S128x768.size a ≤ S128x6144.size a
  inb_S128x6144_S128x768_0_3840 : ∀ a, (![0, 3840] : Fin 2 → Nat) a + S128x768.size a ≤ S128x6144.size a
  inb_S128x6144_S128x768_0_4608 : ∀ a, (![0, 4608] : Fin 2 → Nat) a + S128x768.size a ≤ S128x6144.size a
  inb_S128x6144_S128x768_0_5376 : ∀ a, (![0, 5376] : Fin 2 → Nat) a + S128x768.size a ≤ S128x6144.size a
  transposes_S512x6144_S6144x512_1_0 : S512x6144.Transposes [1, 0] S6144x512
  transposes_S128x512_S512x128_1_0 : S128x512.Transposes [1, 0] S512x128
  transposes_S1x128_S128x1_1_0 : S1x128.Transposes [1, 0] S128x1
  inb_S512x6144_S512x6144_0_0 : ∀ a, (![0, 0] : Fin 2 → Nat) a + S512x6144.size a ≤ S512x6144.size a
  h_S512x6144 : 0 < S512x6144.numel
  shapeCasts_S512x6144_S512x6144 : S512x6144.ShapeCasts S512x6144
  inb_S6144x512_S6144x512_0_0 : ∀ a, (![0, 0] : Fin 2 → Nat) a + S6144x512.size a ≤ S6144x512.size a
  h_S6144x512 : 0 < S6144x512.numel
  shapeCasts_S6144x512_S6144x512 : S6144x512.ShapeCasts S6144x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  dot_S128x768_S768x768_S128x768_1_0_0_1_n_n_wf : DotDims.WF S128x768 S768x768 S128x768 [1] [0] [0] [1] [] []
  dot_S512x6144_S6144x512_S512x512_1_0_0_1_n_n_wf : DotDims.WF S512x6144 S6144x512 S512x512 [1] [0] [0] [1] [] []
  dot_S512x512_S512x128_S512x128_1_0_0_1_n_n_wf : DotDims.WF S512x512 S512x128 S512x128 [1] [0] [0] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x3072.size a ≤ S4096x3072.size a
  hwx0_0 : ∀ i : grid0.Coords, EltTy.bits .f32 = 32 ∨ (Rect.block (s := S4096x3072) S128x3072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x3072.size a ≤ S4096x3072.size a
  hwx0_1 : ∀ i : grid0.Coords, EltTy.bits .f32 = 32 ∨ (Rect.block (s := S4096x3072) S128x3072.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x768x768.size a ≤ S4x768x768.size a
  hwx0_2 : ∀ i : grid0.Coords, EltTy.bits .bf16 = 32 ∨ (Rect.block (s := S4x768x768) S4x768x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x768x768.size a ≤ S4x768x768.size a
  hwx0_3 : ∀ i : grid0.Coords, EltTy.bits .bf16 = 32 ∨ (Rect.block (s := S4x768x768) S4x768x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x768.size a ≤ S4x768.size a
  hwx0_4 : ∀ i : grid0.Coords, EltTy.bits .f32 = 32 ∨ (Rect.block (s := S4x768) S4x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x768.size a ≤ S4x768.size a
  hwx0_5 : ∀ i : grid0.Coords, EltTy.bits .f32 = 32 ∨ (Rect.block (s := S4x768) S4x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x768.size a ≤ S4x768.size a
  hwx0_6 : ∀ i : grid0.Coords, EltTy.bits .f32 = 32 ∨ (Rect.block (s := S4x768) S4x768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x768.size a ≤ S4x768.size a
  hwx0_7 : ∀ i : grid0.Coords, EltTy.bits .f32 = 32 ∨ (Rect.block (s := S4x768) S4x768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x768x768.size a ≤ S4x768x768.size a
  hwx0_8 : ∀ i : grid0.Coords, EltTy.bits .bf16 = 32 ∨ (Rect.block (s := S4x768x768) S4x768x768.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4x768x768.size a ≤ S4x768x768.size a
  hwx0_9 : ∀ i : grid0.Coords, EltTy.bits .bf16 = 32 ∨ (Rect.block (s := S4x768x768) S4x768x768.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S4x768.size a ≤ S4x768.size a
  hwx0_10 : ∀ i : grid0.Coords, EltTy.bits .f32 = 32 ∨ (Rect.block (s := S4x768) S4x768.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S4x768.size a ≤ S4x768.size a
  hwx0_11 : ∀ i : grid0.Coords, EltTy.bits .f32 = 32 ∨ (Rect.block (s := S4x768) S4x768.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S4x768.size a ≤ S4x768.size a
  hwx0_12 : ∀ i : grid0.Coords, EltTy.bits .f32 = 32 ∨ (Rect.block (s := S4x768) S4x768.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S4x768.size a ≤ S4x768.size a
  hwx0_13 : ∀ i : grid0.Coords, EltTy.bits .f32 = 32 ∨ (Rect.block (s := S4x768) S4x768.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S128x6144.size a ≤ S4096x6144.size a
  hwx0_14 : ∀ i : grid0.Coords, EltTy.bits .f32 = 32 ∨ (Rect.block (s := S4096x6144) S128x6144.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x6144.size a ≤ S4096x6144.size a
  hwx1_0 : ∀ i : grid1.Coords, EltTy.bits .f32 = 32 ∨ (Rect.block (s := S4096x6144) S512x6144.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S6144x512.size a ≤ S6144x512.size a
  hwx1_1 : ∀ i : grid1.Coords, EltTy.bits .bf16 = 32 ∨ (Rect.block (s := S6144x512) S6144x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S512.size a
  hwx1_3 : ∀ i : grid1.Coords, EltTy.bits .f32 = 32 ∨ (Rect.block (s := S512) S512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S512.size a
  hwx1_4 : ∀ i : grid1.Coords, EltTy.bits .f32 = 32 ∨ (Rect.block (s := S512) S512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S512x128.size a
  hwx1_5 : ∀ i : grid1.Coords, EltTy.bits .bf16 = 32 ∨ (Rect.block (s := S512x128) S512x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x1.size a ≤ S128x1.size a
  hwx1_9 : ∀ i : grid1.Coords, EltTy.bits .bf16 = 32 ∨ (Rect.block (s := S128x1) S128x1.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1.size a ≤ S1.size a
  hwx1_10 : ∀ i : grid1.Coords, EltTy.bits .f32 = 32 ∨ (Rect.block (s := S1) S1.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S512x1.size a ≤ S4096x1.size a
  hwx1_11 : ∀ i : grid1.Coords, EltTy.bits .f32 = 32 ∨ (Rect.block (s := S4096x1) S512x1.size (cc1_transform_11 i) (hinb1_11 i)).WholeWords (EltTy.packing .f32)

variable [Facts₀]

def dot_S128x768_S768x768_S128x768_1_0_0_1_n_n : DotDims S128x768 S768x768 S128x768 where
  lhsContracting := [1]
  rhsContracting := [0]
  lhsNonContracting := [0]
  rhsNonContracting := [1]
  lhsBatch := []
  rhsBatch := []
  wf := dot_S128x768_S768x768_S128x768_1_0_0_1_n_n_wf
def dot_S512x6144_S6144x512_S512x512_1_0_0_1_n_n : DotDims S512x6144 S6144x512 S512x512 where
  lhsContracting := [1]
  rhsContracting := [0]
  lhsNonContracting := [0]
  rhsNonContracting := [1]
  lhsBatch := []
  rhsBatch := []
  wf := dot_S512x6144_S6144x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_v0) S128x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x3072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4x768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S4x768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S4x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S4x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S4x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S4x768x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S4x768x768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S4x768.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S4x768.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S4x768.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S4x768.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v14) S128x6144.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_v14) S512x6144.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S6144x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg14) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg15) S512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg16) S512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S512x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg18) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg19) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg20) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v20) S128x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg22) S1.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v21) S512x1.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S4096x6144 : Shape := ⟨2, ![4096, 6144]⟩
abbrev S4x2304x768 : Shape := ⟨3, ![4, 2304, 768]⟩
abbrev S4x2304 : Shape := ⟨2, ![4, 2304]⟩
abbrev S4x768x768 : Shape := ⟨3, ![4, 768, 768]⟩
abbrev S4x768 : Shape := ⟨2, ![4, 768]⟩
abbrev S512x6144 : Shape := ⟨2, ![512, 6144]⟩
abbrev S512 : Shape := ⟨1, ![512]⟩
abbrev S128x512 : Shape := ⟨2, ![128, 512]⟩
abbrev S128 : Shape := ⟨1, ![128]⟩
abbrev S1x128 : Shape := ⟨2, ![1, 128]⟩
abbrev S1 : Shape := ⟨1, ![1]⟩
abbrev S4096x768 : Shape := ⟨2, ![4096, 768]⟩
abbrev S1x2304x768 : Shape := ⟨3, ![1, 2304, 768]⟩
abbrev S2304x768 : Shape := ⟨2, ![2304, 768]⟩
abbrev S1x2304 : Shape := ⟨2, ![1, 2304]⟩
abbrev S2304 : Shape := ⟨1, ![2304]⟩
abbrev S1x768x768 : Shape := ⟨3, ![1, 768, 768]⟩
abbrev S768x768 : Shape := ⟨2, ![768, 768]⟩
abbrev S1x768 : Shape := ⟨2, ![1, 768]⟩
abbrev S768 : Shape := ⟨1, ![768]⟩
abbrev S4096x4x192 : Shape := ⟨3, ![4096, 4, 192]⟩
abbrev S_ : Shape := ⟨0, ![]⟩
abbrev S4096x4 : Shape := ⟨2, ![4096, 4]⟩
abbrev S4096x4x1 : Shape := ⟨3, ![4096, 4, 1]⟩
abbrev S4096x3072 : Shape := ⟨2, ![4096, 3072]⟩
abbrev S6144x512 : Shape := ⟨2, ![6144, 512]⟩
abbrev S4096x512 : Shape := ⟨2, ![4096, 512]⟩
abbrev S1x512 : Shape := ⟨2, ![1, 512]⟩
abbrev S512x128 : Shape := ⟨2, ![512, 128]⟩
abbrev S4096x128 : Shape := ⟨2, ![4096, 128]⟩
abbrev S128x1 : Shape := ⟨2, ![128, 1]⟩
abbrev S4096x1 : Shape := ⟨2, ![4096, 1]⟩
abbrev S1x1 : Shape := ⟨2, ![1, 1]⟩

abbrev nBuf : Space → Nat
  | .hbm => 637
  | .vmem => 0
  | .smem => 0
  | _ => 0

abbrev hbmTy0_0 (i : Nat) : BufTy := match i % 128 with
  | 0 => ⟨S4096x6144, .f32⟩
  | 1 => ⟨S4x2304x768, .f32⟩
  | 2 => ⟨S4x2304, .f32⟩
  | 3 => ⟨S4x768x768, .f32⟩
  | 4 => ⟨S4x768, .f32⟩
  | 5 => ⟨S4x768, .f32⟩
  | 6 => ⟨S4x768, .f32⟩
  | 7 => ⟨S4x2304x768, .f32⟩
  | 8 => ⟨S4x2304, .f32⟩
  | 9 => ⟨S4x768x768, .f32⟩
  | 10 => ⟨S4x768, .f32⟩
  | 11 => ⟨S4x768, .f32⟩
  | 12 => ⟨S4x768, .f32⟩
  | 13 => ⟨S512x6144, .f32⟩
  | 14 => ⟨S512, .f32⟩
  | 15 => ⟨S512, .f32⟩
  | 16 => ⟨S512, .f32⟩
  | 17 => ⟨S128x512, .f32⟩
  | 18 => ⟨S128, .f32⟩
  | 19 => ⟨S128, .f32⟩
  | 20 => ⟨S128, .f32⟩
  | 21 => ⟨S1x128, .f32⟩
  | 22 => ⟨S1, .f32⟩
  | 23 => ⟨S4096x768, .f32⟩
  | 24 => ⟨S4096x768, .f32⟩
  | 25 => ⟨S4096x768, .f32⟩
  | 26 => ⟨S4096x768, .f32⟩
  | 27 => ⟨S1x2304x768, .f32⟩
  | 28 => ⟨S2304x768, .f32⟩
  | 29 => ⟨S1x2304, .f32⟩
  | 30 => ⟨S2304, .f32⟩
  | 31 => ⟨S1x768x768, .f32⟩
  | 32 => ⟨S768x768, .f32⟩
  | 33 => ⟨S1x768, .f32⟩
  | 34 => ⟨S768, .f32⟩
  | 35 => ⟨S768x768, .f32⟩
  | 36 => ⟨S768x768, .f32⟩
  | 37 => ⟨S768x768, .f32⟩
  | 38 => ⟨S768, .f32⟩
  | 39 => ⟨S768, .f32⟩
  | 40 => ⟨S768, .f32⟩
  | 41 => ⟨S768x768, .f32⟩
  | 42 => ⟨S4096x768, .f32⟩
  | 43 => ⟨S1x768, .f32⟩
  | 44 => ⟨S4096x768, .f32⟩
  | 45 => ⟨S4096x768, .f32⟩
  | 46 => ⟨S4096x4x192, .f32⟩
  | 47 => ⟨S768x768, .f32⟩
  | 48 => ⟨S4096x768, .f32⟩
  | 49 => ⟨S1x768, .f32⟩
  | 50 => ⟨S4096x768, .f32⟩
  | 51 => ⟨S4096x768, .f32⟩
  | 52 => ⟨S4096x4x192, .f32⟩
  | 53 => ⟨S768x768, .f32⟩
  | 54 => ⟨S4096x768, .f32⟩
  | 55 => ⟨S1x768, .f32⟩
  | 56 => ⟨S4096x768, .f32⟩
  | 57 => ⟨S4096x768, .f32⟩
  | 58 => ⟨S4096x4x192, .f32⟩
  | 59 => ⟨S4096x4x192, .f32⟩
  | 60 => ⟨S_, .f32⟩
  | 61 => ⟨S4096x4, .f32⟩
  | 62 => ⟨S4096x4x1, .f32⟩
  | 63 => ⟨S_, .f32⟩
  | 64 => ⟨S_, .f32⟩
  | 65 => ⟨S4096x4x1, .f32⟩
  | 66 => ⟨S4096x4x1, .f32⟩
  | 67 => ⟨S_, .f32⟩
  | 68 => ⟨S4096x4, .f32⟩
  | 69 => ⟨S_, .f32⟩
  | 70 => ⟨S4096x4, .f32⟩
  | 71 => ⟨S4096x4, .f32⟩
  | 72 => ⟨S4096x4x1, .f32⟩
  | 73 => ⟨S4096x4x1, .f32⟩
  | 74 => ⟨S4096x4x1, .f32⟩
  | 75 => ⟨S_, .f32⟩
  | 76 => ⟨S4096x4, .f32⟩
  | 77 => ⟨S4096x4x1, .f32⟩
  | 78 => ⟨S4096x4x1, .f32⟩
  | 79 => ⟨S4096x4x192, .f32⟩
  | 80 => ⟨S4096x4x192, .f32⟩
  | 81 => ⟨S4096x768, .f32⟩
  | 82 => ⟨S768x768, .f32⟩
  | 83 => ⟨S4096x768, .f32⟩
  | 84 => ⟨S1x768, .f32⟩
  | 85 => ⟨S4096x768, .f32⟩
  | 86 => ⟨S4096x768, .f32⟩
  | 87 => ⟨S1x2304x768, .f32⟩
  | 88 => ⟨S2304x768, .f32⟩
  | 89 => ⟨S1x2304, .f32⟩
  | 90 => ⟨S2304, .f32⟩
  | 91 => ⟨S1x768x768, .f32⟩
  | 92 => ⟨S768x768, .f32⟩
  | 93 => ⟨S1x768, .f32⟩
  | 94 => ⟨S768, .f32⟩
  | 95 => ⟨S768x768, .f32⟩
  | 96 => ⟨S768x768, .f32⟩
  | 97 => ⟨S768x768, .f32⟩
  | 98 => ⟨S768, .f32⟩
  | 99 => ⟨S768, .f32⟩
  | 100 => ⟨S768, .f32⟩
  | 101 => ⟨S768x768, .f32⟩
  | 102 => ⟨S4096x768, .f32⟩
  | 103 => ⟨S1x768, .f32⟩
  | 104 => ⟨S4096x768, .f32⟩
  | 105 => ⟨S4096x768, .f32⟩
  | 106 => ⟨S4096x4x192, .f32⟩
  | 107 => ⟨S768x768, .f32⟩
  | 108 => ⟨S4096x768, .f32⟩
  | 109 => ⟨S1x768, .f32⟩
  | 110 => ⟨S4096x768, .f32⟩
  | 111 => ⟨S4096x768, .f32⟩
  | 112 => ⟨S4096x4x192, .f32⟩
  | 113 => ⟨S768x768, .f32⟩
  | 114 => ⟨S4096x768, .f32⟩
  | 115 => ⟨S1x768, .f32⟩
  | 116 => ⟨S4096x768, .f32⟩
  | 117 => ⟨S4096x768, .f32⟩
  | 118 => ⟨S4096x4x192, .f32⟩
  | 119 => ⟨S4096x4x192, .f32⟩
  | 120 => ⟨S_, .f32⟩
  | 121 => ⟨S4096x4, .f32⟩
  | 122 => ⟨S4096x4x1, .f32⟩
  | 123 => ⟨S_, .f32⟩
  | 124 => ⟨S_, .f32⟩
  | 125 => ⟨S4096x4x1, .f32⟩
  | 126 => ⟨S4096x4x1, .f32⟩
  | 127 => ⟨S_, .f32⟩
  | _ => ⟨S4096x6144, .f32⟩

abbrev hbmTy0_1 (i : Nat) : BufTy := match i % 128 with
  | 0 => ⟨S4096x4, .f32⟩
  | 1 => ⟨S_, .f32⟩
  | 2 => ⟨S4096x4, .f32⟩
  | 3 => ⟨S4096x4, .f32⟩
  | 4 => ⟨S4096x4x1, .f32⟩
  | 5 => ⟨S4096x4x1, .f32⟩
  | 6 => ⟨S4096x4x1, .f32⟩
  | 7 => ⟨S_, .f32⟩
  | 8 => ⟨S4096x4, .f32⟩
  | 9 => ⟨S4096x4x1, .f32⟩
  | 10 => ⟨S4096x4x1, .f32⟩
  | 11 => ⟨S4096x4x192, .f32⟩
  | 12 => ⟨S4096x4x192, .f32⟩
  | 13 => ⟨S4096x768, .f32⟩
  | 14 => ⟨S768x768, .f32⟩
  | 15 => ⟨S4096x768, .f32⟩
  | 16 => ⟨S1x768, .f32⟩
  | 17 => ⟨S4096x768, .f32⟩
  | 18 => ⟨S4096x768, .f32⟩
  | 19 => ⟨S4096x768, .f32⟩
  | 20 => ⟨S1x768, .f32⟩
  | 21 => ⟨S768, .f32⟩
  | 22 => ⟨S1x768, .f32⟩
  | 23 => ⟨S768, .f32⟩
  | 24 => ⟨S_, .f32⟩
  | 25 => ⟨S768, .f32⟩
  | 26 => ⟨S768, .f32⟩
  | 27 => ⟨S1x768, .f32⟩
  | 28 => ⟨S4096x768, .f32⟩
  | 29 => ⟨S4096x768, .f32⟩
  | 30 => ⟨S1x768, .f32⟩
  | 31 => ⟨S4096x768, .f32⟩
  | 32 => ⟨S4096x768, .f32⟩
  | 33 => ⟨S1x2304x768, .f32⟩
  | 34 => ⟨S2304x768, .f32⟩
  | 35 => ⟨S1x2304, .f32⟩
  | 36 => ⟨S2304, .f32⟩
  | 37 => ⟨S1x768x768, .f32⟩
  | 38 => ⟨S768x768, .f32⟩
  | 39 => ⟨S1x768, .f32⟩
  | 40 => ⟨S768, .f32⟩
  | 41 => ⟨S768x768, .f32⟩
  | 42 => ⟨S768x768, .f32⟩
  | 43 => ⟨S768x768, .f32⟩
  | 44 => ⟨S768, .f32⟩
  | 45 => ⟨S768, .f32⟩
  | 46 => ⟨S768, .f32⟩
  | 47 => ⟨S768x768, .f32⟩
  | 48 => ⟨S4096x768, .f32⟩
  | 49 => ⟨S1x768, .f32⟩
  | 50 => ⟨S4096x768, .f32⟩
  | 51 => ⟨S4096x768, .f32⟩
  | 52 => ⟨S4096x4x192, .f32⟩
  | 53 => ⟨S768x768, .f32⟩
  | 54 => ⟨S4096x768, .f32⟩
  | 55 => ⟨S1x768, .f32⟩
  | 56 => ⟨S4096x768, .f32⟩
  | 57 => ⟨S4096x768, .f32⟩
  | 58 => ⟨S4096x4x192, .f32⟩
  | 59 => ⟨S768x768, .f32⟩
  | 60 => ⟨S4096x768, .f32⟩
  | 61 => ⟨S1x768, .f32⟩
  | 62 => ⟨S4096x768, .f32⟩
  | 63 => ⟨S4096x768, .f32⟩
  | 64 => ⟨S4096x4x192, .f32⟩
  | 65 => ⟨S4096x4x192, .f32⟩
  | 66 => ⟨S_, .f32⟩
  | 67 => ⟨S4096x4, .f32⟩
  | 68 => ⟨S4096x4x1, .f32⟩
  | 69 => ⟨S_, .f32⟩
  | 70 => ⟨S_, .f32⟩
  | 71 => ⟨S4096x4x1, .f32⟩
  | 72 => ⟨S4096x4x1, .f32⟩
  | 73 => ⟨S_, .f32⟩
  | 74 => ⟨S4096x4, .f32⟩
  | 75 => ⟨S_, .f32⟩
  | 76 => ⟨S4096x4, .f32⟩
  | 77 => ⟨S4096x4, .f32⟩
  | 78 => ⟨S4096x4x1, .f32⟩
  | 79 => ⟨S4096x4x1, .f32⟩
  | 80 => ⟨S4096x4x1, .f32⟩
  | 81 => ⟨S_, .f32⟩
  | 82 => ⟨S4096x4, .f32⟩
  | 83 => ⟨S4096x4x1, .f32⟩
  | 84 => ⟨S4096x4x1, .f32⟩
  | 85 => ⟨S4096x4x192, .f32⟩
  | 86 => ⟨S4096x4x192, .f32⟩
  | 87 => ⟨S4096x768, .f32⟩
  | 88 => ⟨S768x768, .f32⟩
  | 89 => ⟨S4096x768, .f32⟩
  | 90 => ⟨S1x768, .f32⟩
  | 91 => ⟨S4096x768, .f32⟩
  | 92 => ⟨S4096x768, .f32⟩
  | 93 => ⟨S4096x768, .f32⟩
  | 94 => ⟨S1x768, .f32⟩
  | 95 => ⟨S768, .f32⟩
  | 96 => ⟨S1x768, .f32⟩
  | 97 => ⟨S768, .f32⟩
  | 98 => ⟨S_, .f32⟩
  | 99 => ⟨S768, .f32⟩
  | 100 => ⟨S768, .f32⟩
  | 101 => ⟨S1x768, .f32⟩
  | 102 => ⟨S4096x768, .f32⟩
  | 103 => ⟨S4096x768, .f32⟩
  | 104 => ⟨S1x768, .f32⟩
  | 105 => ⟨S4096x768, .f32⟩
  | 106 => ⟨S4096x768, .f32⟩
  | 107 => ⟨S1x2304x768, .f32⟩
  | 108 => ⟨S2304x768, .f32⟩
  | 109 => ⟨S1x2304, .f32⟩
  | 110 => ⟨S2304, .f32⟩
  | 111 => ⟨S1x768x768, .f32⟩
  | 112 => ⟨S768x768, .f32⟩
  | 113 => ⟨S1x768, .f32⟩
  | 114 => ⟨S768, .f32⟩
  | 115 => ⟨S768x768, .f32⟩
  | 116 => ⟨S768x768, .f32⟩
  | 117 => ⟨S768x768, .f32⟩
  | 118 => ⟨S768, .f32⟩
  | 119 => ⟨S768, .f32⟩
  | 120 => ⟨S768, .f32⟩
  | 121 => ⟨S768x768, .f32⟩
  | 122 => ⟨S4096x768, .f32⟩
  | 123 => ⟨S1x768, .f32⟩
  | 124 => ⟨S4096x768, .f32⟩
  | 125 => ⟨S4096x768, .f32⟩
  | 126 => ⟨S4096x4x192, .f32⟩
  | 127 => ⟨S768x768, .f32⟩
  | _ => ⟨S4096x6144, .f32⟩

abbrev hbmTy0_2 (i : Nat) : BufTy := match i % 128 with
  | 0 => ⟨S4096x768, .f32⟩
  | 1 => ⟨S1x768, .f32⟩
  | 2 => ⟨S4096x768, .f32⟩
  | 3 => ⟨S4096x768, .f32⟩
  | 4 => ⟨S4096x4x192, .f32⟩
  | 5 => ⟨S768x768, .f32⟩
  | 6 => ⟨S4096x768, .f32⟩
  | 7 => ⟨S1x768, .f32⟩
  | 8 => ⟨S4096x768, .f32⟩
  | 9 => ⟨S4096x768, .f32⟩
  | 10 => ⟨S4096x4x192, .f32⟩
  | 11 => ⟨S4096x4x192, .f32⟩
  | 12 => ⟨S_, .f32⟩
  | 13 => ⟨S4096x4, .f32⟩
  | 14 => ⟨S4096x4x1, .f32⟩
  | 15 => ⟨S_, .f32⟩
  | 16 => ⟨S_, .f32⟩
  | 17 => ⟨S4096x4x1, .f32⟩
  | 18 => ⟨S4096x4x1, .f32⟩
  | 19 => ⟨S_, .f32⟩
  | 20 => ⟨S4096x4, .f32⟩
  | 21 => ⟨S_, .f32⟩
  | 22 => ⟨S4096x4, .f32⟩
  | 23 => ⟨S4096x4, .f32⟩
  | 24 => ⟨S4096x4x1, .f32⟩
  | 25 => ⟨S4096x4x1, .f32⟩
  | 26 => ⟨S4096x4x1, .f32⟩
  | 27 => ⟨S_, .f32⟩
  | 28 => ⟨S4096x4, .f32⟩
  | 29 => ⟨S4096x4x1, .f32⟩
  | 30 => ⟨S4096x4x1, .f32⟩
  | 31 => ⟨S4096x4x192, .f32⟩
  | 32 => ⟨S4096x4x192, .f32⟩
  | 33 => ⟨S4096x768, .f32⟩
  | 34 => ⟨S768x768, .f32⟩
  | 35 => ⟨S4096x768, .f32⟩
  | 36 => ⟨S1x768, .f32⟩
  | 37 => ⟨S4096x768, .f32⟩
  | 38 => ⟨S4096x768, .f32⟩
  | 39 => ⟨S4096x768, .f32⟩
  | 40 => ⟨S1x768, .f32⟩
  | 41 => ⟨S768, .f32⟩
  | 42 => ⟨S1x768, .f32⟩
  | 43 => ⟨S768, .f32⟩
  | 44 => ⟨S_, .f32⟩
  | 45 => ⟨S768, .f32⟩
  | 46 => ⟨S768, .f32⟩
  | 47 => ⟨S1x768, .f32⟩
  | 48 => ⟨S4096x768, .f32⟩
  | 49 => ⟨S4096x768, .f32⟩
  | 50 => ⟨S1x768, .f32⟩
  | 51 => ⟨S4096x768, .f32⟩
  | 52 => ⟨S4096x768, .f32⟩
  | 53 => ⟨S4096x3072, .f32⟩
  | 54 => ⟨S4096x768, .f32⟩
  | 55 => ⟨S4096x768, .f32⟩
  | 56 => ⟨S4096x768, .f32⟩
  | 57 => ⟨S4096x768, .f32⟩
  | 58 => ⟨S1x2304x768, .f32⟩
  | 59 => ⟨S2304x768, .f32⟩
  | 60 => ⟨S1x2304, .f32⟩
  | 61 => ⟨S2304, .f32⟩
  | 62 => ⟨S1x768x768, .f32⟩
  | 63 => ⟨S768x768, .f32⟩
  | 64 => ⟨S1x768, .f32⟩
  | 65 => ⟨S768, .f32⟩
  | 66 => ⟨S768x768, .f32⟩
  | 67 => ⟨S768x768, .f32⟩
  | 68 => ⟨S768x768, .f32⟩
  | 69 => ⟨S768, .f32⟩
  | 70 => ⟨S768, .f32⟩
  | 71 => ⟨S768, .f32⟩
  | 72 => ⟨S768x768, .f32⟩
  | 73 => ⟨S4096x768, .f32⟩
  | 74 => ⟨S1x768, .f32⟩
  | 75 => ⟨S4096x768, .f32⟩
  | 76 => ⟨S4096x768, .f32⟩
  | 77 => ⟨S4096x4x192, .f32⟩
  | 78 => ⟨S768x768, .f32⟩
  | 79 => ⟨S4096x768, .f32⟩
  | 80 => ⟨S1x768, .f32⟩
  | 81 => ⟨S4096x768, .f32⟩
  | 82 => ⟨S4096x768, .f32⟩
  | 83 => ⟨S4096x4x192, .f32⟩
  | 84 => ⟨S768x768, .f32⟩
  | 85 => ⟨S4096x768, .f32⟩
  | 86 => ⟨S1x768, .f32⟩
  | 87 => ⟨S4096x768, .f32⟩
  | 88 => ⟨S4096x768, .f32⟩
  | 89 => ⟨S4096x4x192, .f32⟩
  | 90 => ⟨S4096x4x192, .f32⟩
  | 91 => ⟨S_, .f32⟩
  | 92 => ⟨S4096x4, .f32⟩
  | 93 => ⟨S4096x4x1, .f32⟩
  | 94 => ⟨S_, .f32⟩
  | 95 => ⟨S_, .f32⟩
  | 96 => ⟨S4096x4x1, .f32⟩
  | 97 => ⟨S4096x4x1, .f32⟩
  | 98 => ⟨S_, .f32⟩
  | 99 => ⟨S4096x4, .f32⟩
  | 100 => ⟨S_, .f32⟩
  | 101 => ⟨S4096x4, .f32⟩
  | 102 => ⟨S4096x4, .f32⟩
  | 103 => ⟨S4096x4x1, .f32⟩
  | 104 => ⟨S4096x4x1, .f32⟩
  | 105 => ⟨S4096x4x1, .f32⟩
  | 106 => ⟨S_, .f32⟩
  | 107 => ⟨S4096x4, .f32⟩
  | 108 => ⟨S4096x4x1, .f32⟩
  | 109 => ⟨S4096x4x1, .f32⟩
  | 110 => ⟨S4096x4x192, .f32⟩
  | 111 => ⟨S4096x4x192, .f32⟩
  | 112 => ⟨S4096x768, .f32⟩
  | 113 => ⟨S768x768, .f32⟩
  | 114 => ⟨S4096x768, .f32⟩
  | 115 => ⟨S1x768, .f32⟩
  | 116 => ⟨S4096x768, .f32⟩
  | 117 => ⟨S4096x768, .f32⟩
  | 118 => ⟨S1x2304x768, .f32⟩
  | 119 => ⟨S2304x768, .f32⟩
  | 120 => ⟨S1x2304, .f32⟩
  | 121 => ⟨S2304, .f32⟩
  | 122 => ⟨S1x768x768, .f32⟩
  | 123 => ⟨S768x768, .f32⟩
  | 124 => ⟨S1x768, .f32⟩
  | 125 => ⟨S768, .f32⟩
  | 126 => ⟨S768x768, .f32⟩
  | 127 => ⟨S768x768, .f32⟩
  | _ => ⟨S4096x6144, .f32⟩

abbrev hbmTy0_3 (i : Nat) : BufTy := match i % 128 with
  | 0 => ⟨S768x768, .f32⟩
  | 1 => ⟨S768, .f32⟩
  | 2 => ⟨S768, .f32⟩
  | 3 => ⟨S768, .f32⟩
  | 4 => ⟨S768x768, .f32⟩
  | 5 => ⟨S4096x768, .f32⟩
  | 6 => ⟨S1x768, .f32⟩
  | 7 => ⟨S4096x768, .f32⟩
  | 8 => ⟨S4096x768, .f32⟩
  | 9 => ⟨S4096x4x192, .f32⟩
  | 10 => ⟨S768x768, .f32⟩
  | 11 => ⟨S4096x768, .f32⟩
  | 12 => ⟨S1x768, .f32⟩
  | 13 => ⟨S4096x768, .f32⟩
  | 14 => ⟨S4096x768, .f32⟩
  | 15 => ⟨S4096x4x192, .f32⟩
  | 16 => ⟨S768x768, .f32⟩
  | 17 => ⟨S4096x768, .f32⟩
  | 18 => ⟨S1x768, .f32⟩
  | 19 => ⟨S4096x768, .f32⟩
  | 20 => ⟨S4096x768, .f32⟩
  | 21 => ⟨S4096x4x192, .f32⟩
  | 22 => ⟨S4096x4x192, .f32⟩
  | 23 => ⟨S_, .f32⟩
  | 24 => ⟨S4096x4, .f32⟩
  | 25 => ⟨S4096x4x1, .f32⟩
  | 26 => ⟨S_, .f32⟩
  | 27 => ⟨S_, .f32⟩
  | 28 => ⟨S4096x4x1, .f32⟩
  | 29 => ⟨S4096x4x1, .f32⟩
  | 30 => ⟨S_, .f32⟩
  | 31 => ⟨S4096x4, .f32⟩
  | 32 => ⟨S_, .f32⟩
  | 33 => ⟨S4096x4, .f32⟩
  | 34 => ⟨S4096x4, .f32⟩
  | 35 => ⟨S4096x4x1, .f32⟩
  | 36 => ⟨S4096x4x1, .f32⟩
  | 37 => ⟨S4096x4x1, .f32⟩
  | 38 => ⟨S_, .f32⟩
  | 39 => ⟨S4096x4, .f32⟩
  | 40 => ⟨S4096x4x1, .f32⟩
  | 41 => ⟨S4096x4x1, .f32⟩
  | 42 => ⟨S4096x4x192, .f32⟩
  | 43 => ⟨S4096x4x192, .f32⟩
  | 44 => ⟨S4096x768, .f32⟩
  | 45 => ⟨S768x768, .f32⟩
  | 46 => ⟨S4096x768, .f32⟩
  | 47 => ⟨S1x768, .f32⟩
  | 48 => ⟨S4096x768, .f32⟩
  | 49 => ⟨S4096x768, .f32⟩
  | 50 => ⟨S4096x768, .f32⟩
  | 51 => ⟨S1x768, .f32⟩
  | 52 => ⟨S768, .f32⟩
  | 53 => ⟨S1x768, .f32⟩
  | 54 => ⟨S768, .f32⟩
  | 55 => ⟨S_, .f32⟩
  | 56 => ⟨S768, .f32⟩
  | 57 => ⟨S768, .f32⟩
  | 58 => ⟨S1x768, .f32⟩
  | 59 => ⟨S4096x768, .f32⟩
  | 60 => ⟨S4096x768, .f32⟩
  | 61 => ⟨S1x768, .f32⟩
  | 62 => ⟨S4096x768, .f32⟩
  | 63 => ⟨S4096x768, .f32⟩
  | 64 => ⟨S1x2304x768, .f32⟩
  | 65 => ⟨S2304x768, .f32⟩
  | 66 => ⟨S1x2304, .f32⟩
  | 67 => ⟨S2304, .f32⟩
  | 68 => ⟨S1x768x768, .f32⟩
  | 69 => ⟨S768x768, .f32⟩
  | 70 => ⟨S1x768, .f32⟩
  | 71 => ⟨S768, .f32⟩
  | 72 => ⟨S768x768, .f32⟩
  | 73 => ⟨S768x768, .f32⟩
  | 74 => ⟨S768x768, .f32⟩
  | 75 => ⟨S768, .f32⟩
  | 76 => ⟨S768, .f32⟩
  | 77 => ⟨S768, .f32⟩
  | 78 => ⟨S768x768, .f32⟩
  | 79 => ⟨S4096x768, .f32⟩
  | 80 => ⟨S1x768, .f32⟩
  | 81 => ⟨S4096x768, .f32⟩
  | 82 => ⟨S4096x768, .f32⟩
  | 83 => ⟨S4096x4x192, .f32⟩
  | 84 => ⟨S768x768, .f32⟩
  | 85 => ⟨S4096x768, .f32⟩
  | 86 => ⟨S1x768, .f32⟩
  | 87 => ⟨S4096x768, .f32⟩
  | 88 => ⟨S4096x768, .f32⟩
  | 89 => ⟨S4096x4x192, .f32⟩
  | 90 => ⟨S768x768, .f32⟩
  | 91 => ⟨S4096x768, .f32⟩
  | 92 => ⟨S1x768, .f32⟩
  | 93 => ⟨S4096x768, .f32⟩
  | 94 => ⟨S4096x768, .f32⟩
  | 95 => ⟨S4096x4x192, .f32⟩
  | 96 => ⟨S4096x4x192, .f32⟩
  | 97 => ⟨S_, .f32⟩
  | 98 => ⟨S4096x4, .f32⟩
  | 99 => ⟨S4096x4x1, .f32⟩
  | 100 => ⟨S_, .f32⟩
  | 101 => ⟨S_, .f32⟩
  | 102 => ⟨S4096x4x1, .f32⟩
  | 103 => ⟨S4096x4x1, .f32⟩
  | 104 => ⟨S_, .f32⟩
  | 105 => ⟨S4096x4, .f32⟩
  | 106 => ⟨S_, .f32⟩
  | 107 => ⟨S4096x4, .f32⟩
  | 108 => ⟨S4096x4, .f32⟩
  | 109 => ⟨S4096x4x1, .f32⟩
  | 110 => ⟨S4096x4x1, .f32⟩
  | 111 => ⟨S4096x4x1, .f32⟩
  | 112 => ⟨S_, .f32⟩
  | 113 => ⟨S4096x4, .f32⟩
  | 114 => ⟨S4096x4x1, .f32⟩
  | 115 => ⟨S4096x4x1, .f32⟩
  | 116 => ⟨S4096x4x192, .f32⟩
  | 117 => ⟨S4096x4x192, .f32⟩
  | 118 => ⟨S4096x768, .f32⟩
  | 119 => ⟨S768x768, .f32⟩
  | 120 => ⟨S4096x768, .f32⟩
  | 121 => ⟨S1x768, .f32⟩
  | 122 => ⟨S4096x768, .f32⟩
  | 123 => ⟨S4096x768, .f32⟩
  | 124 => ⟨S4096x768, .f32⟩
  | 125 => ⟨S1x768, .f32⟩
  | 126 => ⟨S768, .f32⟩
  | 127 => ⟨S1x768, .f32⟩
  | _ => ⟨S4096x6144, .f32⟩

abbrev hbmTy0_4 (i : Nat) : BufTy := match i % 128 with
  | 0 => ⟨S768, .f32⟩
  | 1 => ⟨S_, .f32⟩
  | 2 => ⟨S768, .f32⟩
  | 3 => ⟨S768, .f32⟩
  | 4 => ⟨S1x768, .f32⟩
  | 5 => ⟨S4096x768, .f32⟩
  | 6 => ⟨S4096x768, .f32⟩
  | 7 => ⟨S1x768, .f32⟩
  | 8 => ⟨S4096x768, .f32⟩
  | 9 => ⟨S4096x768, .f32⟩
  | 10 => ⟨S1x2304x768, .f32⟩
  | 11 => ⟨S2304x768, .f32⟩
  | 12 => ⟨S1x2304, .f32⟩
  | 13 => ⟨S2304, .f32⟩
  | 14 => ⟨S1x768x768, .f32⟩
  | 15 => ⟨S768x768, .f32⟩
  | 16 => ⟨S1x768, .f32⟩
  | 17 => ⟨S768, .f32⟩
  | 18 => ⟨S768x768, .f32⟩
  | 19 => ⟨S768x768, .f32⟩
  | 20 => ⟨S768x768, .f32⟩
  | 21 => ⟨S768, .f32⟩
  | 22 => ⟨S768, .f32⟩
  | 23 => ⟨S768, .f32⟩
  | 24 => ⟨S768x768, .f32⟩
  | 25 => ⟨S4096x768, .f32⟩
  | 26 => ⟨S1x768, .f32⟩
  | 27 => ⟨S4096x768, .f32⟩
  | 28 => ⟨S4096x768, .f32⟩
  | 29 => ⟨S4096x4x192, .f32⟩
  | 30 => ⟨S768x768, .f32⟩
  | 31 => ⟨S4096x768, .f32⟩
  | 32 => ⟨S1x768, .f32⟩
  | 33 => ⟨S4096x768, .f32⟩
  | 34 => ⟨S4096x768, .f32⟩
  | 35 => ⟨S4096x4x192, .f32⟩
  | 36 => ⟨S768x768, .f32⟩
  | 37 => ⟨S4096x768, .f32⟩
  | 38 => ⟨S1x768, .f32⟩
  | 39 => ⟨S4096x768, .f32⟩
  | 40 => ⟨S4096x768, .f32⟩
  | 41 => ⟨S4096x4x192, .f32⟩
  | 42 => ⟨S4096x4x192, .f32⟩
  | 43 => ⟨S_, .f32⟩
  | 44 => ⟨S4096x4, .f32⟩
  | 45 => ⟨S4096x4x1, .f32⟩
  | 46 => ⟨S_, .f32⟩
  | 47 => ⟨S_, .f32⟩
  | 48 => ⟨S4096x4x1, .f32⟩
  | 49 => ⟨S4096x4x1, .f32⟩
  | 50 => ⟨S_, .f32⟩
  | 51 => ⟨S4096x4, .f32⟩
  | 52 => ⟨S_, .f32⟩
  | 53 => ⟨S4096x4, .f32⟩
  | 54 => ⟨S4096x4, .f32⟩
  | 55 => ⟨S4096x4x1, .f32⟩
  | 56 => ⟨S4096x4x1, .f32⟩
  | 57 => ⟨S4096x4x1, .f32⟩
  | 58 => ⟨S_, .f32⟩
  | 59 => ⟨S4096x4, .f32⟩
  | 60 => ⟨S4096x4x1, .f32⟩
  | 61 => ⟨S4096x4x1, .f32⟩
  | 62 => ⟨S4096x4x192, .f32⟩
  | 63 => ⟨S4096x4x192, .f32⟩
  | 64 => ⟨S4096x768, .f32⟩
  | 65 => ⟨S768x768, .f32⟩
  | 66 => ⟨S4096x768, .f32⟩
  | 67 => ⟨S1x768, .f32⟩
  | 68 => ⟨S4096x768, .f32⟩
  | 69 => ⟨S4096x768, .f32⟩
  | 70 => ⟨S4096x768, .f32⟩
  | 71 => ⟨S1x768, .f32⟩
  | 72 => ⟨S768, .f32⟩
  | 73 => ⟨S1x768, .f32⟩
  | 74 => ⟨S768, .f32⟩
  | 75 => ⟨S_, .f32⟩
  | 76 => ⟨S768, .f32⟩
  | 77 => ⟨S768, .f32⟩
  | 78 => ⟨S1x768, .f32⟩
  | 79 => ⟨S4096x768, .f32⟩
  | 80 => ⟨S4096x768, .f32⟩
  | 81 => ⟨S1x768, .f32⟩
  | 82 => ⟨S4096x768, .f32⟩
  | 83 => ⟨S4096x768, .f32⟩
  | 84 => ⟨S4096x3072, .f32⟩
  | 85 => ⟨S4096x6144, .f32⟩
  | 86 => ⟨S6144x512, .f32⟩
  | 87 => ⟨S4096x512, .f32⟩
  | 88 => ⟨S1x512, .f32⟩
  | 89 => ⟨S4096x512, .f32⟩
  | 90 => ⟨S4096x512, .f32⟩
  | 91 => ⟨S_, .f32⟩
  | 92 => ⟨S4096x512, .f32⟩
  | 93 => ⟨S4096x512, .f32⟩
  | 94 => ⟨S_, .f32⟩
  | 95 => ⟨S512, .f32⟩
  | 96 => ⟨S512, .f32⟩
  | 97 => ⟨S1x512, .f32⟩
  | 98 => ⟨S4096x512, .f32⟩
  | 99 => ⟨S4096x512, .f32⟩
  | 100 => ⟨S1x512, .f32⟩
  | 101 => ⟨S4096x512, .f32⟩
  | 102 => ⟨S4096x512, .f32⟩
  | 103 => ⟨S512x128, .f32⟩
  | 104 => ⟨S4096x128, .f32⟩
  | 105 => ⟨S1x128, .f32⟩
  | 106 => ⟨S4096x128, .f32⟩
  | 107 => ⟨S4096x128, .f32⟩
  | 108 => ⟨S_, .f32⟩
  | 109 => ⟨S4096x128, .f32⟩
  | 110 => ⟨S4096x128, .f32⟩
  | 111 => ⟨S_, .f32⟩
  | 112 => ⟨S128, .f32⟩
  | 113 => ⟨S128, .f32⟩
  | 114 => ⟨S1x128, .f32⟩
  | 115 => ⟨S4096x128, .f32⟩
  | 116 => ⟨S4096x128, .f32⟩
  | 117 => ⟨S1x128, .f32⟩
  | 118 => ⟨S4096x128, .f32⟩
  | 119 => ⟨S4096x128, .f32⟩
  | 120 => ⟨S128x1, .f32⟩
  | 121 => ⟨S4096x1, .f32⟩
  | 122 => ⟨S1x1, .f32⟩
  | 123 => ⟨S4096x1, .f32⟩
  | 124 => ⟨S4096x1, .f32⟩
  | _ => ⟨S4096x6144, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x6144, .f32⟩

abbrev bufTy : (tb : Table) → Fin (tcTables nBuf tb) → BufTy
  | .hbm, ⟨i, _⟩ => hbmTy i
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst : Ref sig .tc := ⟨.hbm, 60, rfl⟩
abbrev main_v37 : Ref sig .tc := ⟨.hbm, 61, rfl⟩
abbrev main_v38 : Ref sig .tc := ⟨.hbm, 62, rfl⟩
abbrev main_cst_0 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_1 : Ref sig .tc := ⟨.hbm, 67, rfl⟩
abbrev main_v42 : Ref sig .tc := ⟨.hbm, 68, rfl⟩
abbrev main_cst_2 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_3 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_4 : Ref sig .tc := ⟨.hbm, 120, rfl⟩
abbrev main_v92 : Ref sig .tc := ⟨.hbm, 121, rfl⟩
abbrev main_v93 : Ref sig .tc := ⟨.hbm, 122, rfl⟩
abbrev main_cst_5 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_6 : Ref sig .tc := ⟨.hbm, 127, rfl⟩
abbrev main_v97 : Ref sig .tc := ⟨.hbm, 128, rfl⟩
abbrev main_cst_7 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_8 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_cst_9 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_cst_10 : Ref sig .tc := ⟨.hbm, 194, rfl⟩
abbrev main_v160 : Ref sig .tc := ⟨.hbm, 195, rfl⟩
abbrev main_v161 : Ref sig .tc := ⟨.hbm, 196, rfl⟩
abbrev main_cst_11 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_cst_12 : Ref sig .tc := ⟨.hbm, 201, rfl⟩
abbrev main_v165 : Ref sig .tc := ⟨.hbm, 202, rfl⟩
abbrev main_cst_13 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_cst_14 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_cst_15 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_v223 : Ref sig .tc := ⟨.hbm, 263, rfl⟩
abbrev main_v224 : Ref sig .tc := ⟨.hbm, 264, rfl⟩
abbrev main_v225 : Ref sig .tc := ⟨.hbm, 265, rfl⟩
abbrev main_v226 : Ref sig .tc := ⟨.hbm, 266, rfl⟩
abbrev main_v227 : Ref sig .tc := ⟨.hbm, 267, rfl⟩
abbrev main_cst_16 : Ref sig .tc := ⟨.hbm, 268, rfl⟩
abbrev main_v228 : Ref sig .tc := ⟨.hbm, 269, rfl⟩
abbrev main_v229 : Ref sig .tc := ⟨.hbm, 270, rfl⟩
abbrev main_cst_17 : Ref sig .tc := ⟨.hbm, 271, rfl⟩
abbrev main_v230 : Ref sig .tc := ⟨.hbm, 272, rfl⟩
abbrev main_v231 : Ref sig .tc := ⟨.hbm, 273, rfl⟩
abbrev main_v232 : Ref sig .tc := ⟨.hbm, 274, rfl⟩
abbrev main_cst_18 : Ref sig .tc := ⟨.hbm, 275, rfl⟩
abbrev main_v233 : Ref sig .tc := ⟨.hbm, 276, rfl⟩
abbrev main_cst_19 : Ref sig .tc := ⟨.hbm, 277, rfl⟩
abbrev main_v234 : Ref sig .tc := ⟨.hbm, 278, rfl⟩
abbrev main_v235 : Ref sig .tc := ⟨.hbm, 279, rfl⟩
abbrev main_v236 : Ref sig .tc := ⟨.hbm, 280, rfl⟩
abbrev main_v237 : Ref sig .tc := ⟨.hbm, 281, rfl⟩
abbrev main_v238 : Ref sig .tc := ⟨.hbm, 282, rfl⟩
abbrev main_cst_20 : Ref sig .tc := ⟨.hbm, 283, rfl⟩
abbrev main_v239 : Ref sig .tc := ⟨.hbm, 284, rfl⟩
abbrev main_v240 : Ref sig .tc := ⟨.hbm, 285, rfl⟩
abbrev main_v241 : Ref sig .tc := ⟨.hbm, 286, rfl⟩
abbrev main_v242 : Ref sig .tc := ⟨.hbm, 287, rfl⟩
abbrev main_v243 : Ref sig .tc := ⟨.hbm, 288, rfl⟩
abbrev main_v244 : Ref sig .tc := ⟨.hbm, 289, rfl⟩
abbrev main_v245 : Ref sig .tc := ⟨.hbm, 290, rfl⟩
abbrev main_v246 : Ref sig .tc := ⟨.hbm, 291, rfl⟩
abbrev main_v247 : Ref sig .tc := ⟨.hbm, 292, rfl⟩
abbrev main_v248 : Ref sig .tc := ⟨.hbm, 293, rfl⟩
abbrev main_v249 : Ref sig .tc := ⟨.hbm, 294, rfl⟩
abbrev main_v250 : Ref sig .tc := ⟨.hbm, 295, rfl⟩
abbrev main_v251 : Ref sig .tc := ⟨.hbm, 296, rfl⟩
abbrev main_v252 : Ref sig .tc := ⟨.hbm, 297, rfl⟩
abbrev main_v253 : Ref sig .tc := ⟨.hbm, 298, rfl⟩
abbrev main_v254 : Ref sig .tc := ⟨.hbm, 299, rfl⟩
abbrev main_cst_21 : Ref sig .tc := ⟨.hbm, 300, rfl⟩
abbrev main_v255 : Ref sig .tc := ⟨.hbm, 301, rfl⟩
abbrev main_v256 : Ref sig .tc := ⟨.hbm, 302, rfl⟩
abbrev main_v257 : Ref sig .tc := ⟨.hbm, 303, rfl⟩
abbrev main_v258 : Ref sig .tc := ⟨.hbm, 304, rfl⟩
abbrev main_v259 : Ref sig .tc := ⟨.hbm, 305, rfl⟩
abbrev main_v260 : Ref sig .tc := ⟨.hbm, 306, rfl⟩
abbrev main_v261 : Ref sig .tc := ⟨.hbm, 307, rfl⟩
abbrev main_v262 : Ref sig .tc := ⟨.hbm, 308, rfl⟩
abbrev main_v263 : Ref sig .tc := ⟨.hbm, 309, rfl⟩
abbrev main_v264 : Ref sig .tc := ⟨.hbm, 310, rfl⟩
abbrev main_v265 : Ref sig .tc := ⟨.hbm, 311, rfl⟩
abbrev main_v266 : Ref sig .tc := ⟨.hbm, 312, rfl⟩
abbrev main_v267 : Ref sig .tc := ⟨.hbm, 313, rfl⟩
abbrev main_v268 : Ref sig .tc := ⟨.hbm, 314, rfl⟩
abbrev main_v269 : Ref sig .tc := ⟨.hbm, 315, rfl⟩
abbrev main_v270 : Ref sig .tc := ⟨.hbm, 316, rfl⟩
abbrev main_v271 : Ref sig .tc := ⟨.hbm, 317, rfl⟩
abbrev main_v272 : Ref sig .tc := ⟨.hbm, 318, rfl⟩
abbrev main_v273 : Ref sig .tc := ⟨.hbm, 319, rfl⟩
abbrev main_v274 : Ref sig .tc := ⟨.hbm, 320, rfl⟩
abbrev main_v275 : Ref sig .tc := ⟨.hbm, 321, rfl⟩
abbrev main_v276 : Ref sig .tc := ⟨.hbm, 322, rfl⟩
abbrev main_v277 : Ref sig .tc := ⟨.hbm, 323, rfl⟩
abbrev main_v278 : Ref sig .tc := ⟨.hbm, 324, rfl⟩
abbrev main_v279 : Ref sig .tc := ⟨.hbm, 325, rfl⟩
abbrev main_v280 : Ref sig .tc := ⟨.hbm, 326, rfl⟩
abbrev main_v281 : Ref sig .tc := ⟨.hbm, 327, rfl⟩
abbrev main_v282 : Ref sig .tc := ⟨.hbm, 328, rfl⟩
abbrev main_v283 : Ref sig .tc := ⟨.hbm, 329, rfl⟩
abbrev main_v284 : Ref sig .tc := ⟨.hbm, 330, rfl⟩
abbrev main_v285 : Ref sig .tc := ⟨.hbm, 331, rfl⟩
abbrev main_v286 : Ref sig .tc := ⟨.hbm, 332, rfl⟩
abbrev main_v287 : Ref sig .tc := ⟨.hbm, 333, rfl⟩
abbrev main_v288 : Ref sig .tc := ⟨.hbm, 334, rfl⟩
abbrev main_v289 : Ref sig .tc := ⟨.hbm, 335, rfl⟩
abbrev main_v290 : Ref sig .tc := ⟨.hbm, 336, rfl⟩
abbrev main_v291 : Ref sig .tc := ⟨.hbm, 337, rfl⟩
abbrev main_v292 : Ref sig .tc := ⟨.hbm, 338, rfl⟩
abbrev main_v293 : Ref sig .tc := ⟨.hbm, 339, rfl⟩
abbrev main_v294 : Ref sig .tc := ⟨.hbm, 340, rfl⟩
abbrev main_v295 : Ref sig .tc := ⟨.hbm, 341, rfl⟩
abbrev main_v296 : Ref sig .tc := ⟨.hbm, 342, rfl⟩
abbrev main_v297 : Ref sig .tc := ⟨.hbm, 343, rfl⟩
abbrev main_v298 : Ref sig .tc := ⟨.hbm, 344, rfl⟩
abbrev main_v299 : Ref sig .tc := ⟨.hbm, 345, rfl⟩
abbrev main_v300 : Ref sig .tc := ⟨.hbm, 346, rfl⟩
abbrev main_cst_22 : Ref sig .tc := ⟨.hbm, 347, rfl⟩
abbrev main_v301 : Ref sig .tc := ⟨.hbm, 348, rfl⟩
abbrev main_v302 : Ref sig .tc := ⟨.hbm, 349, rfl⟩
abbrev main_cst_23 : Ref sig .tc := ⟨.hbm, 350, rfl⟩
abbrev main_v303 : Ref sig .tc := ⟨.hbm, 351, rfl⟩
abbrev main_v304 : Ref sig .tc := ⟨.hbm, 352, rfl⟩
abbrev main_v305 : Ref sig .tc := ⟨.hbm, 353, rfl⟩
abbrev main_cst_24 : Ref sig .tc := ⟨.hbm, 354, rfl⟩
abbrev main_v306 : Ref sig .tc := ⟨.hbm, 355, rfl⟩
abbrev main_cst_25 : Ref sig .tc := ⟨.hbm, 356, rfl⟩
abbrev main_v307 : Ref sig .tc := ⟨.hbm, 357, rfl⟩
abbrev main_v308 : Ref sig .tc := ⟨.hbm, 358, rfl⟩
abbrev main_v309 : Ref sig .tc := ⟨.hbm, 359, rfl⟩
abbrev main_v310 : Ref sig .tc := ⟨.hbm, 360, rfl⟩
abbrev main_v311 : Ref sig .tc := ⟨.hbm, 361, rfl⟩
abbrev main_cst_26 : Ref sig .tc := ⟨.hbm, 362, rfl⟩
abbrev main_v312 : Ref sig .tc := ⟨.hbm, 363, rfl⟩
abbrev main_v313 : Ref sig .tc := ⟨.hbm, 364, rfl⟩
abbrev main_v314 : Ref sig .tc := ⟨.hbm, 365, rfl⟩
abbrev main_v315 : Ref sig .tc := ⟨.hbm, 366, rfl⟩
abbrev main_v316 : Ref sig .tc := ⟨.hbm, 367, rfl⟩
abbrev main_v317 : Ref sig .tc := ⟨.hbm, 368, rfl⟩
abbrev main_v318 : Ref sig .tc := ⟨.hbm, 369, rfl⟩
abbrev main_v319 : Ref sig .tc := ⟨.hbm, 370, rfl⟩
abbrev main_v320 : Ref sig .tc := ⟨.hbm, 371, rfl⟩
abbrev main_v321 : Ref sig .tc := ⟨.hbm, 372, rfl⟩
abbrev main_v322 : Ref sig .tc := ⟨.hbm, 373, rfl⟩
abbrev main_v323 : Ref sig .tc := ⟨.hbm, 374, rfl⟩
abbrev main_v324 : Ref sig .tc := ⟨.hbm, 375, rfl⟩
abbrev main_v325 : Ref sig .tc := ⟨.hbm, 376, rfl⟩
abbrev main_v326 : Ref sig .tc := ⟨.hbm, 377, rfl⟩
abbrev main_v327 : Ref sig .tc := ⟨.hbm, 378, rfl⟩
abbrev main_v328 : Ref sig .tc := ⟨.hbm, 379, rfl⟩
abbrev main_v329 : Ref sig .tc := ⟨.hbm, 380, rfl⟩
abbrev main_v330 : Ref sig .tc := ⟨.hbm, 381, rfl⟩
abbrev main_v331 : Ref sig .tc := ⟨.hbm, 382, rfl⟩
abbrev main_v332 : Ref sig .tc := ⟨.hbm, 383, rfl⟩
abbrev main_v333 : Ref sig .tc := ⟨.hbm, 384, rfl⟩
abbrev main_v334 : Ref sig .tc := ⟨.hbm, 385, rfl⟩
abbrev main_v335 : Ref sig .tc := ⟨.hbm, 386, rfl⟩
abbrev main_v336 : Ref sig .tc := ⟨.hbm, 387, rfl⟩
abbrev main_v337 : Ref sig .tc := ⟨.hbm, 388, rfl⟩
abbrev main_v338 : Ref sig .tc := ⟨.hbm, 389, rfl⟩
abbrev main_v339 : Ref sig .tc := ⟨.hbm, 390, rfl⟩
abbrev main_v340 : Ref sig .tc := ⟨.hbm, 391, rfl⟩
abbrev main_v341 : Ref sig .tc := ⟨.hbm, 392, rfl⟩
abbrev main_v342 : Ref sig .tc := ⟨.hbm, 393, rfl⟩
abbrev main_v343 : Ref sig .tc := ⟨.hbm, 394, rfl⟩
abbrev main_v344 : Ref sig .tc := ⟨.hbm, 395, rfl⟩
abbrev main_v345 : Ref sig .tc := ⟨.hbm, 396, rfl⟩
abbrev main_v346 : Ref sig .tc := ⟨.hbm, 397, rfl⟩
abbrev main_v347 : Ref sig .tc := ⟨.hbm, 398, rfl⟩
abbrev main_v348 : Ref sig .tc := ⟨.hbm, 399, rfl⟩
abbrev main_v349 : Ref sig .tc := ⟨.hbm, 400, rfl⟩
abbrev main_v350 : Ref sig .tc := ⟨.hbm, 401, rfl⟩
abbrev main_v351 : Ref sig .tc := ⟨.hbm, 402, rfl⟩
abbrev main_v352 : Ref sig .tc := ⟨.hbm, 403, rfl⟩
abbrev main_v353 : Ref sig .tc := ⟨.hbm, 404, rfl⟩
abbrev main_v354 : Ref sig .tc := ⟨.hbm, 405, rfl⟩
abbrev main_v355 : Ref sig .tc := ⟨.hbm, 406, rfl⟩
abbrev main_cst_27 : Ref sig .tc := ⟨.hbm, 407, rfl⟩
abbrev main_v356 : Ref sig .tc := ⟨.hbm, 408, rfl⟩
abbrev main_v357 : Ref sig .tc := ⟨.hbm, 409, rfl⟩
abbrev main_cst_28 : Ref sig .tc := ⟨.hbm, 410, rfl⟩
abbrev main_v358 : Ref sig .tc := ⟨.hbm, 411, rfl⟩
abbrev main_v359 : Ref sig .tc := ⟨.hbm, 412, rfl⟩
abbrev main_v360 : Ref sig .tc := ⟨.hbm, 413, rfl⟩
abbrev main_cst_29 : Ref sig .tc := ⟨.hbm, 414, rfl⟩
abbrev main_v361 : Ref sig .tc := ⟨.hbm, 415, rfl⟩
abbrev main_cst_30 : Ref sig .tc := ⟨.hbm, 416, rfl⟩
abbrev main_v362 : Ref sig .tc := ⟨.hbm, 417, rfl⟩
abbrev main_v363 : Ref sig .tc := ⟨.hbm, 418, rfl⟩
abbrev main_v364 : Ref sig .tc := ⟨.hbm, 419, rfl⟩
abbrev main_v365 : Ref sig .tc := ⟨.hbm, 420, rfl⟩
abbrev main_v366 : Ref sig .tc := ⟨.hbm, 421, rfl⟩
abbrev main_cst_31 : Ref sig .tc := ⟨.hbm, 422, rfl⟩
abbrev main_v367 : Ref sig .tc := ⟨.hbm, 423, rfl⟩
abbrev main_v368 : Ref sig .tc := ⟨.hbm, 424, rfl⟩
abbrev main_v369 : Ref sig .tc := ⟨.hbm, 425, rfl⟩
abbrev main_v370 : Ref sig .tc := ⟨.hbm, 426, rfl⟩
abbrev main_v371 : Ref sig .tc := ⟨.hbm, 427, rfl⟩
abbrev main_v372 : Ref sig .tc := ⟨.hbm, 428, rfl⟩
abbrev main_v373 : Ref sig .tc := ⟨.hbm, 429, rfl⟩
abbrev main_v374 : Ref sig .tc := ⟨.hbm, 430, rfl⟩
abbrev main_v375 : Ref sig .tc := ⟨.hbm, 431, rfl⟩
abbrev main_v376 : Ref sig .tc := ⟨.hbm, 432, rfl⟩
abbrev main_v377 : Ref sig .tc := ⟨.hbm, 433, rfl⟩
abbrev main_v378 : Ref sig .tc := ⟨.hbm, 434, rfl⟩
abbrev main_v379 : Ref sig .tc := ⟨.hbm, 435, rfl⟩
abbrev main_v380 : Ref sig .tc := ⟨.hbm, 436, rfl⟩
abbrev main_v381 : Ref sig .tc := ⟨.hbm, 437, rfl⟩
abbrev main_v382 : Ref sig .tc := ⟨.hbm, 438, rfl⟩
abbrev main_cst_32 : Ref sig .tc := ⟨.hbm, 439, rfl⟩
abbrev main_v383 : Ref sig .tc := ⟨.hbm, 440, rfl⟩
abbrev main_v384 : Ref sig .tc := ⟨.hbm, 441, rfl⟩
abbrev main_v385 : Ref sig .tc := ⟨.hbm, 442, rfl⟩
abbrev main_v386 : Ref sig .tc := ⟨.hbm, 443, rfl⟩
abbrev main_v387 : Ref sig .tc := ⟨.hbm, 444, rfl⟩
abbrev main_v388 : Ref sig .tc := ⟨.hbm, 445, rfl⟩
abbrev main_v389 : Ref sig .tc := ⟨.hbm, 446, rfl⟩
abbrev main_v390 : Ref sig .tc := ⟨.hbm, 447, rfl⟩
abbrev main_v391 : Ref sig .tc := ⟨.hbm, 448, rfl⟩
abbrev main_v392 : Ref sig .tc := ⟨.hbm, 449, rfl⟩
abbrev main_v393 : Ref sig .tc := ⟨.hbm, 450, rfl⟩
abbrev main_v394 : Ref sig .tc := ⟨.hbm, 451, rfl⟩
abbrev main_v395 : Ref sig .tc := ⟨.hbm, 452, rfl⟩
abbrev main_v396 : Ref sig .tc := ⟨.hbm, 453, rfl⟩
abbrev main_v397 : Ref sig .tc := ⟨.hbm, 454, rfl⟩
abbrev main_v398 : Ref sig .tc := ⟨.hbm, 455, rfl⟩
abbrev main_v399 : Ref sig .tc := ⟨.hbm, 456, rfl⟩
abbrev main_v400 : Ref sig .tc := ⟨.hbm, 457, rfl⟩
abbrev main_v401 : Ref sig .tc := ⟨.hbm, 458, rfl⟩
abbrev main_v402 : Ref sig .tc := ⟨.hbm, 459, rfl⟩
abbrev main_v403 : Ref sig .tc := ⟨.hbm, 460, rfl⟩
abbrev main_v404 : Ref sig .tc := ⟨.hbm, 461, rfl⟩
abbrev main_v405 : Ref sig .tc := ⟨.hbm, 462, rfl⟩
abbrev main_v406 : Ref sig .tc := ⟨.hbm, 463, rfl⟩
abbrev main_v407 : Ref sig .tc := ⟨.hbm, 464, rfl⟩
abbrev main_v408 : Ref sig .tc := ⟨.hbm, 465, rfl⟩
abbrev main_v409 : Ref sig .tc := ⟨.hbm, 466, rfl⟩
abbrev main_v410 : Ref sig .tc := ⟨.hbm, 467, rfl⟩
abbrev main_v411 : Ref sig .tc := ⟨.hbm, 468, rfl⟩
abbrev main_v412 : Ref sig .tc := ⟨.hbm, 469, rfl⟩
abbrev main_v413 : Ref sig .tc := ⟨.hbm, 470, rfl⟩
abbrev main_v414 : Ref sig .tc := ⟨.hbm, 471, rfl⟩
abbrev main_v415 : Ref sig .tc := ⟨.hbm, 472, rfl⟩
abbrev main_v416 : Ref sig .tc := ⟨.hbm, 473, rfl⟩
abbrev main_v417 : Ref sig .tc := ⟨.hbm, 474, rfl⟩
abbrev main_v418 : Ref sig .tc := ⟨.hbm, 475, rfl⟩
abbrev main_v419 : Ref sig .tc := ⟨.hbm, 476, rfl⟩
abbrev main_v420 : Ref sig .tc := ⟨.hbm, 477, rfl⟩
abbrev main_v421 : Ref sig .tc := ⟨.hbm, 478, rfl⟩
abbrev main_v422 : Ref sig .tc := ⟨.hbm, 479, rfl⟩
abbrev main_v423 : Ref sig .tc := ⟨.hbm, 480, rfl⟩
abbrev main_cst_33 : Ref sig .tc := ⟨.hbm, 481, rfl⟩
abbrev main_v424 : Ref sig .tc := ⟨.hbm, 482, rfl⟩
abbrev main_v425 : Ref sig .tc := ⟨.hbm, 483, rfl⟩
abbrev main_cst_34 : Ref sig .tc := ⟨.hbm, 484, rfl⟩
abbrev main_v426 : Ref sig .tc := ⟨.hbm, 485, rfl⟩
abbrev main_v427 : Ref sig .tc := ⟨.hbm, 486, rfl⟩
abbrev main_v428 : Ref sig .tc := ⟨.hbm, 487, rfl⟩
abbrev main_cst_35 : Ref sig .tc := ⟨.hbm, 488, rfl⟩
abbrev main_v429 : Ref sig .tc := ⟨.hbm, 489, rfl⟩
abbrev main_cst_36 : Ref sig .tc := ⟨.hbm, 490, rfl⟩
abbrev main_v430 : Ref sig .tc := ⟨.hbm, 491, rfl⟩
abbrev main_v431 : Ref sig .tc := ⟨.hbm, 492, rfl⟩
abbrev main_v432 : Ref sig .tc := ⟨.hbm, 493, rfl⟩
abbrev main_v433 : Ref sig .tc := ⟨.hbm, 494, rfl⟩
abbrev main_v434 : Ref sig .tc := ⟨.hbm, 495, rfl⟩
abbrev main_cst_37 : Ref sig .tc := ⟨.hbm, 496, rfl⟩
abbrev main_v435 : Ref sig .tc := ⟨.hbm, 497, rfl⟩
abbrev main_v436 : Ref sig .tc := ⟨.hbm, 498, rfl⟩
abbrev main_v437 : Ref sig .tc := ⟨.hbm, 499, rfl⟩
abbrev main_v438 : Ref sig .tc := ⟨.hbm, 500, rfl⟩
abbrev main_v439 : Ref sig .tc := ⟨.hbm, 501, rfl⟩
abbrev main_v440 : Ref sig .tc := ⟨.hbm, 502, rfl⟩
abbrev main_v441 : Ref sig .tc := ⟨.hbm, 503, rfl⟩
abbrev main_v442 : Ref sig .tc := ⟨.hbm, 504, rfl⟩
abbrev main_v443 : Ref sig .tc := ⟨.hbm, 505, rfl⟩
abbrev main_v444 : Ref sig .tc := ⟨.hbm, 506, rfl⟩
abbrev main_v445 : Ref sig .tc := ⟨.hbm, 507, rfl⟩
abbrev main_v446 : Ref sig .tc := ⟨.hbm, 508, rfl⟩
abbrev main_v447 : Ref sig .tc := ⟨.hbm, 509, rfl⟩
abbrev main_v448 : Ref sig .tc := ⟨.hbm, 510, rfl⟩
abbrev main_v449 : Ref sig .tc := ⟨.hbm, 511, rfl⟩
abbrev main_v450 : Ref sig .tc := ⟨.hbm, 512, rfl⟩
abbrev main_cst_38 : Ref sig .tc := ⟨.hbm, 513, rfl⟩
abbrev main_v451 : Ref sig .tc := ⟨.hbm, 514, rfl⟩
abbrev main_v452 : Ref sig .tc := ⟨.hbm, 515, rfl⟩
abbrev main_v453 : Ref sig .tc := ⟨.hbm, 516, rfl⟩
abbrev main_v454 : Ref sig .tc := ⟨.hbm, 517, rfl⟩
abbrev main_v455 : Ref sig .tc := ⟨.hbm, 518, rfl⟩
abbrev main_v456 : Ref sig .tc := ⟨.hbm, 519, rfl⟩
abbrev main_v457 : Ref sig .tc := ⟨.hbm, 520, rfl⟩
abbrev main_v458 : Ref sig .tc := ⟨.hbm, 521, rfl⟩
abbrev main_v459 : Ref sig .tc := ⟨.hbm, 522, rfl⟩
abbrev main_v460 : Ref sig .tc := ⟨.hbm, 523, rfl⟩
abbrev main_v461 : Ref sig .tc := ⟨.hbm, 524, rfl⟩
abbrev main_v462 : Ref sig .tc := ⟨.hbm, 525, rfl⟩
abbrev main_v463 : Ref sig .tc := ⟨.hbm, 526, rfl⟩
abbrev main_v464 : Ref sig .tc := ⟨.hbm, 527, rfl⟩
abbrev main_v465 : Ref sig .tc := ⟨.hbm, 528, rfl⟩
abbrev main_v466 : Ref sig .tc := ⟨.hbm, 529, rfl⟩
abbrev main_v467 : Ref sig .tc := ⟨.hbm, 530, rfl⟩
abbrev main_v468 : Ref sig .tc := ⟨.hbm, 531, rfl⟩
abbrev main_v469 : Ref sig .tc := ⟨.hbm, 532, rfl⟩
abbrev main_v470 : Ref sig .tc := ⟨.hbm, 533, rfl⟩
abbrev main_v471 : Ref sig .tc := ⟨.hbm, 534, rfl⟩
abbrev main_v472 : Ref sig .tc := ⟨.hbm, 535, rfl⟩
abbrev main_v473 : Ref sig .tc := ⟨.hbm, 536, rfl⟩
abbrev main_v474 : Ref sig .tc := ⟨.hbm, 537, rfl⟩
abbrev main_v475 : Ref sig .tc := ⟨.hbm, 538, rfl⟩
abbrev main_v476 : Ref sig .tc := ⟨.hbm, 539, rfl⟩
abbrev main_v477 : Ref sig .tc := ⟨.hbm, 540, rfl⟩
abbrev main_v478 : Ref sig .tc := ⟨.hbm, 541, rfl⟩
abbrev main_v479 : Ref sig .tc := ⟨.hbm, 542, rfl⟩
abbrev main_v480 : Ref sig .tc := ⟨.hbm, 543, rfl⟩
abbrev main_v481 : Ref sig .tc := ⟨.hbm, 544, rfl⟩
abbrev main_v482 : Ref sig .tc := ⟨.hbm, 545, rfl⟩
abbrev main_v483 : Ref sig .tc := ⟨.hbm, 546, rfl⟩
abbrev main_v484 : Ref sig .tc := ⟨.hbm, 547, rfl⟩
abbrev main_v485 : Ref sig .tc := ⟨.hbm, 548, rfl⟩
abbrev main_v486 : Ref sig .tc := ⟨.hbm, 549, rfl⟩
abbrev main_v487 : Ref sig .tc := ⟨.hbm, 550, rfl⟩
abbrev main_v488 : Ref sig .tc := ⟨.hbm, 551, rfl⟩
abbrev main_v489 : Ref sig .tc := ⟨.hbm, 552, rfl⟩
abbrev main_v490 : Ref sig .tc := ⟨.hbm, 553, rfl⟩
abbrev main_v491 : Ref sig .tc := ⟨.hbm, 554, rfl⟩
abbrev main_cst_39 : Ref sig .tc := ⟨.hbm, 555, rfl⟩
abbrev main_v492 : Ref sig .tc := ⟨.hbm, 556, rfl⟩
abbrev main_v493 : Ref sig .tc := ⟨.hbm, 557, rfl⟩
abbrev main_cst_40 : Ref sig .tc := ⟨.hbm, 558, rfl⟩
abbrev main_v494 : Ref sig .tc := ⟨.hbm, 559, rfl⟩
abbrev main_v495 : Ref sig .tc := ⟨.hbm, 560, rfl⟩
abbrev main_v496 : Ref sig .tc := ⟨.hbm, 561, rfl⟩
abbrev main_cst_41 : Ref sig .tc := ⟨.hbm, 562, rfl⟩
abbrev main_v497 : Ref sig .tc := ⟨.hbm, 563, rfl⟩
abbrev main_cst_42 : Ref sig .tc := ⟨.hbm, 564, rfl⟩
abbrev main_v498 : Ref sig .tc := ⟨.hbm, 565, rfl⟩
abbrev main_v499 : Ref sig .tc := ⟨.hbm, 566, rfl⟩
abbrev main_v500 : Ref sig .tc := ⟨.hbm, 567, rfl⟩
abbrev main_v501 : Ref sig .tc := ⟨.hbm, 568, rfl⟩
abbrev main_v502 : Ref sig .tc := ⟨.hbm, 569, rfl⟩
abbrev main_cst_43 : Ref sig .tc := ⟨.hbm, 570, rfl⟩
abbrev main_v503 : Ref sig .tc := ⟨.hbm, 571, rfl⟩
abbrev main_v504 : Ref sig .tc := ⟨.hbm, 572, rfl⟩
abbrev main_v505 : Ref sig .tc := ⟨.hbm, 573, rfl⟩
abbrev main_v506 : Ref sig .tc := ⟨.hbm, 574, rfl⟩
abbrev main_v507 : Ref sig .tc := ⟨.hbm, 575, rfl⟩
abbrev main_v508 : Ref sig .tc := ⟨.hbm, 576, rfl⟩
abbrev main_v509 : Ref sig .tc := ⟨.hbm, 577, rfl⟩
abbrev main_v510 : Ref sig .tc := ⟨.hbm, 578, rfl⟩
abbrev main_v511 : Ref sig .tc := ⟨.hbm, 579, rfl⟩
abbrev main_v512 : Ref sig .tc := ⟨.hbm, 580, rfl⟩
abbrev main_v513 : Ref sig .tc := ⟨.hbm, 581, rfl⟩
abbrev main_v514 : Ref sig .tc := ⟨.hbm, 582, rfl⟩
abbrev main_v515 : Ref sig .tc := ⟨.hbm, 583, rfl⟩
abbrev main_v516 : Ref sig .tc := ⟨.hbm, 584, rfl⟩
abbrev main_v517 : Ref sig .tc := ⟨.hbm, 585, rfl⟩
abbrev main_v518 : Ref sig .tc := ⟨.hbm, 586, rfl⟩
abbrev main_cst_44 : Ref sig .tc := ⟨.hbm, 587, rfl⟩
abbrev main_v519 : Ref sig .tc := ⟨.hbm, 588, rfl⟩
abbrev main_v520 : Ref sig .tc := ⟨.hbm, 589, rfl⟩
abbrev main_v521 : Ref sig .tc := ⟨.hbm, 590, rfl⟩
abbrev main_v522 : Ref sig .tc := ⟨.hbm, 591, rfl⟩
abbrev main_v523 : Ref sig .tc := ⟨.hbm, 592, rfl⟩
abbrev main_v524 : Ref sig .tc := ⟨.hbm, 593, rfl⟩
abbrev main_v525 : Ref sig .tc := ⟨.hbm, 594, rfl⟩
abbrev main_v526 : Ref sig .tc := ⟨.hbm, 595, rfl⟩
abbrev main_v527 : Ref sig .tc := ⟨.hbm, 596, rfl⟩
abbrev main_v528 : Ref sig .tc := ⟨.hbm, 597, rfl⟩
abbrev main_v529 : Ref sig .tc := ⟨.hbm, 598, rfl⟩
abbrev main_v530 : Ref sig .tc := ⟨.hbm, 599, rfl⟩
abbrev main_v531 : Ref sig .tc := ⟨.hbm, 600, rfl⟩
abbrev main_v532 : Ref sig .tc := ⟨.hbm, 601, rfl⟩
abbrev main_v533 : Ref sig .tc := ⟨.hbm, 602, rfl⟩
abbrev main_call0_cst : Ref sig .tc := ⟨.hbm, 603, rfl⟩
abbrev main_call0_v0 : Ref sig .tc := ⟨.hbm, 604, rfl⟩
abbrev main_v534 : Ref sig .tc := ⟨.hbm, 605, rfl⟩
abbrev main_cst_45 : Ref sig .tc := ⟨.hbm, 606, rfl⟩
abbrev main_v535 : Ref sig .tc := ⟨.hbm, 607, rfl⟩
abbrev main_v536 : Ref sig .tc := ⟨.hbm, 608, rfl⟩
abbrev main_v537 : Ref sig .tc := ⟨.hbm, 609, rfl⟩
abbrev main_v538 : Ref sig .tc := ⟨.hbm, 610, rfl⟩
abbrev main_v539 : Ref sig .tc := ⟨.hbm, 611, rfl⟩
abbrev main_v540 : Ref sig .tc := ⟨.hbm, 612, rfl⟩
abbrev main_v541 : Ref sig .tc := ⟨.hbm, 613, rfl⟩
abbrev main_v542 : Ref sig .tc := ⟨.hbm, 614, rfl⟩
abbrev main_v543 : Ref sig .tc := ⟨.hbm, 615, rfl⟩
abbrev main_v544 : Ref sig .tc := ⟨.hbm, 616, rfl⟩
abbrev main_v545 : Ref sig .tc := ⟨.hbm, 617, rfl⟩
abbrev main_v546 : Ref sig .tc := ⟨.hbm, 618, rfl⟩
abbrev main_v547 : Ref sig .tc := ⟨.hbm, 619, rfl⟩
abbrev main_call1_cst : Ref sig .tc := ⟨.hbm, 620, rfl⟩
abbrev main_call1_v0 : Ref sig .tc := ⟨.hbm, 621, rfl⟩
abbrev main_v548 : Ref sig .tc := ⟨.hbm, 622, rfl⟩
abbrev main_cst_46 : Ref sig .tc := ⟨.hbm, 623, rfl⟩
abbrev main_v549 : Ref sig .tc := ⟨.hbm, 624, rfl⟩
abbrev main_v550 : Ref sig .tc := ⟨.hbm, 625, rfl⟩
abbrev main_v551 : Ref sig .tc := ⟨.hbm, 626, rfl⟩
abbrev main_v552 : Ref sig .tc := ⟨.hbm, 627, rfl⟩
abbrev main_v553 : Ref sig .tc := ⟨.hbm, 628, rfl⟩
abbrev main_v554 : Ref sig .tc := ⟨.hbm, 629, rfl⟩
abbrev main_v555 : Ref sig .tc := ⟨.hbm, 630, rfl⟩
abbrev main_v556 : Ref sig .tc := ⟨.hbm, 631, rfl⟩
abbrev main_v557 : Ref sig .tc := ⟨.hbm, 632, rfl⟩
abbrev main_v558 : Ref sig .tc := ⟨.hbm, 633, rfl⟩
abbrev main_v559 : Ref sig .tc := ⟨.hbm, 634, rfl⟩
abbrev main_v560 : Ref sig .tc := ⟨.hbm, 635, rfl⟩
abbrev main_v561 : Ref sig .tc := ⟨.hbm, 636, rfl⟩

abbrev nD : Nat := 1
abbrev τ : Topo := Topo.v7x

variable {F : FTy → Type} [FloatOps F]

class Facts₀ : Prop where
  slices_S4096x6144_S4096x768_0_0 : S4096x6144.Slices ![0, 0] S4096x768
  slices_S4096x6144_S4096x768_0_768 : S4096x6144.Slices ![0, 768] S4096x768
  slices_S4096x6144_S4096x768_0_1536 : S4096x6144.Slices ![0, 1536] S4096x768
  slices_S4096x6144_S4096x768_0_2304 : S4096x6144.Slices ![0, 2304] S4096x768
  slices_S4x2304x768_S1x2304x768_0_0_0 : S4x2304x768.Slices ![0, 0, 0] S1x2304x768
  shapeCasts_S1x2304x768_S2304x768 : S1x2304x768.ShapeCasts S2304x768
  slices_S4x2304_S1x2304_0_0 : S4x2304.Slices ![0, 0] S1x2304
  shapeCasts_S1x2304_S2304 : S1x2304.ShapeCasts S2304
  slices_S4x768x768_S1x768x768_0_0_0 : S4x768x768.Slices ![0, 0, 0] S1x768x768
  shapeCasts_S1x768x768_S768x768 : S1x768x768.ShapeCasts S768x768
  slices_S4x768_S1x768_0_0 : S4x768.Slices ![0, 0] S1x768
  shapeCasts_S1x768_S768 : S1x768.ShapeCasts S768
  slices_S2304x768_S768x768_0_0 : S2304x768.Slices ![0, 0] S768x768
  slices_S2304x768_S768x768_768_0 : S2304x768.Slices ![768, 0] S768x768
  slices_S2304x768_S768x768_1536_0 : S2304x768.Slices ![1536, 0] S768x768
  slices_S2304_S768_0 : S2304.Slices ![0] S768
  slices_S2304_S768_768 : S2304.Slices ![768] S768
  slices_S2304_S768_1536 : S2304.Slices ![1536] S768
  transposes_S768x768_S768x768_1_0 : S768x768.Transposes [1, 0] S768x768
  bcast_S768_S1x768_1 : S768.BroadcastsInDim S1x768 (![1] : Fin 1 → Fin S1x768.rank)
  bcast_S1x768_S4096x768_0_1 : S1x768.BroadcastsInDim S4096x768 (![0, 1] : Fin 2 → Fin S4096x768.rank)
  shapeCasts_S4096x768_S4096x4x192 : S4096x768.ShapeCasts S4096x4x192
  reducesTo_S4096x4x192_S4096x4_d2 : S4096x4x192.ReducesTo [2] S4096x4
  h_S_ : 0 < S_.numel
  bcast_S4096x4_S4096x4x1_0_1 : S4096x4.BroadcastsInDim S4096x4x1 (![0, 1] : Fin 2 → Fin S4096x4x1.rank)
  bcast_S_S4096x4x1 : S_.BroadcastsInDim S4096x4x1 (![] : Fin 0 → Fin S4096x4x1.rank)
  reducesTo_S4096x4x1_S4096x4_d2 : S4096x4x1.ReducesTo [2] S4096x4
  bcast_S_S4096x4 : S_.BroadcastsInDim S4096x4 (![] : Fin 0 → Fin S4096x4.rank)
  bcast_S4096x4x1_S4096x4x192_0_1_2 : S4096x4x1.BroadcastsInDim S4096x4x192 (![0, 1, 2] : Fin 3 → Fin S4096x4x192.rank)
  shapeCasts_S4096x4x192_S4096x768 : S4096x4x192.ShapeCasts S4096x768
  slices_S4x2304x768_S1x2304x768_1_0_0 : S4x2304x768.Slices ![1, 0, 0] S1x2304x768
  slices_S4x2304_S1x2304_1_0 : S4x2304.Slices ![1, 0] S1x2304
  slices_S4x768x768_S1x768x768_1_0_0 : S4x768x768.Slices ![1, 0, 0] S1x768x768
  slices_S4x768_S1x768_1_0 : S4x768.Slices ![1, 0] S1x768
  bcast_S_S768 : S_.BroadcastsInDim S768 (![] : Fin 0 → Fin S768.rank)
  slices_S4x2304x768_S1x2304x768_2_0_0 : S4x2304x768.Slices ![2, 0, 0] S1x2304x768
  slices_S4x2304_S1x2304_2_0 : S4x2304.Slices ![2, 0] S1x2304
  slices_S4x768x768_S1x768x768_2_0_0 : S4x768x768.Slices ![2, 0, 0] S1x768x768
  slices_S4x768_S1x768_2_0 : S4x768.Slices ![2, 0] S1x768
  slices_S4x2304x768_S1x2304x768_3_0_0 : S4x2304x768.Slices ![3, 0, 0] S1x2304x768
  slices_S4x2304_S1x2304_3_0 : S4x2304.Slices ![3, 0] S1x2304
  slices_S4x768x768_S1x768x768_3_0_0 : S4x768x768.Slices ![3, 0, 0] S1x768x768
  slices_S4x768_S1x768_3_0 : S4x768.Slices ![3, 0] S1x768
  concatenates_S4096x768_S4096x768_S4096x768_S4096x768_S4096x3072_d1 : Shape.Concatenates [S4096x768, S4096x768, S4096x768, S4096x768] S4096x3072 1
  slices_S4096x6144_S4096x768_0_3072 : S4096x6144.Slices ![0, 3072] S4096x768
  slices_S4096x6144_S4096x768_0_3840 : S4096x6144.Slices ![0, 3840] S4096x768
  slices_S4096x6144_S4096x768_0_4608 : S4096x6144.Slices ![0, 4608] S4096x768
  slices_S4096x6144_S4096x768_0_5376 : S4096x6144.Slices ![0, 5376] S4096x768
  concatenates_S4096x3072_S4096x3072_S4096x6144_d1 : Shape.Concatenates [S4096x3072, S4096x3072] S4096x6144 1
  transposes_S512x6144_S6144x512_1_0 : S512x6144.Transposes [1, 0] S6144x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  bcast_S_S512 : S_.BroadcastsInDim S512 (![] : Fin 0 → Fin S512.rank)
  transposes_S128x512_S512x128_1_0 : S128x512.Transposes [1, 0] S512x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  bcast_S_S128 : S_.BroadcastsInDim S128 (![] : Fin 0 → Fin S128.rank)
  transposes_S1x128_S128x1_1_0 : S1x128.Transposes [1, 0] S128x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S4096x768_S768x768_S4096x768_1_0_0_1_n_n_wf : DotDims.WF S4096x768 S768x768 S4096x768 [1] [0] [0] [1] [] []
  dot_S4096x6144_S6144x512_S4096x512_1_0_0_1_n_n_wf : DotDims.WF S4096x6144 S6144x512 S4096x512 [1] [0] [0] [1] [] []
  dot_S4096x512_S512x128_S4096x128_1_0_0_1_n_n_wf : DotDims.WF S4096x512 S512x128 S4096x128 [1] [0] [0] [1] [] []
  dot_S4096x128_S128x1_S4096x1_1_0_0_1_n_n_wf : DotDims.WF S4096x128 S128x1 S4096x1 [1] [0] [0] [1] [] []

variable [Facts₀]

def dot_S4096x768_S768x768_S4096x768_1_0_0_1_n_n : DotDims S4096x768 S768x768 S4096x768 where
  lhsContracting := [1]
  rhsContracting := [0]
  lhsNonContracting := [0]
  rhsNonContracting := [1]
  lhsBatch := []
  rhsBatch := []
  wf := dot_S4096x768_S768x768_S4096x768_1_0_0_1_n_n_wf
def dot_S4096x6144_S6144x512_S4096x512_1_0_0_1_n_n : DotDims S4096x6144 S6144x512 S4096x512 where
  lhsContracting := [1]
  rhsContracting := [0]
  lhsNonContracting := [0]
  rhsNonContracting := [1]
  lhsBatch := []
  rhsBatch := []
  wf := dot_S4096x6144_S6144x512_S4096x512_1_0_0_1_n_n_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf

class Facts : Prop extends Facts₀ where

variable [Facts]
-- ==== Proof.KReg.lean ====
import proofs.«172500_j1709396984333_1_alg».proof.Proof.Gen.KernelIdeal.Frame
import Idealize.ShloMosaic.Lib.Pipeline.Value
import Idealize.ShloMosaic.Lib.ValueIdx

set_option maxRecDepth 16384

noncomputable section

namespace Cert.KernelIdeal.Reg

open Cert.KernelIdeal Cert.KernelIdeal.Gen Idealize.ShloMosaic Idealize.ShloMosaic.TcCoe Idealize.ShloMosaic.ValueIdx
open Idealize.SL.Sem

variable {F : FTy → Type} [FloatOps F]
variable (V : (c : Dev nD) → (b : Ref sig .tc) → Buf (Elt F) ((c : Thread nD τ).loc b))

def row0 (t : Fin cfg0.N) (p : Fin 128) : Fin 4096 := ⟨t.val * 128 + p.val, by have h := t.isLt; have e : cfg0.N = 32 := N_0; have := p.isLt; omega⟩

def row1 (t : Fin cfg1.N) (p : Fin 512) : Fin 4096 := ⟨t.val * 512 + p.val, by have h := t.isLt; have e : cfg1.N = 8 := N_1; have := p.isLt; omega⟩

private theorem idx_inj0_14 : ∀ t t' : Fin cfg0.N, win0_14.index t = win0_14.index t' → t = t' :=
  (by decide +kernel : ∀ t t' : Fin grid0.N, win0_14.index t = win0_14.index t' → t = t')

private theorem disjoint0_14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj0_14 t t' h)

private theorem blocks0_14 (c : Dev nD) (t : Fin cfg0.N) :
    ((cfg0.win 14).blk t).view.read (Elt F) ((dat0 V c).arrAt 14 cfg0.N) = (dat0 V c).flushed 14 t :=
  (dat0 V c).read_blk_arrAt_eq_flushed 14 disjoint0_14 cfg0.N t t.isLt (flush0_14 t)

private theorem flushed0_14 (c : Dev nD) (t : Fin cfg0.N) :
    (dat0 V c).flushed 14 t = (cfg0.win 14).cut (grid0.coords t) (out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)) := by
  show (cfg0.win 14).cut (grid0.coords t) ((dat0 V c).after 14 t) = _
  rw [after0_14]

private theorem idx_facts0_14 : ∀ t : Fin cfg0.N, win0_14.index t (0 : Fin 2) = t.val ∧ win0_14.index t (1 : Fin 2) = 0 :=
  (by decide +kernel : ∀ t : Fin grid0.N, win0_14.index t (0 : Fin 2) = t.val ∧ win0_14.index t (1 : Fin 2) = 0)

/-- Row 128·t + p of the array the cascade's region leaves is local row p of what point t's body left: distinct points write disjoint rows. -/
theorem arr0_row (c : Dev nD) (t : Fin cfg0.N) (p : Fin 128) (q : Fin 6144) :
    ((dat0 V c).arrAt 14 cfg0.N : S4096x6144.Idx → Elt F .f32) (ix2 (row0 t p) q)
      = out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (ix2 p q) := by
  have h := congrFun (blocks0_14 V c t) (ix2 p q)
  rw [flushed0_14, View.read_apply] at h
  obtain ⟨e0, e1⟩ := idx_facts0_14 t
  have he : ((cfg0.win 14).blk t).view.emb (ix2 p q) = ix2 (row0 t p) q := by
    funext a; apply Fin.ext
    match a with
    | ⟨0, _⟩ => show win0_14.index t (0 : Fin 2) * 128 + 1 * p.val = t.val * 128 + p.val; rw [e0]; omega
    | ⟨1, _⟩ => show win0_14.index t (1 : Fin 2) * 6144 + 1 * q.val = q.val; rw [e1]; omega
  rw [he] at h
  exact h

private theorem idx_facts0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
private theorem idx_facts0_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

theorem iblk0_0_row (c : Dev nD) (t : Fin cfg0.N) (p : Fin 128) (j : Fin 3072) :
    (iblk0 V c 0 t : S128x3072.Idx → Elt F .f32) (ix2 p j) = (V c main_v0 : S4096x3072.Idx → Elt F .f32) (ix2 (row0 t p) j) := by
  obtain ⟨e0, e1⟩ := idx_facts0_0 t
  have he : ((cfg0.win 0).blk t).view.emb (ix2 p j) = ix2 (row0 t p) j := by
    funext a; apply Fin.ext
    match a with
    | ⟨0, _⟩ => show win0_0.index t (0 : Fin 2) * 128 + 1 * p.val = t.val * 128 + p.val; rw [e0]; omega
    | ⟨1, _⟩ => show win0_0.index t (1 : Fin 2) * 3072 + 1 * j.val = j.val; rw [e1]; omega
  unfold iblk0
  rw [View.read_apply, he]
  rfl
theorem iblk0_1_row (c : Dev nD) (t : Fin cfg0.N) (p : Fin 128) (j : Fin 3072) :
    (iblk0 V c 1 t : S128x3072.Idx → Elt F .f32) (ix2 p j) = (V c main_v1 : S4096x3072.Idx → Elt F .f32) (ix2 (row0 t p) j) := by
  obtain ⟨e0, e1⟩ := idx_facts0_1 t
  have he : ((cfg0.win 1).blk t).view.emb (ix2 p j) = ix2 (row0 t p) j := by
    funext a; apply Fin.ext
    match a with
    | ⟨0, _⟩ => show win0_1.index t (0 : Fin 2) * 128 + 1 * p.val = t.val * 128 + p.val; rw [e0]; omega
    | ⟨1, _⟩ => show win0_1.index t (1 : Fin 2) * 3072 + 1 * j.val = j.val; rw [e1]; omega
  unfold iblk0
  rw [View.read_apply, he]
  rfl

theorem iblk0_2 (c : Dev nD) (t : Fin cfg0.N) : (iblk0 V c 2 t : S4x768x768.Idx → Elt F .bf16) = V c main_v5 :=
  funext fun y => congrArg (V c main_v5) (funext fun a => Fin.ext ((cfg0.win 2).rect_emb_val_of_index_zero t a
    ((by decide +kernel : ∀ (t : Fin grid0.N) (a : Fin 3), win0_2.index t a = 0) t a) y))
theorem iblk0_3 (c : Dev nD) (t : Fin cfg0.N) : (iblk0 V c 3 t : S4x768x768.Idx → Elt F .bf16) = V c main_v7 :=
  funext fun y => congrArg (V c main_v7) (funext fun a => Fin.ext ((cfg0.win 3).rect_emb_val_of_index_zero t a
    ((by decide +kernel : ∀ (t : Fin grid0.N) (a : Fin 3), win0_3.index t a = 0) t a) y))
theorem iblk0_4 (c : Dev nD) (t : Fin cfg0.N) : (iblk0 V c 4 t : S4x768.Idx → Elt F .f32) = V c main_v3 :=
  funext fun y => congrArg (V c main_v3) (funext fun a => Fin.ext ((cfg0.win 4).rect_emb_val_of_index_zero t a
    ((by decide +kernel : ∀ (t : Fin grid0.N) (a : Fin 2), win0_4.index t a = 0) t a) y))
theorem iblk0_5 (c : Dev nD) (t : Fin cfg0.N) : (iblk0 V c 5 t : S4x768.Idx → Elt F .f32) = V c main_arg4 :=
  funext fun y => congrArg (V c main_arg4) (funext fun a => Fin.ext ((cfg0.win 5).rect_emb_val_of_index_zero t a
    ((by decide +kernel : ∀ (t : Fin grid0.N) (a : Fin 2), win0_5.index t a = 0) t a) y))
theorem iblk0_6 (c : Dev nD) (t : Fin cfg0.N) : (iblk0 V c 6 t : S4x768.Idx → Elt F .f32) = V c main_arg5 :=
  funext fun y => congrArg (V c main_arg5) (funext fun a => Fin.ext ((cfg0.win 6).rect_emb_val_of_index_zero t a
    ((by decide +kernel : ∀ (t : Fin grid0.N) (a : Fin 2), win0_6.index t a = 0) t a) y))
theorem iblk0_7 (c : Dev nD) (t : Fin cfg0.N) : (iblk0 V c 7 t : S4x768.Idx → Elt F .f32) = V c main_arg6 :=
  funext fun y => congrArg (V c main_arg6) (funext fun a => Fin.ext ((cfg0.win 7).rect_emb_val_of_index_zero t a
    ((by decide +kernel : ∀ (t : Fin grid0.N) (a : Fin 2), win0_7.index t a = 0) t a) y))
theorem iblk0_8 (c : Dev nD) (t : Fin cfg0.N) : (iblk0 V c 8 t : S4x768x768.Idx → Elt F .bf16) = V c main_v11 :=
  funext fun y => congrArg (V c main_v11) (funext fun a => Fin.ext ((cfg0.win 8).rect_emb_val_of_index_zero t a
    ((by decide +kernel : ∀ (t : Fin grid0.N) (a : Fin 3), win0_8.index t a = 0) t a) y))
theorem iblk0_9 (c : Dev nD) (t : Fin cfg0.N) : (iblk0 V c 9 t : S4x768x768.Idx → Elt F .bf16) = V c main_v13 :=
  funext fun y => congrArg (V c main_v13) (funext fun a => Fin.ext ((cfg0.win 9).rect_emb_val_of_index_zero t a
    ((by decide +kernel : ∀ (t : Fin grid0.N) (a : Fin 3), win0_9.index t a = 0) t a) y))
theorem iblk0_10 (c : Dev nD) (t : Fin cfg0.N) : (iblk0 V c 10 t : S4x768.Idx → Elt F .f32) = V c main_v9 :=
  funext fun y => congrArg (V c main_v9) (funext fun a => Fin.ext ((cfg0.win 10).rect_emb_val_of_index_zero t a
    ((by decide +kernel : ∀ (t : Fin grid0.N) (a : Fin 2), win0_10.index t a = 0) t a) y))
theorem iblk0_11 (c : Dev nD) (t : Fin cfg0.N) : (iblk0 V c 11 t : S4x768.Idx → Elt F .f32) = V c main_arg10 :=
  funext fun y => congrArg (V c main_arg10) (funext fun a => Fin.ext ((cfg0.win 11).rect_emb_val_of_index_zero t a
    ((by decide +kernel : ∀ (t : Fin grid0.N) (a : Fin 2), win0_11.index t a = 0) t a) y))
theorem iblk0_12 (c : Dev nD) (t : Fin cfg0.N) : (iblk0 V c 12 t : S4x768.Idx → Elt F .f32) = V c main_arg11 :=
  funext fun y => congrArg (V c main_arg11) (funext fun a => Fin.ext ((cfg0.win 12).rect_emb_val_of_index_zero t a
    ((by decide +kernel : ∀ (t : Fin grid0.N) (a : Fin 2), win0_12.index t a = 0) t a) y))
theorem iblk0_13 (c : Dev nD) (t : Fin cfg0.N) : (iblk0 V c 13 t : S4x768.Idx → Elt F .f32) = V c main_arg12 :=
  funext fun y => congrArg (V c main_arg12) (funext fun a => Fin.ext ((cfg0.win 13).rect_emb_val_of_index_zero t a
    ((by decide +kernel : ∀ (t : Fin grid0.N) (a : Fin 2), win0_13.index t a = 0) t a) y))

private theorem idx_inj1_11 : ∀ t t' : Fin cfg1.N, win1_11.index t = win1_11.index t' → t = t' :=
  (by decide +kernel : ∀ t t' : Fin grid1.N, win1_11.index t = win1_11.index t' → t = t')

private theorem disjoint1_11 : ∀ t t' : Fin cfg1.N, (cfg1.win 11).flush t = true → (cfg1.win 11).flush t' = true → t ≠ t' →
    Disjoint ((cfg1.win 11).blk t).view.set ((cfg1.win 11).blk t').view.set :=
  fun t t' _ _ hne => (cfg1.win 11).disjoint_blk fun h => hne (idx_inj1_11 t t' h)

private theorem blocks1_11 (c : Dev nD) (t : Fin cfg1.N) :
    ((cfg1.win 11).blk t).view.read (Elt F) ((dat1 V c).arrAt 11 cfg1.N) = (dat1 V c).flushed 11 t :=
  (dat1 V c).read_blk_arrAt_eq_flushed 11 disjoint1_11 cfg1.N t t.isLt (flush1_11 t)

private theorem flushed1_11 (c : Dev nD) (t : Fin cfg1.N) :
    (dat1 V c).flushed 11 t = (cfg1.win 11).cut (grid1.coords t) (out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)) := by
  show (cfg1.win 11).cut (grid1.coords t) ((dat1 V c).after 11 t) = _
  rw [after1_11]

private theorem idx_facts1_11 : ∀ t : Fin cfg1.N, win1_11.index t (0 : Fin 2) = t.val ∧ win1_11.index t (1 : Fin 2) = 0 :=
  (by decide +kernel : ∀ t : Fin grid1.N, win1_11.index t (0 : Fin 2) = t.val ∧ win1_11.index t (1 : Fin 2) = 0)

/-- Row 512·t + p of the array the perceptron's region leaves is local row p of what point t's body left. -/
theorem arr1_row (c : Dev nD) (t : Fin cfg1.N) (p : Fin 512) :
    ((dat1 V c).arrAt 11 cfg1.N : S4096x1.Idx → Elt F .f32) (ix2 (row1 t p) 0)
      = out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (ix2 p 0) := by
  have h := congrFun (blocks1_11 V c t) (ix2 p (0 : Fin 1))
  rw [flushed1_11, View.read_apply] at h
  obtain ⟨e0, e1⟩ := idx_facts1_11 t
  have he : ((cfg1.win 11).blk t).view.emb (ix2 p (0 : Fin 1)) = ix2 (row1 t p) (0 : Fin 1) := by
    funext a; apply Fin.ext
    match a with
    | ⟨0, _⟩ => show win1_11.index t (0 : Fin 2) * 512 + 1 * p.val = t.val * 512 + p.val; rw [e0]; omega
    | ⟨1, _⟩ => show win1_11.index t (1 : Fin 2) * 1 + 1 * 0 = 0; rw [e1]
  rw [he] at h
  exact h

private theorem idx_facts1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

theorem iblk1_0_row (c : Dev nD) (t : Fin cfg1.N) (p : Fin 512) (k : Fin 6144) :
    (iblk1 V c 0 t : S512x6144.Idx → Elt F .f32) (ix2 p k) = (V c main_v14 : S4096x6144.Idx → Elt F .f32) (ix2 (row1 t p) k) := by
  obtain ⟨e0, e1⟩ := idx_facts1_0 t
  have he : ((cfg1.win 0).blk t).view.emb (ix2 p k) = ix2 (row1 t p) k := by
    funext a; apply Fin.ext
    match a with
    | ⟨0, _⟩ => show win1_0.index t (0 : Fin 2) * 512 + 1 * p.val = t.val * 512 + p.val; rw [e0]; omega
    | ⟨1, _⟩ => show win1_0.index t (1 : Fin 2) * 6144 + 1 * k.val = k.val; rw [e1]; omega
  unfold iblk1
  rw [View.read_apply, he]
  rfl

theorem iblk1_1 (c : Dev nD) (t : Fin cfg1.N) : (iblk1 V c 1 t : S6144x512.Idx → Elt F .bf16) = V c main_v16 :=
  funext fun y => congrArg (V c main_v16) (funext fun a => Fin.ext ((cfg1.win 1).rect_emb_val_of_index_zero t a
    ((by decide +kernel : ∀ (t : Fin grid1.N) (a : Fin 2), win1_1.index t a = 0) t a) y))
theorem iblk1_2 (c : Dev nD) (t : Fin cfg1.N) : (iblk1 V c 2 t : S512.Idx → Elt F .f32) = V c main_arg14 :=
  funext fun y => congrArg (V c main_arg14) (funext fun a => Fin.ext ((cfg1.win 2).rect_emb_val_of_index_zero t a
    ((by decide +kernel : ∀ (t : Fin grid1.N) (a : Fin 1), win1_2.index t a = 0) t a) y))
theorem iblk1_3 (c : Dev nD) (t : Fin cfg1.N) : (iblk1 V c 3 t : S512.Idx → Elt F .f32) = V c main_arg15 :=
  funext fun y => congrArg (V c main_arg15) (funext fun a => Fin.ext ((cfg1.win 3).rect_emb_val_of_index_zero t a
    ((by decide +kernel : ∀ (t : Fin grid1.N) (a : Fin 1), win1_3.index t a = 0) t a) y))
theorem iblk1_4 (c : Dev nD) (t : Fin cfg1.N) : (iblk1 V c 4 t : S512.Idx → Elt F .f32) = V c main_arg16 :=
  funext fun y => congrArg (V c main_arg16) (funext fun a => Fin.ext ((cfg1.win 4).rect_emb_val_of_index_zero t a
    ((by decide +kernel : ∀ (t : Fin grid1.N) (a : Fin 1), win1_4.index t a = 0) t a) y))
theorem iblk1_5 (c : Dev nD) (t : Fin cfg1.N) : (iblk1 V c 5 t : S512x128.Idx → Elt F .bf16) = V c main_v18 :=
  funext fun y => congrArg (V c main_v18) (funext fun a => Fin.ext ((cfg1.win 5).rect_emb_val_of_index_zero t a
    ((by decide +kernel : ∀ (t : Fin grid1.N) (a : Fin 2), win1_5.index t a = 0) t a) y))
theorem iblk1_6 (c : Dev nD) (t : Fin cfg1.N) : (iblk1 V c 6 t : S128.Idx → Elt F .f32) = V c main_arg18 :=
  funext fun y => congrArg (V c main_arg18) (funext fun a => Fin.ext ((cfg1.win 6).rect_emb_val_of_index_zero t a
    ((by decide +kernel : ∀ (t : Fin grid1.N) (a : Fin 1), win1_6.index t a = 0) t a) y))
theorem iblk1_7 (c : Dev nD) (t : Fin cfg1.N) : (iblk1 V c 7 t : S128.Idx → Elt F .f32) = V c main_arg19 :=
  funext fun y => congrArg (V c main_arg19) (funext fun a => Fin.ext ((cfg1.win 7).rect_emb_val_of_index_zero t a
    ((by decide +kernel : ∀ (t : Fin grid1.N) (a : Fin 1), win1_7.index t a = 0) t a) y))
theorem iblk1_8 (c : Dev nD) (t : Fin cfg1.N) : (iblk1 V c 8 t : S128.Idx → Elt F .f32) = V c main_arg20 :=
  funext fun y => congrArg (V c main_arg20) (funext fun a => Fin.ext ((cfg1.win 8).rect_emb_val_of_index_zero t a
    ((by decide +kernel : ∀ (t : Fin grid1.N) (a : Fin 1), win1_8.index t a = 0) t a) y))
theorem iblk1_9 (c : Dev nD) (t : Fin cfg1.N) : (iblk1 V c 9 t : S128x1.Idx → Elt F .bf16) = V c main_v20 :=
  funext fun y => congrArg (V c main_v20) (funext fun a => Fin.ext ((cfg1.win 9).rect_emb_val_of_index_zero t a
    ((by decide +kernel : ∀ (t : Fin grid1.N) (a : Fin 2), win1_9.index t a = 0) t a) y))
theorem iblk1_10 (c : Dev nD) (t : Fin cfg1.N) : (iblk1 V c 10 t : S1.Idx → Elt F .f32) = V c main_arg22 :=
  funext fun y => congrArg (V c main_arg22) (funext fun a => Fin.ext ((cfg1.win 10).rect_emb_val_of_index_zero t a
    ((by decide +kernel : ∀ (t : Fin grid1.N) (a : Fin 1), win1_10.index t a = 0) t a) y))

theorem exists_row0 (r : Fin 4096) : ∃ (t : Fin cfg0.N) (p : Fin 128), r = row0 t p := by
  have e : cfg0.N = 32 := N_0
  have hr := r.isLt
  refine ⟨⟨r.val / 128, by omega⟩, ⟨r.val % 128, Nat.mod_lt _ (by decide)⟩, Fin.ext ?_⟩
  show r.val = r.val / 128 * 128 + r.val % 128
  omega
theorem exists_row1 (r : Fin 4096) : ∃ (t : Fin cfg1.N) (p : Fin 512), r = row1 t p := by
  have e : cfg1.N = 8 := N_1
  have hr := r.isLt
  refine ⟨⟨r.val / 512, by omega⟩, ⟨r.val % 512, Nat.mod_lt _ (by decide)⟩, Fin.ext ?_⟩
  show r.val = r.val / 512 * 512 + r.val % 512
  omega

end Cert.KernelIdeal.Reg

end
-- ==== Proof.Spec.lean ====
import Idealize.ShloMosaic.PureOps.Ideal
import Idealize.ShloMosaic.Lib.ValueIdx

noncomputable section

namespace Cert.Spec

open Idealize.ShloMosaic Idealize.ShloMosaic.ValueIdx

def IsReal (x : EReal) : Prop := ∃ r : ℝ, x = (r : EReal)

theorem IsReal.coe (r : ℝ) : IsReal (r : EReal) := ⟨r, rfl⟩
theorem IsReal.zero : IsReal (0 : EReal) := ⟨0, rfl⟩
theorem IsReal.one : IsReal (1 : EReal) := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.sum {ι : Type} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))
theorem IsReal.ne_top {x : EReal} (hx : IsReal x) : x ≠ ⊤ := by obtain ⟨a, rfl⟩ := hx; exact EReal.coe_ne_top a
theorem IsReal.ne_bot {x : EReal} (hx : IsReal x) : x ≠ ⊥ := by obtain ⟨a, rfl⟩ := hx; exact EReal.coe_ne_bot a

def bnc : EReal := Ideal.ofBits .f32 0x3F7FFFAC#32

/-- An attention layer whose softmax weight is 1: value projection then output projection. -/
def att (x : Fin 768 → EReal) (wv : Fin 768 → Fin 768 → EReal) (bv : Fin 768 → EReal)
    (wo : Fin 768 → Fin 768 → EReal) (bo : Fin 768 → EReal) (e : Fin 768) : EReal :=
  (∑ k : Fin 768, ((∑ j : Fin 768, x j * wv k j) + bv k) * wo e k) + bo e

/-- Evaluation-mode normalisation y · (g · β) + b, β the binary32 word both programs print. -/
def bn (y g b : EReal) : EReal := y * (g * bnc) + b

structure Branch where
  xs : Fin 4 → Fin 768 → EReal
  wv : Fin 4 → Fin 768 → Fin 768 → EReal
  bv : Fin 4 → Fin 768 → EReal
  wo : Fin 4 → Fin 768 → Fin 768 → EReal
  bo : Fin 4 → Fin 768 → EReal
  g : Fin 4 → Fin 768 → EReal
  b : Fin 4 → Fin 768 → EReal

namespace Branch

def a (B : Branch) (l : Fin 4) : Fin 768 → EReal := att (B.xs l) (B.wv l) (B.bv l) (B.wo l) (B.bo l)

def next (B : Branch) (l : Fin 4) (prev : Fin 768 → EReal) : Fin 768 → EReal :=
  fun e => bn (B.a l e + prev e) (B.g l e) (B.b l e)
def c0 (B : Branch) : Fin 768 → EReal := B.a 0
def c1 (B : Branch) : Fin 768 → EReal := B.next 1 B.c0
def c2 (B : Branch) : Fin 768 → EReal := B.next 2 B.c1
def c3 (B : Branch) : Fin 768 → EReal := B.next 3 B.c2

def casc (B : Branch) : Fin 4 → Fin 768 → EReal
  | ⟨0, _⟩ => B.c0
  | ⟨1, _⟩ => B.c1
  | ⟨2, _⟩ => B.c2
  | ⟨3, _⟩ => B.c3

structure Real (B : Branch) : Prop where
  xs : ∀ l j, IsReal (B.xs l j)
  wv : ∀ l k j, IsReal (B.wv l k j)
  bv : ∀ l k, IsReal (B.bv l k)
  wo : ∀ l e k, IsReal (B.wo l e k)
  bo : ∀ l e, IsReal (B.bo l e)
  g : ∀ l e, IsReal (B.g l e)
  b : ∀ l e, IsReal (B.b l e)

end Branch

def hrow (P J : Branch) (q : Fin 6144) : EReal :=
  if q.val < 3072 then P.casc ⟨q.val / 768 % 4, Nat.mod_lt _ (by decide)⟩ ⟨q.val % 768, Nat.mod_lt _ (by decide)⟩
  else J.casc ⟨q.val / 768 % 4, Nat.mod_lt _ (by decide)⟩ ⟨q.val % 768, Nat.mod_lt _ (by decide)⟩

structure Head where
  w1 : Fin 512 → Fin 6144 → EReal
  b1 : Fin 512 → EReal
  g1 : Fin 512 → EReal
  be1 : Fin 512 → EReal
  w2 : Fin 128 → Fin 512 → EReal
  b2 : Fin 128 → EReal
  g2 : Fin 128 → EReal
  be2 : Fin 128 → EReal
  w3 : Fin 128 → EReal
  b3 : EReal

namespace Head
def a1 (M : Head) (h : Fin 6144 → EReal) (n : Fin 512) : EReal :=
  bn (max ((∑ k : Fin 6144, h k * M.w1 n k) + M.b1 n) 0) (M.g1 n) (M.be1 n)
def a2 (M : Head) (h : Fin 6144 → EReal) (n : Fin 128) : EReal :=
  bn (max ((∑ k : Fin 512, M.a1 h k * M.w2 n k) + M.b2 n) 0) (M.g2 n) (M.be2 n)
def out (M : Head) (h : Fin 6144 → EReal) : EReal := (∑ k : Fin 128, M.a2 h k * M.w3 k) + M.b3
end Head

abbrev A4096x6144 : Shape := ⟨2, ![4096, 6144]⟩
abbrev A4x2304x768 : Shape := ⟨3, ![4, 2304, 768]⟩
abbrev A4x2304 : Shape := ⟨2, ![4, 2304]⟩
abbrev A4x768x768 : Shape := ⟨3, ![4, 768, 768]⟩
abbrev A4x768 : Shape := ⟨2, ![4, 768]⟩
abbrev A512x6144 : Shape := ⟨2, ![512, 6144]⟩
abbrev A512 : Shape := ⟨1, ![512]⟩
abbrev A128x512 : Shape := ⟨2, ![128, 512]⟩
abbrev A128 : Shape := ⟨1, ![128]⟩
abbrev A1x128 : Shape := ⟨2, ![1, 128]⟩
abbrev A1 : Shape := ⟨1, ![1]⟩
abbrev A4096x1 : Shape := ⟨2, ![4096, 1]⟩

def col (br : Fin 2) (l : Fin 4) (j : Fin 768) : Fin 6144 :=
  ⟨br.val * 3072 + l.val * 768 + j.val, by have := br.isLt; have := l.isLt; have := j.isLt; omega⟩

def vrow (k : Fin 768) : Fin 2304 := ⟨1536 + k.val, by have := k.isLt; omega⟩

def branchOf (x : A4096x6144.Idx → EReal) (br : Fin 2) (r : Fin 4096) (Win : A4x2304x768.Idx → EReal) (bin : A4x2304.Idx → EReal)
    (Wo : A4x768x768.Idx → EReal) (bo g b : A4x768.Idx → EReal) : Branch where
  xs l j := x (ix2 r (col br l j))
  wv l k j := Win (ix3 l (vrow k) j)
  bv l k := bin (ix2 l (vrow k))
  wo l e k := Wo (ix3 l e k)
  bo l e := bo (ix2 l e)
  g l e := g (ix2 l e)
  b l e := b (ix2 l e)

def headOf (W1 : A512x6144.Idx → EReal) (b1 g1 be1 : A512.Idx → EReal) (W2 : A128x512.Idx → EReal) (b2 g2 be2 : A128.Idx → EReal)
    (W3 : A1x128.Idx → EReal) (b3 : A1.Idx → EReal) : Head where
  w1 n k := W1 (ix2 n k)
  b1 n := b1 (ix1 n)
  g1 n := g1 (ix1 n)
  be1 n := be1 (ix1 n)
  w2 n k := W2 (ix2 n k)
  b2 n := b2 (ix1 n)
  g2 n := g2 (ix1 n)
  be2 n := be2 (ix1 n)
  w3 k := W3 (ix2 0 k)
  b3 := b3 (ix1 0)

/-- The function both programs compute: per row, two cascades of four layers side by side, then the perceptron. -/
def result (x : A4096x6144.Idx → EReal)
    (pWin : A4x2304x768.Idx → EReal) (pbin : A4x2304.Idx → EReal) (pWo : A4x768x768.Idx → EReal) (pbo pg pb : A4x768.Idx → EReal)
    (jWin : A4x2304x768.Idx → EReal) (jbin : A4x2304.Idx → EReal) (jWo : A4x768x768.Idx → EReal) (jbo jg jb : A4x768.Idx → EReal)
    (W1 : A512x6144.Idx → EReal) (b1 g1 be1 : A512.Idx → EReal) (W2 : A128x512.Idx → EReal) (b2 g2 be2 : A128.Idx → EReal)
    (W3 : A1x128.Idx → EReal) (b3 : A1.Idx → EReal) : A4096x1.Idx → EReal :=
  fun i => (headOf W1 b1 g1 be1 W2 b2 g2 be2 W3 b3).out
    (hrow (branchOf x 0 (i 0) pWin pbin pWo pbo pg pb) (branchOf x 1 (i 0) jWin jbin jWo jbo jg jb))

theorem bnc_isReal : IsReal bnc := by
  unfold bnc
  simp only [Ideal.ofBits, Ideal.ieee]
  norm_num
  exact ⟨_, rfl⟩

theorem att_isReal {x : Fin 768 → EReal} {wv : Fin 768 → Fin 768 → EReal} {bv : Fin 768 → EReal}
    {wo : Fin 768 → Fin 768 → EReal} {bo : Fin 768 → EReal} (hx : ∀ j, IsReal (x j)) (hwv : ∀ k j, IsReal (wv k j))
    (hbv : ∀ k, IsReal (bv k)) (hwo : ∀ e k, IsReal (wo e k)) (hbo : ∀ e, IsReal (bo e)) (e : Fin 768) :
    IsReal (att x wv bv wo bo e) :=
  (IsReal.sum _ _ fun k _ => ((IsReal.sum _ _ fun j _ => (hx j).mul (hwv k j)).add (hbv k)).mul (hwo e k)).add (hbo e)

theorem bn_isReal {y g b : EReal} (hy : IsReal y) (hg : IsReal g) (hb : IsReal b) : IsReal (bn y g b) :=
  (hy.mul (hg.mul bnc_isReal)).add hb

namespace Branch
variable {B : Branch}
theorem a_isReal (h : B.Real) (l : Fin 4) (e : Fin 768) : IsReal (B.a l e) :=
  att_isReal (h.xs l) (h.wv l) (h.bv l) (h.wo l) (h.bo l) e
theorem next_isReal (h : B.Real) (l : Fin 4) {prev : Fin 768 → EReal} (hp : ∀ e, IsReal (prev e)) (e : Fin 768) :
    IsReal (B.next l prev e) := bn_isReal ((a_isReal h l e).add (hp e)) (h.g l e) (h.b l e)
theorem c0_isReal (h : B.Real) (e : Fin 768) : IsReal (B.c0 e) := a_isReal h 0 e
theorem c1_isReal (h : B.Real) (e : Fin 768) : IsReal (B.c1 e) := next_isReal h 1 (c0_isReal h) e
theorem c2_isReal (h : B.Real) (e : Fin 768) : IsReal (B.c2 e) := next_isReal h 2 (c1_isReal h) e
theorem c3_isReal (h : B.Real) (e : Fin 768) : IsReal (B.c3 e) := next_isReal h 3 (c2_isReal h) e
end Branch

end Cert.Spec

end
-- ==== Proof.KHost.lean ====
import proofs.«172500_j1709396984333_1_alg».proof.Proof.Gen.KernelIdeal.Frame
import proofs.«172500_j1709396984333_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Host

open Cert.KernelIdeal Cert.KernelIdeal.Gen Idealize.ShloMosaic Idealize.ShloMosaic.TcCoe Idealize.ShloMosaic.ValueIdx Cert.Spec
open Idealize.SL.Sem

variable (m : (ℓ : Loc nD τ sig) → Buf (Elt Ideal) ℓ) (ρ : Dev nD → PrngReg)

theorem V1_v0 (c : Dev nD) (r : Fin 4096) (j : Fin 3072) :
    V1 m ρ c main_v0 (ix2 r j) = m ((c : Thread nD τ).loc main_arg0) (ix2 r ⟨j.val, by have := j.isLt; omega⟩) := by
  have hv : (V1 m ρ c main_v0 : S4096x3072.Idx → EReal)
      = extractStridedSlice S4096x3072 ![0, 0] (m ((c : Thread nD τ).loc main_arg0)) slices_S4096x6144_S4096x3072_0_0 := by
    show StableHlo.after hostOps0 (W0 m ρ c) (Proc.devRef .tc main_v0) = _
    after_results <;> rfl
  rw [hv]
  exact slice2_axis1_apply 0 _ _ r j _ (Nat.zero_add _).symm
theorem V1_v1 (c : Dev nD) (r : Fin 4096) (j : Fin 3072) :
    V1 m ρ c main_v1 (ix2 r j) = m ((c : Thread nD τ).loc main_arg0) (ix2 r ⟨3072 + j.val, by have := j.isLt; omega⟩) := by
  have hv : (V1 m ρ c main_v1 : S4096x3072.Idx → EReal)
      = extractStridedSlice S4096x3072 ![0, 3072] (m ((c : Thread nD τ).loc main_arg0)) slices_S4096x6144_S4096x3072_0_3072 := by
    show StableHlo.after hostOps0 (W0 m ρ c) (Proc.devRef .tc main_v1) = _
    after_results <;> rfl
  rw [hv]
  exact slice2_axis1_apply 3072 _ _ r j _ rfl

theorem V1_v5 (c : Dev nD) (l : Fin 4) (j k : Fin 768) : V1 m ρ c main_v5 (ix3 l j k) = m ((c : Thread nD τ).loc main_arg1) (ix3 l (Spec.vrow k) j) := by
  have hv : (V1 m ρ c main_v5 : S4x768x768.Idx → EReal)
      = transpose S4x768x768 [0, 2, 1] (extractStridedSlice S4x768x768 ![0, 1536, 0] (m ((c : Thread nD τ).loc main_arg1)) slices_S4x2304x768_S4x768x768_0_1536_0) transposes_S4x768x768_S4x768x768_0_2_1 := by
    show StableHlo.after hostOps0 (W0 m ρ c) (Proc.devRef .tc main_v5) = _
    after_results <;> rfl
  rw [hv]
  refine (transpose_ix3_021_apply _ _ l j k).trans ?_
  exact slice3_axis1_apply 1536 _ _ l k j (Spec.vrow k) rfl
theorem V1_v3 (c : Dev nD) (l : Fin 4) (k : Fin 768) : V1 m ρ c main_v3 (ix2 l k) = m ((c : Thread nD τ).loc main_arg2) (ix2 l (Spec.vrow k)) := by
  have hv : (V1 m ρ c main_v3 : S4x768.Idx → EReal)
      = extractStridedSlice S4x768 ![0, 1536] (m ((c : Thread nD τ).loc main_arg2)) slices_S4x2304_S4x768_0_1536 := by
    show StableHlo.after hostOps0 (W0 m ρ c) (Proc.devRef .tc main_v3) = _
    after_results <;> rfl
  rw [hv]
  exact slice2_axis1_apply 1536 _ _ l k (Spec.vrow k) rfl

theorem V1_v7 (c : Dev nD) (l : Fin 4) (k e : Fin 768) : V1 m ρ c main_v7 (ix3 l k e) = m ((c : Thread nD τ).loc main_arg3) (ix3 l e k) := by
  have hv : (V1 m ρ c main_v7 : S4x768x768.Idx → EReal)
      = transpose S4x768x768 [0, 2, 1] (m ((c : Thread nD τ).loc main_arg3)) transposes_S4x768x768_S4x768x768_0_2_1 := by
    show StableHlo.after hostOps0 (W0 m ρ c) (Proc.devRef .tc main_v7) = _
    after_results <;> rfl
  rw [hv]
  exact transpose_ix3_021_apply _ _ l k e
theorem V1_v11 (c : Dev nD) (l : Fin 4) (j k : Fin 768) : V1 m ρ c main_v11 (ix3 l j k) = m ((c : Thread nD τ).loc main_arg7) (ix3 l (Spec.vrow k) j) := by
  have hv : (V1 m ρ c main_v11 : S4x768x768.Idx → EReal)
      = transpose S4x768x768 [0, 2, 1] (extractStridedSlice S4x768x768 ![0, 1536, 0] (m ((c : Thread nD τ).loc main_arg7)) slices_S4x2304x768_S4x768x768_0_1536_0) transposes_S4x768x768_S4x768x768_0_2_1 := by
    show StableHlo.after hostOps0 (W0 m ρ c) (Proc.devRef .tc main_v11) = _
    after_results <;> rfl
  rw [hv]
  refine (transpose_ix3_021_apply _ _ l j k).trans ?_
  exact slice3_axis1_apply 1536 _ _ l k j (Spec.vrow k) rfl
theorem V1_v9 (c : Dev nD) (l : Fin 4) (k : Fin 768) : V1 m ρ c main_v9 (ix2 l k) = m ((c : Thread nD τ).loc main_arg8) (ix2 l (Spec.vrow k)) := by
  have hv : (V1 m ρ c main_v9 : S4x768.Idx → EReal)
      = extractStridedSlice S4x768 ![0, 1536] (m ((c : Thread nD τ).loc main_arg8)) slices_S4x2304_S4x768_0_1536 := by
    show StableHlo.after hostOps0 (W0 m ρ c) (Proc.devRef .tc main_v9) = _
    after_results <;> rfl
  rw [hv]
  exact slice2_axis1_apply 1536 _ _ l k (Spec.vrow k) rfl
theorem V1_v13 (c : Dev nD) (l : Fin 4) (k e : Fin 768) : V1 m ρ c main_v13 (ix3 l k e) = m ((c : Thread nD τ).loc main_arg9) (ix3 l e k) := by
  have hv : (V1 m ρ c main_v13 : S4x768x768.Idx → EReal)
      = transpose S4x768x768 [0, 2, 1] (m ((c : Thread nD τ).loc main_arg9)) transposes_S4x768x768_S4x768x768_0_2_1 := by
    show StableHlo.after hostOps0 (W0 m ρ c) (Proc.devRef .tc main_v13) = _
    after_results <;> rfl
  rw [hv]
  exact transpose_ix3_021_apply _ _ l k e
abbrev args0 : List (Ref sig .tc) := [main_arg4, main_arg5, main_arg6, main_arg10, main_arg11, main_arg12]
abbrev args1 : List (Ref sig .tc) := [main_arg13, main_arg14, main_arg15, main_arg16, main_arg17, main_arg18, main_arg19, main_arg20, main_arg21, main_arg22]

/-- No host operation before the cascade kernel writes an argument. -/
theorem V1_arg (c : Dev nD) (a : Ref sig .tc) (ha : a ∈ args0 ++ args1) : V1 m ρ c a = m ((c : Thread nD τ).loc a) := by
  revert a
  refine List.forall_iff_forall_mem.mp ?_
  repeat' apply And.intro
  all_goals (show StableHlo.after hostOps0 (W0 m ρ c) _ = _; after_results <;> rfl)

/-- Nor does the cascade kernel write the perceptron's: its arrays are other buffers. -/
theorem W2_arg (c : Dev nD) (a : Ref sig .tc) (ha : a ∈ args1) : W2 m ρ c (Proc.devRef .tc a) = m ((c : Thread nD τ).loc a) :=
  (W2_of_ne m ρ c a (by revert a; decide)).trans (V1_arg m ρ c a (List.mem_append_right _ ha))

/-- Nor a host operation before the perceptron kernel. -/
theorem V3_arg (c : Dev nD) (a : Ref sig .tc) (ha : a ∈ args1) : V3 m ρ c a = m ((c : Thread nD τ).loc a) := by
  revert a
  refine List.forall_iff_forall_mem.mp ?_
  repeat' apply And.intro
  all_goals (show StableHlo.after hostOps1 (W2 m ρ c) _ = _; after_results; exact W2_arg m ρ c _ (by decide))

theorem V3_v14 (c : Dev nD) : V3 m ρ c main_v14 = (dat0 (V1 m ρ) c).arrAt 14 cfg0.N := by
  show StableHlo.after hostOps1 (W2 m ρ c) (Proc.devRef .tc main_v14) = _
  after_results
  exact W2_arr m ρ c 14
theorem V3_v16 (c : Dev nD) (k : Fin 6144) (n : Fin 512) : V3 m ρ c main_v16 (ix2 k n) = m ((c : Thread nD τ).loc main_arg13) (ix2 n k) := by
  have hv : (V3 m ρ c main_v16 : S6144x512.Idx → EReal)
      = transpose S6144x512 [1, 0] (m ((c : Thread nD τ).loc main_arg13)) transposes_S512x6144_S6144x512_1_0 := by
    show StableHlo.after hostOps1 (W2 m ρ c) (Proc.devRef .tc main_v16) = _
    after_results
    rw [W2_arg m ρ c main_arg13 (by decide)]
    rfl
  rw [hv]
  exact transpose_ix2_apply _ _ k n
theorem V3_v18 (c : Dev nD) (k : Fin 512) (n : Fin 128) : V3 m ρ c main_v18 (ix2 k n) = m ((c : Thread nD τ).loc main_arg17) (ix2 n k) := by
  have hv : (V3 m ρ c main_v18 : S512x128.Idx → EReal)
      = transpose S512x128 [1, 0] (m ((c : Thread nD τ).loc main_arg17)) transposes_S128x512_S512x128_1_0 := by
    show StableHlo.after hostOps1 (W2 m ρ c) (Proc.devRef .tc main_v18) = _
    after_results
    rw [W2_arg m ρ c main_arg17 (by decide)]
    rfl
  rw [hv]
  exact transpose_ix2_apply _ _ k n
theorem V3_v20 (c : Dev nD) (k : Fin 128) : V3 m ρ c main_v20 (ix2 k 0) = m ((c : Thread nD τ).loc main_arg21) (ix2 0 k) := by
  have hv : (V3 m ρ c main_v20 : S128x1.Idx → EReal)
      = transpose S128x1 [1, 0] (m ((c : Thread nD τ).loc main_arg21)) transposes_S1x128_S128x1_1_0 := by
    show StableHlo.after hostOps1 (W2 m ρ c) (Proc.devRef .tc main_v20) = _
    after_results
    rw [W2_arg m ρ c main_arg21 (by decide)]
    rfl
  rw [hv]
  exact transpose_ix2_apply _ _ k 0
end Cert.KernelIdeal.Host

end
-- ==== Proof.Idx.lean ====
import Idealize.ShloMosaic.Lib.StackMember

noncomputable section

namespace Cert.Idx

open Idealize.ShloMosaic Idealize.ShloMosaic.ValueIdx

/-- A product whose dimension numbers are the plain m × k by k × n ones is, at (r, c), the sum over the contracted coordinate. -/
theorem dot_apply {m k n : Nat} {φ₁ φ₂ : FTy} (d : DotDims ⟨2, ![m, k]⟩ ⟨2, ![k, n]⟩ ⟨2, ![m, n]⟩) (hd : d = DotDims.plain m k n)
    (x : FVec Ideal ⟨2, ![m, k]⟩ φ₁) (w : FVec Ideal ⟨2, ![k, n]⟩ φ₂) (r : Fin m) (c : Fin n) :
    Host.dotGeneral d none x w (ix2 r c) = ∑ j : Fin k, x (ix2 r j) * w (ix2 j c) := by
  subst hd
  exact StackMember.dotGeneral_plain_apply none x w r c

/-- The same for a kernel's product accumulated into zero. -/
theorem mm_apply {m k n : Nat} {φ₁ φ₂ : FTy} (d : DotDims ⟨2, ![m, k]⟩ ⟨2, ![k, n]⟩ ⟨2, ![m, n]⟩) (hd : d = DotDims.plain m k n)
    (x : FVec Ideal ⟨2, ![m, k]⟩ φ₁) (w : FVec Ideal ⟨2, ![k, n]⟩ φ₂) (r : Fin m) (c : Fin n) :
    matmul d none x w (constant ⟨2, ![m, n]⟩ .f32 0x00000000#32) (ix2 r c) = ∑ j : Fin k, x (ix2 r j) * w (ix2 j c) :=
  (congrFun (matmul_zero_eq_dotGeneral d none x w) _).trans (dot_apply d hd x w r c)

/-- A vector laid as one row and then down m rows, at (r, e), is the vector at e. -/
theorem bcastRow_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (v : (⟨1, ![n]⟩ : Shape).Idx → α) (r : Fin m) (e : Fin n) :
    broadcastInDim ⟨2, ![m, n]⟩ ![0, 1] h2 (broadcastInDim ⟨2, ![1, n]⟩ ![1] h1 v) (ix2 r e) = v (ix1 e) :=
  (broadcastInDim_oneRow_apply h2 _ r e).trans (broadcastInDim_apply ![1] h1 v (ix2 0 e) (ix1 e) fun a => by
    match a with
    | ⟨0, _⟩ =>
      show e.val = if n = 1 then 0 else e.val
      split
      · have := e.isLt; omega
      · rfl)

/-- A scalar laid over a whole array is the scalar at every index. -/
theorem bcastScalar_apply {α : Type} {t : Shape} (h : (⟨0, ![]⟩ : Shape).BroadcastsInDim t ![]) (y : (⟨0, ![]⟩ : Shape).Idx → α) (i : t.Idx) :
    broadcastInDim t ![] h y i = y ix0 :=
  broadcastInDim_apply _ h y i ix0 fun a => a.elim0

/-- A transposed matrix at (i, j) is the matrix at (j, i). -/
theorem tr_apply {α : Type} {a b : Nat} (W : (⟨2, ![a, b]⟩ : Shape).Idx → α) (h : (⟨2, ![a, b]⟩ : Shape).Transposes [1, 0] ⟨2, ![b, a]⟩)
    (i : Fin b) (j : Fin a) : transpose ⟨2, ![b, a]⟩ [1, 0] W h (ix2 i j) = W (ix2 j i) :=
  transpose_apply [1, 0] W h (ix2 i j) (ix2 j i) fun c => match c with | ⟨0, _⟩ => rfl | ⟨1, _⟩ => rfl

end Cert.Idx

end
-- ==== Proof.KBody0.lean ====
import proofs.«172500_j1709396984333_1_alg».proof.Proof.Gen.KernelIdeal.Frame
import proofs.«172500_j1709396984333_1_alg».proof.Proof.Spec
import proofs.«172500_j1709396984333_1_alg».proof.Proof.Idx
import Idealize.ShloMosaic.Lib.Pipeline.Value
import Idealize.ShloMosaic.Lib.ValueIdx
import Idealize.ShloMosaic.Lib.ValueLayout

set_option maxRecDepth 16384

noncomputable section

namespace Cert.KernelIdeal.Body

open Cert.KernelIdeal Cert.KernelIdeal.Gen Idealize.ShloMosaic Idealize.ShloMosaic.TcCoe Idealize.ShloMosaic.ValueIdx Cert.Spec

/-- One branch at local row p of a point's blocks, the projection matrices held transposed. -/
def brK (x : Vec Ideal S128x3072 .f32) (wvT woT : Vec Ideal S4x768x768 .bf16) (bv bo g b : Vec Ideal S4x768 .f32) (p : Fin 128) : Spec.Branch where
  xs l j := x (ix2 p ⟨l.val * 768 + j.val, by have := l.isLt; have := j.isLt; omega⟩)
  wv l k j := wvT (ix3 l j k)
  bv l k := bv (ix2 l k)
  wo l e k := woT (ix3 l k e)
  bo l e := bo (ix2 l e)
  g l e := g (ix2 l e)
  b l e := b (ix2 l e)

private def matOf (w : Vec Ideal S1x768x768 .bf16) : FVec Ideal S768x768 .bf16 :=
  shapeCast S768x768 w shapeCasts_S1x768x768_S768x768

private def mm (a : FVec Ideal S128x768 .bf16) (w : FVec Ideal S768x768 .bf16) : FVec Ideal S128x768 .f32 :=
  matmul dot_S128x768_S768x768_S128x768_1_0_0_1_n_n none a w (constant S128x768 .f32 0x00000000#32)

private def rowb (b : FVec Ideal S768 .f32) : FVec Ideal S128x768 .f32 :=
  broadcastTo S128x768 (shapeCast S1x768 b shapeCasts_S768_S1x768) broadcasts_S1x768_S128x768

private def flat (b : Vec Ideal S1x768 .f32) : FVec Ideal S768 .f32 := shapeCast S768 b shapeCasts_S1x768_S768

private def vproj (x : Vec Ideal S128x768 .f32) (wv : Vec Ideal S1x768x768 .bf16) (bv : Vec Ideal S1x768 .f32) : FVec Ideal S128x768 .bf16 :=
  truncf .bf16 (addf (mm (truncf .bf16 (shapeCast S128x768 x shapeCasts_S128x768_S128x768) bitsLt_bf16_f32) (matOf wv)) (rowb (flat bv))) bitsLt_bf16_f32

private def oproj (v : FVec Ideal S128x768 .bf16) (wo : Vec Ideal S1x768x768 .bf16) (bo : Vec Ideal S1x768 .f32) : FVec Ideal S128x768 .f32 :=
  addf (mm v (matOf wo)) (rowb (flat bo))

private def resbn (o prev : FVec Ideal S128x768 .f32) (g b : Vec Ideal S1x768 .f32) : FVec Ideal S128x768 .f32 :=
  addf (mulf (addf o prev) (rowb (mulf (flat g) (broadcast S768 (Scalar.ofBits .f32 0x3F7FFFAC#32))))) (rowb (flat b))

private def lay0 (x : Vec Ideal S128x768 .f32) (wv : Vec Ideal S1x768x768 .bf16) (bv : Vec Ideal S1x768 .f32)
    (wo : Vec Ideal S1x768x768 .bf16) (bo : Vec Ideal S1x768 .f32) : FVec Ideal S128x768 .f32 :=
  oproj (vproj x wv bv) wo bo

private def layN (prev : FVec Ideal S128x768 .f32) (x : Vec Ideal S128x768 .f32) (wv : Vec Ideal S1x768x768 .bf16) (bv : Vec Ideal S1x768 .f32)
    (wo : Vec Ideal S1x768x768 .bf16) (bo g b : Vec Ideal S1x768 .f32) : FVec Ideal S128x768 .f32 :=
  resbn (oproj (vproj x wv bv) wo bo) prev g b

private theorem matOf_apply (w : Vec Ideal S1x768x768 .bf16) (k e : Fin 768) : matOf w (ix2 k e) = w (ix3 (0 : Fin 1) k e) :=
  shapeCast_1ab_ab_apply w shapeCasts_S1x768x768_S768x768 k e

private theorem flat_apply (b : Vec Ideal S1x768 .f32) (e : Fin 768) : flat b (ix1 e) = b (ix2 (0 : Fin 1) e) :=
  shapeCast_1a_a_apply b shapeCasts_S1x768_S768 e

private theorem rowb_apply (b : FVec Ideal S768 .f32) (p : Fin 128) (e : Fin 768) : rowb b (ix2 p e) = b (ix1 e) :=
  (broadcastTo_1b_ab_apply _ broadcasts_S1x768_S128x768 p e).trans (shapeCast_a_1a_apply b shapeCasts_S768_S1x768 0 e)

private theorem mm_apply (a : FVec Ideal S128x768 .bf16) (w : FVec Ideal S768x768 .bf16) (p : Fin 128) (e : Fin 768) :
    mm a w (ix2 p e) = ∑ k : Fin 768, a (ix2 p k) * w (ix2 k e) :=
  Idx.mm_apply dot_S128x768_S768x768_S128x768_1_0_0_1_n_n rfl a w p e

private theorem vproj_apply (x : Vec Ideal S128x768 .f32) (wv : Vec Ideal S1x768x768 .bf16) (bv : Vec Ideal S1x768 .f32) (p : Fin 128) (k : Fin 768) :
    vproj x wv bv (ix2 p k) = (∑ j : Fin 768, x (ix2 p j) * wv (ix3 (0 : Fin 1) j k)) + bv (ix2 (0 : Fin 1) k) := by
  unfold vproj
  rw [truncf_apply, addf_apply, mm_apply, rowb_apply, flat_apply]
  simp only [truncf_apply, shapeCast_self, matOf_apply]

private theorem oproj_apply (v : FVec Ideal S128x768 .bf16) (wo : Vec Ideal S1x768x768 .bf16) (bo : Vec Ideal S1x768 .f32) (p : Fin 128) (e : Fin 768) :
    oproj v wo bo (ix2 p e) = (∑ k : Fin 768, v (ix2 p k) * wo (ix3 (0 : Fin 1) k e)) + bo (ix2 (0 : Fin 1) e) := by
  unfold oproj
  rw [addf_apply, mm_apply, rowb_apply, flat_apply]
  simp only [matOf_apply]

private theorem resbn_apply (o prev : FVec Ideal S128x768 .f32) (g b : Vec Ideal S1x768 .f32) (p : Fin 128) (e : Fin 768) :
    resbn o prev g b (ix2 p e) = Spec.bn (o (ix2 p e) + prev (ix2 p e)) (g (ix2 (0 : Fin 1) e)) (b (ix2 (0 : Fin 1) e)) := by
  unfold resbn Spec.bn
  rw [addf_apply, mulf_apply, addf_apply, rowb_apply, rowb_apply, mulf_apply, flat_apply, flat_apply, broadcast_apply]
  rfl

private theorem lay0_apply (x : Vec Ideal S128x768 .f32) (wv : Vec Ideal S1x768x768 .bf16) (bv : Vec Ideal S1x768 .f32)
    (wo : Vec Ideal S1x768x768 .bf16) (bo : Vec Ideal S1x768 .f32) (p : Fin 128) (e : Fin 768) :
    lay0 x wv bv wo bo (ix2 p e)
      = Spec.att (fun j => x (ix2 p j)) (fun k j => wv (ix3 (0 : Fin 1) j k)) (fun k => bv (ix2 (0 : Fin 1) k))
          (fun e k => wo (ix3 (0 : Fin 1) k e)) (fun e => bo (ix2 (0 : Fin 1) e)) e := by
  unfold lay0 Spec.att
  rw [oproj_apply]
  simp only [vproj_apply]

private theorem layN_apply (prev : FVec Ideal S128x768 .f32) (x : Vec Ideal S128x768 .f32) (wv : Vec Ideal S1x768x768 .bf16) (bv : Vec Ideal S1x768 .f32)
    (wo : Vec Ideal S1x768x768 .bf16) (bo g b : Vec Ideal S1x768 .f32) (p : Fin 128) (e : Fin 768) :
    layN prev x wv bv wo bo g b (ix2 p e)
      = Spec.bn (Spec.att (fun j => x (ix2 p j)) (fun k j => wv (ix3 (0 : Fin 1) j k)) (fun k => bv (ix2 (0 : Fin 1) k))
          (fun e k => wo (ix3 (0 : Fin 1) k e)) (fun e => bo (ix2 (0 : Fin 1) e)) e + prev (ix2 p e)) (g (ix2 (0 : Fin 1) e)) (b (ix2 (0 : Fin 1) e)) := by
  unfold layN Spec.att
  rw [resbn_apply, oproj_apply]
  simp only [vproj_apply]

private theorem ldx (x : Vec Ideal S128x3072 .f32) (o : Nat) (inb : ∀ a, (![0, o] : Fin 2 → Nat) a + S128x768.size a ≤ S128x3072.size a)
    (p : Fin 128) (j : Fin 768) (c : Fin 3072) (hc : c.val = o + j.val) :
    View.ld x (Rect.unit (s := S128x3072) ![0, o] S128x768.size inb) (ix2 p j) = x (ix2 p c) := by
  show x _ = x _
  refine congrArg x (funext fun a => Fin.ext ?_)
  match a with
  | ⟨0, _⟩ => show 0 + 1 * p.val = p.val; omega
  | ⟨1, _⟩ => show o + 1 * j.val = c.val; omega

private theorem ldw (w : Vec Ideal S4x768x768 .bf16) (lo : Nat) (inb : ∀ a, (![lo, 0, 0] : Fin 3 → Nat) a + S1x768x768.size a ≤ S4x768x768.size a)
    (l : Fin 4) (hl : l.val = lo) (j k : Fin 768) :
    View.ld w (Rect.unit (s := S4x768x768) ![lo, 0, 0] S1x768x768.size inb) (ix3 (0 : Fin 1) j k) = w (ix3 l j k) := by
  show w _ = w _
  refine congrArg w (funext fun a => Fin.ext ?_)
  match a with
  | ⟨0, _⟩ => show lo + 1 * 0 = l.val; omega
  | ⟨1, _⟩ => show 0 + 1 * j.val = j.val; omega
  | ⟨2, _⟩ => show 0 + 1 * k.val = k.val; omega

private theorem ldb (b : Vec Ideal S4x768 .f32) (lo : Nat) (inb : ∀ a, (![lo, 0] : Fin 2 → Nat) a + S1x768.size a ≤ S4x768.size a)
    (l : Fin 4) (hl : l.val = lo) (e : Fin 768) :
    View.ld b (Rect.unit (s := S4x768) ![lo, 0] S1x768.size inb) (ix2 (0 : Fin 1) e) = b (ix2 l e) := by
  show b _ = b _
  refine congrArg b (funext fun a => Fin.ext ?_)
  match a with
  | ⟨0, _⟩ => show lo + 1 * 0 = l.val; omega
  | ⟨1, _⟩ => show 0 + 1 * e.val = e.val; omega

private theorem att_ld (x : Vec Ideal S128x3072 .f32) (wvT woT : Vec Ideal S4x768x768 .bf16) (bv bo g b : Vec Ideal S4x768 .f32) (p : Fin 128)
    (l : Fin 4) (lo o : Nat) (hl : l.val = lo) (ho : o = lo * 768)
    (inbx : ∀ a, (![0, o] : Fin 2 → Nat) a + S128x768.size a ≤ S128x3072.size a)
    (inbw : ∀ a, (![lo, 0, 0] : Fin 3 → Nat) a + S1x768x768.size a ≤ S4x768x768.size a)
    (inbb : ∀ a, (![lo, 0] : Fin 2 → Nat) a + S1x768.size a ≤ S4x768.size a) (e : Fin 768) :
    Spec.att (fun j => View.ld x (Rect.unit (s := S128x3072) ![0, o] S128x768.size inbx) (ix2 p j))
        (fun k j => View.ld wvT (Rect.unit (s := S4x768x768) ![lo, 0, 0] S1x768x768.size inbw) (ix3 (0 : Fin 1) j k))
        (fun k => View.ld bv (Rect.unit (s := S4x768) ![lo, 0] S1x768.size inbb) (ix2 (0 : Fin 1) k))
        (fun e k => View.ld woT (Rect.unit (s := S4x768x768) ![lo, 0, 0] S1x768x768.size inbw) (ix3 (0 : Fin 1) k e))
        (fun e => View.ld bo (Rect.unit (s := S4x768) ![lo, 0] S1x768.size inbb) (ix2 (0 : Fin 1) e)) e
      = (brK x wvT woT bv bo g b p).a l e := by
  have h1 : (fun j => View.ld x (Rect.unit (s := S128x3072) ![0, o] S128x768.size inbx) (ix2 p j)) = (brK x wvT woT bv bo g b p).xs l :=
    funext fun j => ldx x o inbx p j _ (by show l.val * 768 + j.val = o + j.val; omega)
  have h2 : (fun k j => View.ld wvT (Rect.unit (s := S4x768x768) ![lo, 0, 0] S1x768x768.size inbw) (ix3 (0 : Fin 1) j k)) = (brK x wvT woT bv bo g b p).wv l :=
    funext fun k => funext fun j => ldw wvT lo inbw l hl j k
  have h3 : (fun k => View.ld bv (Rect.unit (s := S4x768) ![lo, 0] S1x768.size inbb) (ix2 (0 : Fin 1) k)) = (brK x wvT woT bv bo g b p).bv l :=
    funext fun k => ldb bv lo inbb l hl k
  have h4 : (fun e k => View.ld woT (Rect.unit (s := S4x768x768) ![lo, 0, 0] S1x768x768.size inbw) (ix3 (0 : Fin 1) k e)) = (brK x wvT woT bv bo g b p).wo l :=
    funext fun e => funext fun k => ldw woT lo inbw l hl k e
  have h5 : (fun e => View.ld bo (Rect.unit (s := S4x768) ![lo, 0] S1x768.size inbb) (ix2 (0 : Fin 1) e)) = (brK x wvT woT bv bo g b p).bo l :=
    funext fun e => ldb bo lo inbb l hl e
  rw [h1, h2, h3, h4, h5]
  rfl

private theorem next_ld (x : Vec Ideal S128x3072 .f32) (wvT woT : Vec Ideal S4x768x768 .bf16) (bv bo g b : Vec Ideal S4x768 .f32) (p : Fin 128)
    (l : Fin 4) (lo o : Nat) (hl : l.val = lo) (ho : o = lo * 768)
    (inbx : ∀ a, (![0, o] : Fin 2 → Nat) a + S128x768.size a ≤ S128x3072.size a)
    (inbw : ∀ a, (![lo, 0, 0] : Fin 3 → Nat) a + S1x768x768.size a ≤ S4x768x768.size a)
    (inbb : ∀ a, (![lo, 0] : Fin 2 → Nat) a + S1x768.size a ≤ S4x768.size a)
    (prev : FVec Ideal S128x768 .f32) (pv : Fin 768 → EReal) (hprev : ∀ e, prev (ix2 p e) = pv e) (e : Fin 768) :
    layN prev (View.ld x (Rect.unit (s := S128x3072) ![0, o] S128x768.size inbx))
        (View.ld wvT (Rect.unit (s := S4x768x768) ![lo, 0, 0] S1x768x768.size inbw)) (View.ld bv (Rect.unit (s := S4x768) ![lo, 0] S1x768.size inbb))
        (View.ld woT (Rect.unit (s := S4x768x768) ![lo, 0, 0] S1x768x768.size inbw)) (View.ld bo (Rect.unit (s := S4x768) ![lo, 0] S1x768.size inbb))
        (View.ld g (Rect.unit (s := S4x768) ![lo, 0] S1x768.size inbb)) (View.ld b (Rect.unit (s := S4x768) ![lo, 0] S1x768.size inbb)) (ix2 p e)
      = (brK x wvT woT bv bo g b p).next l pv e := by
  rw [layN_apply, hprev, att_ld x wvT woT bv bo g b p l lo o hl ho inbx inbw inbb e, ldb g lo inbb l hl e, ldb b lo inbb l hl e]
  rfl

private def B0 (x : Vec Ideal S128x3072 .f32) (wvT woT : Vec Ideal S4x768x768 .bf16) (bv bo : Vec Ideal S4x768 .f32) : FVec Ideal S128x768 .f32 :=
  lay0 (View.ld x r0_0) (View.ld wvT r0_1) (View.ld bv r0_2) (View.ld woT r0_1) (View.ld bo r0_2)
private def B1 (x : Vec Ideal S128x3072 .f32) (wvT woT : Vec Ideal S4x768x768 .bf16) (bv bo g b : Vec Ideal S4x768 .f32) : FVec Ideal S128x768 .f32 :=
  layN (B0 x wvT woT bv bo) (View.ld x r0_4) (View.ld wvT r0_5) (View.ld bv r0_6) (View.ld woT r0_5) (View.ld bo r0_6) (View.ld g r0_6) (View.ld b r0_6)
private def B2 (x : Vec Ideal S128x3072 .f32) (wvT woT : Vec Ideal S4x768x768 .bf16) (bv bo g b : Vec Ideal S4x768 .f32) : FVec Ideal S128x768 .f32 :=
  layN (B1 x wvT woT bv bo g b) (View.ld x r0_8) (View.ld wvT r0_9) (View.ld bv r0_10) (View.ld woT r0_9) (View.ld bo r0_10) (View.ld g r0_10) (View.ld b r0_10)
private def B3 (x : Vec Ideal S128x3072 .f32) (wvT woT : Vec Ideal S4x768x768 .bf16) (bv bo g b : Vec Ideal S4x768 .f32) : FVec Ideal S128x768 .f32 :=
  layN (B2 x wvT woT bv bo g b) (View.ld x r0_12) (View.ld wvT r0_13) (View.ld bv r0_14) (View.ld woT r0_13) (View.ld bo r0_14) (View.ld g r0_14) (View.ld b r0_14)

private theorem B0_apply (x : Vec Ideal S128x3072 .f32) (wvT woT : Vec Ideal S4x768x768 .bf16) (bv bo g b : Vec Ideal S4x768 .f32) (p : Fin 128) (e : Fin 768) :
    B0 x wvT woT bv bo (ix2 p e) = (brK x wvT woT bv bo g b p).casc 0 e :=
  (lay0_apply _ _ _ _ _ p e).trans (att_ld x wvT woT bv bo g b p 0 0 0 rfl rfl _ _ _ e)
private theorem B1_apply (x : Vec Ideal S128x3072 .f32) (wvT woT : Vec Ideal S4x768x768 .bf16) (bv bo g b : Vec Ideal S4x768 .f32) (p : Fin 128) (e : Fin 768) :
    B1 x wvT woT bv bo g b (ix2 p e) = (brK x wvT woT bv bo g b p).casc 1 e :=
  next_ld x wvT woT bv bo g b p 1 1 768 rfl rfl _ _ _ _ _ (fun e => B0_apply x wvT woT bv bo g b p e) e
private theorem B2_apply (x : Vec Ideal S128x3072 .f32) (wvT woT : Vec Ideal S4x768x768 .bf16) (bv bo g b : Vec Ideal S4x768 .f32) (p : Fin 128) (e : Fin 768) :
    B2 x wvT woT bv bo g b (ix2 p e) = (brK x wvT woT bv bo g b p).casc 2 e :=
  next_ld x wvT woT bv bo g b p 2 2 1536 rfl rfl _ _ _ _ _ (fun e => B1_apply x wvT woT bv bo g b p e) e
private theorem B3_apply (x : Vec Ideal S128x3072 .f32) (wvT woT : Vec Ideal S4x768x768 .bf16) (bv bo g b : Vec Ideal S4x768 .f32) (p : Fin 128) (e : Fin 768) :
    B3 x wvT woT bv bo g b (ix2 p e) = (brK x wvT woT bv bo g b p).casc 3 e :=
  next_ld x wvT woT bv bo g b p 3 3 2304 rfl rfl _ _ _ _ _ (fun e => B2_apply x wvT woT bv bo g b p e) e

private theorem hrow_fst (P J : Spec.Branch) (l : Fin 4) (e : Fin 768) (q : Fin 6144) (hq : q.val = l.val * 768 + e.val) :
    Spec.hrow P J q = P.casc l e := by
  have hl := l.isLt
  have he := e.isLt
  have h1 : (⟨q.val / 768 % 4, Nat.mod_lt _ (by decide)⟩ : Fin 4) = l := Fin.ext (by show q.val / 768 % 4 = l.val; omega)
  have h2 : (⟨q.val % 768, Nat.mod_lt _ (by decide)⟩ : Fin 768) = e := Fin.ext (by show q.val % 768 = e.val; omega)
  unfold Spec.hrow
  rw [if_pos (by omega), h1, h2]

private theorem hrow_snd (P J : Spec.Branch) (l : Fin 4) (e : Fin 768) (q : Fin 6144) (hq : q.val = 3072 + l.val * 768 + e.val) :
    Spec.hrow P J q = J.casc l e := by
  have hl := l.isLt
  have he := e.isLt
  have h1 : (⟨q.val / 768 % 4, Nat.mod_lt _ (by decide)⟩ : Fin 4) = l := Fin.ext (by show q.val / 768 % 4 = l.val; omega)
  have h2 : (⟨q.val % 768, Nat.mod_lt _ (by decide)⟩ : Fin 768) = e := Fin.ext (by show q.val % 768 = e.val; omega)
  unfold Spec.hrow
  rw [if_neg (by omega), h1, h2]

private def Gf (x0 x1 : Vec Ideal S128x3072 .f32) (x2 x3 : Vec Ideal S4x768x768 .bf16) (x4 x5 x6 x7 : Vec Ideal S4x768 .f32)
    (x8 x9 : Vec Ideal S4x768x768 .bf16) (x10 x11 x12 x13 : Vec Ideal S4x768 .f32) (p : Fin 128) (q : Fin 6144) : EReal :=
  Spec.hrow (brK x0 x2 x3 x4 x5 x6 x7 p) (brK x1 x8 x9 x10 x11 x12 x13 p) q

private def G (x0 x1 : Vec Ideal S128x3072 .f32) (x2 x3 : Vec Ideal S4x768x768 .bf16) (x4 x5 x6 x7 : Vec Ideal S4x768 .f32)
    (x8 x9 : Vec Ideal S4x768x768 .bf16) (x10 x11 x12 x13 : Vec Ideal S4x768 .f32) : Vec Ideal S128x6144 .f32 :=
  fun y => Gf x0 x1 x2 x3 x4 x5 x6 x7 x8 x9 x10 x11 x12 x13 ⟨(y 0).val, (y 0).isLt⟩ ⟨(y 1).val, (y 1).isLt⟩

private theorem piece_fst (x0 x1 : Vec Ideal S128x3072 .f32) (x2 x3 : Vec Ideal S4x768x768 .bf16) (x4 x5 x6 x7 : Vec Ideal S4x768 .f32)
    (x8 x9 : Vec Ideal S4x768x768 .bf16) (x10 x11 x12 x13 : Vec Ideal S4x768 .f32) (l : Fin 4) (o : Nat) (ho : o = l.val * 768)
    (inb : ∀ a, (![0, o] : Fin 2 → Nat) a + S128x768.size a ≤ S128x6144.size a)
    (Bl : FVec Ideal S128x768 .f32) (hB : ∀ p e, Bl (ix2 p e) = (brK x0 x2 x3 x4 x5 x6 x7 p).casc l e)
    (x : (Rect.unit (s := S128x6144) ![0, o] S128x768.size inb).shape.Idx) :
    Bl x = G x0 x1 x2 x3 x4 x5 x6 x7 x8 x9 x10 x11 x12 x13 ((Rect.unit (s := S128x6144) ![0, o] S128x768.size inb).emb x) := by
  obtain ⟨p, e, rfl⟩ : ∃ (p : Fin 128) (e : Fin 768), x = ix2 p e := ⟨x 0, x 1, eq_ix2 x⟩
  refine (hB p e).trans (Eq.symm ?_)
  show Gf x0 x1 x2 x3 x4 x5 x6 x7 x8 x9 x10 x11 x12 x13 ⟨0 + 1 * p.val, _⟩ ⟨o + 1 * e.val, _⟩ = _
  have hp : (⟨0 + 1 * p.val, by have := p.isLt; omega⟩ : Fin 128) = p := Fin.ext (by show 0 + 1 * p.val = p.val; omega)
  rw [hp]
  exact hrow_fst _ _ l e _ (by show o + 1 * e.val = l.val * 768 + e.val; omega)

private theorem piece_snd (x0 x1 : Vec Ideal S128x3072 .f32) (x2 x3 : Vec Ideal S4x768x768 .bf16) (x4 x5 x6 x7 : Vec Ideal S4x768 .f32)
    (x8 x9 : Vec Ideal S4x768x768 .bf16) (x10 x11 x12 x13 : Vec Ideal S4x768 .f32) (l : Fin 4) (o : Nat) (ho : o = 3072 + l.val * 768)
    (inb : ∀ a, (![0, o] : Fin 2 → Nat) a + S128x768.size a ≤ S128x6144.size a)
    (Bl : FVec Ideal S128x768 .f32) (hB : ∀ p e, Bl (ix2 p e) = (brK x1 x8 x9 x10 x11 x12 x13 p).casc l e)
    (x : (Rect.unit (s := S128x6144) ![0, o] S128x768.size inb).shape.Idx) :
    Bl x = G x0 x1 x2 x3 x4 x5 x6 x7 x8 x9 x10 x11 x12 x13 ((Rect.unit (s := S128x6144) ![0, o] S128x768.size inb).emb x) := by
  obtain ⟨p, e, rfl⟩ : ∃ (p : Fin 128) (e : Fin 768), x = ix2 p e := ⟨x 0, x 1, eq_ix2 x⟩
  refine (hB p e).trans (Eq.symm ?_)
  show Gf x0 x1 x2 x3 x4 x5 x6 x7 x8 x9 x10 x11 x12 x13 ⟨0 + 1 * p.val, _⟩ ⟨o + 1 * e.val, _⟩ = _
  have hp : (⟨0 + 1 * p.val, by have := p.isLt; omega⟩ : Fin 128) = p := Fin.ext (by show 0 + 1 * p.val = p.val; omega)
  rw [hp]
  exact hrow_snd _ _ l e _ (by show o + 1 * e.val = 3072 + l.val * 768 + e.val; omega)

private theorem out_eq (x0 x1 : Vec Ideal S128x3072 .f32) (x2 x3 : Vec Ideal S4x768x768 .bf16) (x4 x5 x6 x7 : Vec Ideal S4x768 .f32)
    (x8 x9 : Vec Ideal S4x768x768 .bf16) (x10 x11 x12 x13 : Vec Ideal S4x768 .f32) :
    out0_14 (F := Ideal) x0 x1 x2 x3 x4 x5 x6 x7 x8 x9 x10 x11 x12 x13
      = View.canon [⟨r0_19, B3 x1 x8 x9 x10 x11 x12 x13⟩, ⟨r0_18, B2 x1 x8 x9 x10 x11 x12 x13⟩, ⟨r0_17, B1 x1 x8 x9 x10 x11 x12 x13⟩,
          ⟨r0_16, B0 x1 x8 x9 x10 x11⟩, ⟨r0_15, B3 x0 x2 x3 x4 x5 x6 x7⟩, ⟨r0_11, B2 x0 x2 x3 x4 x5 x6 x7⟩,
          ⟨r0_7, B1 x0 x2 x3 x4 x5 x6 x7⟩, ⟨r0_3, B0 x0 x2 x3 x4 x5⟩] := rfl

/-- The cascade kernel's output block at (p, q) is column q of the row h of the two branches at local row p: eight stored pieces tile the block. -/
theorem out0_14_row (x0 x1 : Vec Ideal S128x3072 .f32) (x2 x3 : Vec Ideal S4x768x768 .bf16) (x4 x5 x6 x7 : Vec Ideal S4x768 .f32)
    (x8 x9 : Vec Ideal S4x768x768 .bf16) (x10 x11 x12 x13 : Vec Ideal S4x768 .f32) (p : Fin 128) (q : Fin 6144) :
    out0_14 (F := Ideal) x0 x1 x2 x3 x4 x5 x6 x7 x8 x9 x10 x11 x12 x13 (ix2 p q)
      = Spec.hrow (brK x0 x2 x3 x4 x5 x6 x7 p) (brK x1 x8 x9 x10 x11 x12 x13 p) q := by
  rw [out_eq]
  refine View.canon_apply_of_pieces (Val := Elt Ideal) (S := S128x6144) (e := .f32) (G x0 x1 x2 x3 x4 x5 x6 x7 x8 x9 x10 x11 x12 x13) _ ?_ (ix2 p q)
    (cover0_14 _ _ _ _ _ _ _ _ (ix2 p q))
  intro pc hpc
  rcases List.mem_cons.mp hpc with rfl | hpc
  · exact piece_snd x0 x1 x2 x3 x4 x5 x6 x7 x8 x9 x10 x11 x12 x13 3 5376 rfl inb_S128x6144_S128x768_0_5376 _ (B3_apply x1 x8 x9 x10 x11 x12 x13)
  rcases List.mem_cons.mp hpc with rfl | hpc
  · exact piece_snd x0 x1 x2 x3 x4 x5 x6 x7 x8 x9 x10 x11 x12 x13 2 4608 rfl inb_S128x6144_S128x768_0_4608 _ (B2_apply x1 x8 x9 x10 x11 x12 x13)
  rcases List.mem_cons.mp hpc with rfl | hpc
  · exact piece_snd x0 x1 x2 x3 x4 x5 x6 x7 x8 x9 x10 x11 x12 x13 1 3840 rfl inb_S128x6144_S128x768_0_3840 _ (B1_apply x1 x8 x9 x10 x11 x12 x13)
  rcases List.mem_cons.mp hpc with rfl | hpc
  · exact piece_snd x0 x1 x2 x3 x4 x5 x6 x7 x8 x9 x10 x11 x12 x13 0 3072 rfl inb_S128x6144_S128x768_0_3072 _ (B0_apply x1 x8 x9 x10 x11 x12 x13)
  rcases List.mem_cons.mp hpc with rfl | hpc
  · exact piece_fst x0 x1 x2 x3 x4 x5 x6 x7 x8 x9 x10 x11 x12 x13 3 2304 rfl inb_S128x6144_S128x768_0_2304 _ (B3_apply x0 x2 x3 x4 x5 x6 x7)
  rcases List.mem_cons.mp hpc with rfl | hpc
  · exact piece_fst x0 x1 x2 x3 x4 x5 x6 x7 x8 x9 x10 x11 x12 x13 2 1536 rfl inb_S128x6144_S128x768_0_1536 _ (B2_apply x0 x2 x3 x4 x5 x6 x7)
  rcases List.mem_cons.mp hpc with rfl | hpc
  · exact piece_fst x0 x1 x2 x3 x4 x5 x6 x7 x8 x9 x10 x11 x12 x13 1 768 rfl inb_S128x6144_S128x768_0_768 _ (B1_apply x0 x2 x3 x4 x5 x6 x7)
  rcases List.mem_cons.mp hpc with rfl | hpc
  · exact piece_fst x0 x1 x2 x3 x4 x5 x6 x7 x8 x9 x10 x11 x12 x13 0 0 rfl inb_S128x6144_S128x768_0_0 _ (B0_apply x0 x2 x3 x4 x5 x6 x7)
  exact absurd hpc List.not_mem_nil

end Cert.KernelIdeal.Body

end
-- ==== Proof.KBody1.lean ====
import proofs.«172500_j1709396984333_1_alg».proof.Proof.Gen.KernelIdeal.Frame
import proofs.«172500_j1709396984333_1_alg».proof.Proof.Spec
import proofs.«172500_j1709396984333_1_alg».proof.Proof.Idx
import Idealize.ShloMosaic.Lib.Pipeline.Value
import Idealize.ShloMosaic.Lib.ValueIdx
import Idealize.ShloMosaic.Lib.ValueLayout

set_option maxRecDepth 16384

noncomputable section

namespace Cert.KernelIdeal.Body

open Cert.KernelIdeal Cert.KernelIdeal.Gen Idealize.ShloMosaic Idealize.ShloMosaic.TcCoe Idealize.ShloMosaic.ValueIdx Cert.Spec

/-- The perceptron's parameters as the kernel holds them, the weight matrices transposed. -/
def headK (w1T : Vec Ideal S6144x512 .bf16) (b1 g1 be1 : Vec Ideal S512 .f32) (w2T : Vec Ideal S512x128 .bf16) (b2 g2 be2 : Vec Ideal S128 .f32)
    (w3T : Vec Ideal S128x1 .bf16) (b3 : Vec Ideal S1 .f32) : Spec.Head where
  w1 n k := w1T (ix2 k n)
  b1 n := b1 (ix1 n)
  g1 n := g1 (ix1 n)
  be1 n := be1 (ix1 n)
  w2 n k := w2T (ix2 k n)
  b2 n := b2 (ix1 n)
  g2 n := g2 (ix1 n)
  be2 n := be2 (ix1 n)
  w3 k := w3T (ix2 k 0)
  b3 := b3 (ix1 0)

private theorem mm1 {φ₁ φ₂ : FTy} (lhs : FVec Ideal S512x6144 φ₁) (rhs : FVec Ideal S6144x512 φ₂) (p : Fin 512) (c : Fin 512) :
    FloatOps.matmul dot_S512x6144_S6144x512_S512x512_1_0_0_1_n_n none lhs rhs (constant S512x512 .f32 0x00000000#32) (ix2 p c) = ∑ k : Fin 6144, lhs (ix2 p k) * rhs (ix2 k c) :=
  Idx.mm_apply dot_S512x6144_S6144x512_S512x512_1_0_0_1_n_n rfl lhs rhs p c

private theorem mm2 {φ₁ φ₂ : FTy} (lhs : FVec Ideal S512x512 φ₁) (rhs : FVec Ideal S512x128 φ₂) (p : Fin 512) (c : Fin 128) :
    FloatOps.matmul dot_S512x512_S512x128_S512x128_1_0_0_1_n_n none lhs rhs (constant S512x128 .f32 0x00000000#32) (ix2 p c) = ∑ k : Fin 512, lhs (ix2 p k) * rhs (ix2 k c) :=
  Idx.mm_apply dot_S512x512_S512x128_S512x128_1_0_0_1_n_n rfl lhs rhs p c

private theorem mm3 {φ₁ φ₂ : FTy} (lhs : FVec Ideal S512x128 φ₁) (rhs : FVec Ideal S128x1 φ₂) (p : Fin 512) (c : Fin 1) :
    FloatOps.matmul dot_S512x128_S128x1_S512x1_1_0_0_1_n_n none lhs rhs (constant S512x1 .f32 0x00000000#32) (ix2 p c) = ∑ k : Fin 128, lhs (ix2 p k) * rhs (ix2 k c) :=
  Idx.mm_apply dot_S512x128_S128x1_S512x1_1_0_0_1_n_n rfl lhs rhs p c

private theorem row_apply {α : Type} {m n : Nat} (b : (⟨1, ![n]⟩ : Shape).Idx → α)
    (h1 : (⟨1, ![n]⟩ : Shape).ShapeCasts ⟨2, ![1, n]⟩) (h2 : (⟨2, ![1, n]⟩ : Shape).Broadcasts ⟨2, ![m, n]⟩) (p : Fin m) (c : Fin n) :
    broadcastTo ⟨2, ![m, n]⟩ (shapeCast ⟨2, ![1, n]⟩ b h1) h2 (ix2 p c) = b (ix1 c) :=
  (broadcastTo_1b_ab_apply _ h2 p c).trans (shapeCast_a_1a_apply b h1 0 c)

private theorem hz2 : (![0, 0] : Fin 2 → Nat) = fun _ => 0 := funext fun a => by fin_cases a <;> rfl

private theorem hz1 : (![0] : Fin 1 → Nat) = fun _ => 0 := funext fun a => by fin_cases a; rfl

/-- The perceptron kernel's output block at local row p is Spec's head of that row of h. -/
theorem out1_11_row (x0 : Vec Ideal S512x6144 .f32) (x1 : Vec Ideal S6144x512 .bf16) (x2 x3 x4 : Vec Ideal S512 .f32) (x5 : Vec Ideal S512x128 .bf16)
    (x6 x7 x8 : Vec Ideal S128 .f32) (x9 : Vec Ideal S128x1 .bf16) (x10 : Vec Ideal S1 .f32) (p : Fin 512) :
    out1_11 (F := Ideal) x0 x1 x2 x3 x4 x5 x6 x7 x8 x9 x10 (ix2 p 0)
      = (headK x1 x2 x3 x4 x5 x6 x7 x8 x9 x10).out (fun k => x0 (ix2 p k)) := by
  unfold out1_11
  rw [View.canon_unit_zero hz2]
  rw [View.ld_unit_zero hz2 _ x0, View.ld_unit_zero hz2 _ x1, View.ld_unit_zero hz1 _ x2, View.ld_unit_zero hz1 _ x3,
    View.ld_unit_zero hz1 _ x4, View.ld_unit_zero hz2 _ x5, View.ld_unit_zero hz1 _ x6, View.ld_unit_zero hz1 _ x7,
    View.ld_unit_zero hz1 _ x8, View.ld_unit_zero hz2 _ x9, View.ld_unit_zero hz1 _ x10]
  unfold k1_pay1 k1_pay2 k1_pay3
  simp only [addf_apply, mulf_apply, maximumf_apply, truncf_apply, broadcast_apply, shapeCast_self, row_apply, matmul, mm1, mm2, mm3,
    Ideal.ofBits_def, Ideal.ofBits_zero_f32]
  rfl

end Cert.KernelIdeal.Body

end
-- ==== Proof.KValue.lean ====
import proofs.«172500_j1709396984333_1_alg».proof.Proof.KReg
import proofs.«172500_j1709396984333_1_alg».proof.Proof.KHost
import proofs.«172500_j1709396984333_1_alg».proof.Proof.KBody0
import proofs.«172500_j1709396984333_1_alg».proof.Proof.KBody1

set_option maxRecDepth 16384

noncomputable section

namespace Cert.KernelIdeal.Val

open Cert.KernelIdeal Cert.KernelIdeal.Gen Idealize.ShloMosaic Idealize.ShloMosaic.TcCoe Idealize.ShloMosaic.ValueIdx Cert.Spec
open Idealize.SL.Sem

theorem branch_ext {B B' : Spec.Branch} (h1 : ∀ l j, B.xs l j = B'.xs l j) (h2 : ∀ l k j, B.wv l k j = B'.wv l k j)
    (h3 : ∀ l k, B.bv l k = B'.bv l k) (h4 : ∀ l e k, B.wo l e k = B'.wo l e k) (h5 : ∀ l e, B.bo l e = B'.bo l e)
    (h6 : ∀ l e, B.g l e = B'.g l e) (h7 : ∀ l e, B.b l e = B'.b l e) : B = B' := by
  cases B; cases B'
  simp only [Spec.Branch.mk.injEq]
  exact ⟨funext fun l => funext fun j => h1 l j, funext fun l => funext fun k => funext fun j => h2 l k j,
    funext fun l => funext fun k => h3 l k, funext fun l => funext fun e => funext fun k => h4 l e k,
    funext fun l => funext fun e => h5 l e, funext fun l => funext fun e => h6 l e, funext fun l => funext fun e => h7 l e⟩

theorem head_ext {M M' : Spec.Head} (h1 : ∀ n k, M.w1 n k = M'.w1 n k) (h2 : ∀ n, M.b1 n = M'.b1 n) (h3 : ∀ n, M.g1 n = M'.g1 n)
    (h4 : ∀ n, M.be1 n = M'.be1 n) (h5 : ∀ n k, M.w2 n k = M'.w2 n k) (h6 : ∀ n, M.b2 n = M'.b2 n) (h7 : ∀ n, M.g2 n = M'.g2 n)
    (h8 : ∀ n, M.be2 n = M'.be2 n) (h9 : ∀ k, M.w3 k = M'.w3 k) (h10 : M.b3 = M'.b3) : M = M' := by
  cases M; cases M'
  simp only [Spec.Head.mk.injEq]
  exact ⟨funext fun n => funext fun k => h1 n k, funext h2, funext h3, funext h4, funext fun n => funext fun k => h5 n k,
    funext h6, funext h7, funext h8, funext h9, h10⟩

variable (m : (ℓ : Loc nD τ sig) → Buf (Elt Ideal) ℓ) (ρ : Dev nD → PrngReg)

/-- The first branch as the cascade kernel holds it at a point's local row is Spec's branch at that row of the batch: the host's slices and transposes read at an index. -/
theorem branch_p (c : Dev nD) (t : Fin cfg0.N) (p : Fin 128) :
    Body.brK (iblk0 (V1 m ρ) c 0 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) p
      = Spec.branchOf (m ((c : Thread nD τ).loc main_arg0)) 0 (Reg.row0 t p) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  branch_ext
    (fun l j => ((Reg.iblk0_0_row (V1 m ρ) c t p _).trans (Host.V1_v0 m ρ c _ _)).trans
      (congrArg (fun q => m ((c : Thread nD τ).loc main_arg0) (ix2 (Reg.row0 t p) q)) (Fin.ext (by simp [Spec.col]))))
    (fun l k j => (congrFun (Reg.iblk0_2 (V1 m ρ) c t) _).trans (Host.V1_v5 m ρ c l j k))
    (fun l k => (congrFun (Reg.iblk0_4 (V1 m ρ) c t) _).trans (Host.V1_v3 m ρ c l k))
    (fun l e k => (congrFun (Reg.iblk0_3 (V1 m ρ) c t) _).trans (Host.V1_v7 m ρ c l k e))
    (fun l e => (congrFun (Reg.iblk0_5 (V1 m ρ) c t) _).trans (congrFun (Host.V1_arg m ρ c main_arg4 (by decide)) _))
    (fun l e => (congrFun (Reg.iblk0_6 (V1 m ρ) c t) _).trans (congrFun (Host.V1_arg m ρ c main_arg5 (by decide)) _))
    (fun l e => (congrFun (Reg.iblk0_7 (V1 m ρ) c t) _).trans (congrFun (Host.V1_arg m ρ c main_arg6 (by decide)) _))

theorem branch_j (c : Dev nD) (t : Fin cfg0.N) (p : Fin 128) :
    Body.brK (iblk0 (V1 m ρ) c 1 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) p
      = Spec.branchOf (m ((c : Thread nD τ).loc main_arg0)) 1 (Reg.row0 t p) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  branch_ext
    (fun l j => ((Reg.iblk0_1_row (V1 m ρ) c t p _).trans (Host.V1_v1 m ρ c _ _)).trans
      (congrArg (fun q => m ((c : Thread nD τ).loc main_arg0) (ix2 (Reg.row0 t p) q)) (Fin.ext (by simp [Spec.col]; omega))))
    (fun l k j => (congrFun (Reg.iblk0_8 (V1 m ρ) c t) _).trans (Host.V1_v11 m ρ c l j k))
    (fun l k => (congrFun (Reg.iblk0_10 (V1 m ρ) c t) _).trans (Host.V1_v9 m ρ c l k))
    (fun l e k => (congrFun (Reg.iblk0_9 (V1 m ρ) c t) _).trans (Host.V1_v13 m ρ c l k e))
    (fun l e => (congrFun (Reg.iblk0_11 (V1 m ρ) c t) _).trans (congrFun (Host.V1_arg m ρ c main_arg10 (by decide)) _))
    (fun l e => (congrFun (Reg.iblk0_12 (V1 m ρ) c t) _).trans (congrFun (Host.V1_arg m ρ c main_arg11 (by decide)) _))
    (fun l e => (congrFun (Reg.iblk0_13 (V1 m ρ) c t) _).trans (congrFun (Host.V1_arg m ρ c main_arg12 (by decide)) _))

set_option maxHeartbeats 1600000 in

theorem head_k (c : Dev nD) (t : Fin cfg1.N) :
    Body.headK (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t) (iblk1 (V3 m ρ) c 8 t) (iblk1 (V3 m ρ) c 9 t) (iblk1 (V3 m ρ) c 10 t)
      = Spec.headOf (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) :=
  by
  refine head_ext ?_ ?_ ?_ ?_ ?_ ?_ ?_ ?_ ?_ ?_
  · intro n k; exact (congrFun (Reg.iblk1_1 (V3 m ρ) c t) (ix2 k n)).trans (Host.V3_v16 m ρ c k n)
  · intro n; exact (congrFun (Reg.iblk1_2 (V3 m ρ) c t) (ix1 n)).trans (congrFun (Host.V3_arg m ρ c main_arg14 (by decide)) (ix1 n))
  · intro n; exact (congrFun (Reg.iblk1_3 (V3 m ρ) c t) (ix1 n)).trans (congrFun (Host.V3_arg m ρ c main_arg15 (by decide)) (ix1 n))
  · intro n; exact (congrFun (Reg.iblk1_4 (V3 m ρ) c t) (ix1 n)).trans (congrFun (Host.V3_arg m ρ c main_arg16 (by decide)) (ix1 n))
  · intro n k; exact (congrFun (Reg.iblk1_5 (V3 m ρ) c t) (ix2 k n)).trans (Host.V3_v18 m ρ c k n)
  · intro n; exact (congrFun (Reg.iblk1_6 (V3 m ρ) c t) (ix1 n)).trans (congrFun (Host.V3_arg m ρ c main_arg18 (by decide)) (ix1 n))
  · intro n; exact (congrFun (Reg.iblk1_7 (V3 m ρ) c t) (ix1 n)).trans (congrFun (Host.V3_arg m ρ c main_arg19 (by decide)) (ix1 n))
  · intro n; exact (congrFun (Reg.iblk1_8 (V3 m ρ) c t) (ix1 n)).trans (congrFun (Host.V3_arg m ρ c main_arg20 (by decide)) (ix1 n))
  · intro k; exact (congrFun (Reg.iblk1_9 (V3 m ρ) c t) (ix2 k 0)).trans (Host.V3_v20 m ρ c k)
  · exact (congrFun (Reg.iblk1_10 (V3 m ρ) c t) (ix1 0)).trans (congrFun (Host.V3_arg m ρ c main_arg22 (by decide)) (ix1 0))

/-- Row r of h, as the perceptron kernel finds it, is Spec.hrow of the two branches at row r. -/
theorem h_row (c : Dev nD) (r : Fin 4096) (k : Fin 6144) :
    V3 m ρ c main_v14 (ix2 r k)
      = Spec.hrow (Spec.branchOf (m ((c : Thread nD τ).loc main_arg0)) 0 r (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (Spec.branchOf (m ((c : Thread nD τ).loc main_arg0)) 1 r (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) k := by
  obtain ⟨t, p, rfl⟩ := Reg.exists_row0 r
  refine (congrFun (Host.V3_v14 m ρ c) _).trans ?_
  refine (Reg.arr0_row (V1 m ρ) c t p k).trans ?_
  refine (Body.out0_14_row _ _ _ _ _ _ _ _ _ _ _ _ _ _ p k).trans ?_
  rw [branch_p m ρ c t p, branch_j m ρ c t p]

/-- Spec.result of the arguments as launched on core c. -/
def out (c : Dev nD) : A4096x1.Idx → EReal := Spec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))

/-- The result buffer after the run is Spec.result of the arguments: the perceptron kernel's write-backs, read row by row. -/
theorem result_eq (c : Dev nD) : W4 m ρ c (Proc.devRef .tc main_v21) = out m c := by
  funext i
  obtain ⟨r, rfl⟩ : ∃ r : Fin 4096, i = ix2 r 0 :=
    ⟨i 0, (eq_ix2 i).trans (congrArg (ix2 (i 0)) (Fin.ext (Nat.lt_one_iff.mp (i 1).isLt)))⟩
  obtain ⟨t, p, rfl⟩ := Reg.exists_row1 r
  refine (congrFun (W4_arr m ρ c 11) _).trans ?_
  refine (Reg.arr1_row (V3 m ρ) c t p).trans ?_
  refine (Body.out1_11_row _ _ _ _ _ _ _ _ _ _ _ p).trans ?_
  rw [head_k m ρ c t]
  show (Spec.headOf _ _ _ _ _ _ _ _ _ _).out _ = (Spec.headOf _ _ _ _ _ _ _ _ _ _).out _
  congr 1
  funext k
  exact (Reg.iblk1_0_row (V3 m ρ) c t p k).trans (h_row m ρ c (Reg.row1 t p) k)

end Cert.KernelIdeal.Val

end
-- ==== Proof.RDefs.lean ====
import proofs.«172500_j1709396984333_1_alg».proof.ReferenceIdeal
import proofs.«172500_j1709396984333_1_alg».proof.Proof.Gen.ReferenceIdeal

noncomputable section

namespace Cert.ReferenceIdeal.Chain

open Cert.ReferenceIdeal Cert.ReferenceIdeal.Gen Idealize.ShloMosaic Idealize.ShloMosaic.TcCoe

variable {F : FTy → Type} [FloatOps F]

/-- x · Wᵀ + b over the batch. -/
def proj (x : Vec F S4096x768 .f32) (W : Vec F S768x768 .f32) (b : Vec F S768 .f32) : Vec F S4096x768 .f32 :=
  addf (Host.dotGeneral dot_S4096x768_S768x768_S4096x768_1_0_0_1_n_n none x (transpose S768x768 [1, 0] W transposes_S768x768_S768x768_1_0))
    (broadcastInDim S4096x768 ![0, 1] bcast_S1x768_S4096x768_0_1 (broadcastInDim S1x768 ![1] bcast_S768_S1x768_1 b))

def heads (x : Vec F S4096x768 .f32) : Vec F S4096x4x192 .f32 := shapeCast _ x shapeCasts_S4096x768_S4096x4x192

/-- One score per row and head: the heads' inner product over 192 coordinates, over √192. -/
def score (qh kh : Vec F S4096x4x192 .f32) : Vec F S4096x4x1 .f32 :=
  Host.divf (broadcastInDim S4096x4x1 ![0, 1] bcast_S4096x4_S4096x4x1_0_1
      (Host.reduceAdd (mulf qh kh) (constant S_ .f32 0x00000000#32) reducesTo_S4096x4x192_S4096x4_d2 h_S_))
    (broadcastInDim S4096x4x1 ![] bcast_S_S4096x4x1 (Host.sqrt (constant S_ .f32 0x43400000#32)))

def sexp (s : Vec F S4096x4x1 .f32) : Vec F S4096x4x1 .f32 :=
  Host.exp (subf s (broadcastInDim S4096x4x1 ![0, 1] bcast_S4096x4_S4096x4x1_0_1
    (maximumf (broadcastInDim S4096x4 ![] bcast_S_S4096x4 (constant S_ .f32 0xFF800000#32))
      (Host.reduce FloatOps.maximumf s (constant S_ .f32 0xFF800000#32) reducesTo_S4096x4x1_S4096x4_d2 h_S_))))

/-- The softmax over the axis of length one. -/
def softmax1 (s : Vec F S4096x4x1 .f32) : Vec F S4096x4x1 .f32 :=
  Host.divf (sexp s) (broadcastInDim S4096x4x1 ![0, 1] bcast_S4096x4_S4096x4x1_0_1
    (Host.reduceAdd (sexp s) (constant S_ .f32 0x00000000#32) reducesTo_S4096x4x1_S4096x4_d2 h_S_))

/-- One attention layer as a function of its six operands: the printed operations in the printed order. -/
def mha (q kv : Vec F S4096x768 .f32) (Win : Vec F S2304x768 .f32) (bin : Vec F S2304 .f32) (Wo : Vec F S768x768 .f32) (bo : Vec F S768 .f32) :
    Vec F S4096x768 .f32 :=
  proj (shapeCast _ (mulf (broadcastInDim S4096x4x192 ![0, 1, 2] bcast_S4096x4x1_S4096x4x192_0_1_2
        (softmax1 (score
          (heads (proj q (extractStridedSlice S768x768 ![0, 0] Win slices_S2304x768_S768x768_0_0) (extractStridedSlice S768 ![0] bin slices_S2304_S768_0)))
          (heads (proj kv (extractStridedSlice S768x768 ![768, 0] Win slices_S2304x768_S768x768_768_0) (extractStridedSlice S768 ![768] bin slices_S2304_S768_768))))))
      (heads (proj kv (extractStridedSlice S768x768 ![1536, 0] Win slices_S2304x768_S768x768_1536_0) (extractStridedSlice S768 ![1536] bin slices_S2304_S768_1536))))
    shapeCasts_S4096x4x192_S4096x768) Wo bo

/-- (o + prev) · (g · β) + b, the layer's scales and shifts laid over the batch. -/
def resBn (o prev : Vec F S4096x768 .f32) (gl bl : Vec F S768 .f32) : Vec F S4096x768 .f32 :=
  addf (mulf (addf o prev) (broadcastInDim S4096x768 ![0, 1] bcast_S1x768_S4096x768_0_1 (broadcastInDim S1x768 ![1] bcast_S768_S1x768_1 (mulf gl (broadcastInDim S768 ![] bcast_S_S768 (constant S_ .f32 0x3F7FFFAC#32))))))
    (broadcastInDim S4096x768 ![0, 1] bcast_S1x768_S4096x768_0_1 (broadcastInDim S1x768 ![1] bcast_S768_S1x768_1 bl))

def hcat (p0 p1 p2 p3 j0 j1 j2 j3 : Vec F S4096x768 .f32) : Vec F S4096x6144 .f32 :=
  concatenate S4096x6144 1
    [⟨S4096x3072, concatenate S4096x3072 1 [⟨S4096x768, p0⟩, ⟨S4096x768, p1⟩, ⟨S4096x768, p2⟩, ⟨S4096x768, p3⟩] concatenates_S4096x768_S4096x768_S4096x768_S4096x768_S4096x3072_d1⟩,
     ⟨S4096x3072, concatenate S4096x3072 1 [⟨S4096x768, j0⟩, ⟨S4096x768, j1⟩, ⟨S4096x768, j2⟩, ⟨S4096x768, j3⟩] concatenates_S4096x768_S4096x768_S4096x768_S4096x768_S4096x3072_d1⟩]
    concatenates_S4096x3072_S4096x3072_S4096x6144_d1

def reluBn512 (y : Vec F S4096x512 .f32) (g be : Vec F S512 .f32) : Vec F S4096x512 .f32 :=
  addf (mulf (maximumf y (broadcastInDim S4096x512 ![] bcast_S_S4096x512 (constant S_ .f32 0x00000000#32)))
      (broadcastInDim S4096x512 ![0, 1] bcast_S1x512_S4096x512_0_1 (broadcastInDim S1x512 ![1] bcast_S512_S1x512_1 (mulf g (broadcastInDim S512 ![] bcast_S_S512 (constant S_ .f32 0x3F7FFFAC#32))))))
    (broadcastInDim S4096x512 ![0, 1] bcast_S1x512_S4096x512_0_1 (broadcastInDim S1x512 ![1] bcast_S512_S1x512_1 be))

def reluBn128 (y : Vec F S4096x128 .f32) (g be : Vec F S128 .f32) : Vec F S4096x128 .f32 :=
  addf (mulf (maximumf y (broadcastInDim S4096x128 ![] bcast_S_S4096x128 (constant S_ .f32 0x00000000#32)))
      (broadcastInDim S4096x128 ![0, 1] bcast_S1x128_S4096x128_0_1 (broadcastInDim S1x128 ![1] bcast_S128_S1x128_1 (mulf g (broadcastInDim S128 ![] bcast_S_S128 (constant S_ .f32 0x3F7FFFAC#32))))))
    (broadcastInDim S4096x128 ![0, 1] bcast_S1x128_S4096x128_0_1 (broadcastInDim S1x128 ![1] bcast_S128_S1x128_1 be))

/-- The three-layer perceptron with ReLU and the normalisation after the first two layers. -/
def mlp (h : Vec F S4096x6144 .f32) (W1 : Vec F S512x6144 .f32) (b1 g1 be1 : Vec F S512 .f32) (W2 : Vec F S128x512 .f32) (b2 g2 be2 : Vec F S128 .f32)
    (W3 : Vec F S1x128 .f32) (b3 : Vec F S1 .f32) : Vec F S4096x1 .f32 :=
  addf (Host.dotGeneral dot_S4096x128_S128x1_S4096x1_1_0_0_1_n_n none
      (reluBn128 (addf (Host.dotGeneral dot_S4096x512_S512x128_S4096x128_1_0_0_1_n_n none
          (reluBn512 (addf (Host.dotGeneral dot_S4096x6144_S6144x512_S4096x512_1_0_0_1_n_n none h (transpose S6144x512 [1, 0] W1 transposes_S512x6144_S6144x512_1_0))
              (broadcastInDim S4096x512 ![0, 1] bcast_S1x512_S4096x512_0_1 (broadcastInDim S1x512 ![1] bcast_S512_S1x512_1 b1))) g1 be1)
          (transpose S512x128 [1, 0] W2 transposes_S128x512_S512x128_1_0))
        (broadcastInDim S4096x128 ![0, 1] bcast_S1x128_S4096x128_0_1 (broadcastInDim S1x128 ![1] bcast_S128_S1x128_1 b2))) g2 be2)
      (transpose S128x1 [1, 0] W3 transposes_S1x128_S128x1_1_0))
    (broadcastInDim S4096x1 ![0, 1] bcast_S1x1_S4096x1_0_1 (broadcastInDim S1x1 ![1] bcast_S1_S1x1_1 b3))

/-- Chunk k of the input's columns (768·k … 768·k + 767). -/
def xchunk (x : Vec F S4096x6144 .f32) : Fin 8 → Vec F S4096x768 .f32
  | ⟨0, _⟩ => extractStridedSlice S4096x768 ![0, 0] x slices_S4096x6144_S4096x768_0_0
  | ⟨1, _⟩ => extractStridedSlice S4096x768 ![0, 768] x slices_S4096x6144_S4096x768_0_768
  | ⟨2, _⟩ => extractStridedSlice S4096x768 ![0, 1536] x slices_S4096x6144_S4096x768_0_1536
  | ⟨3, _⟩ => extractStridedSlice S4096x768 ![0, 2304] x slices_S4096x6144_S4096x768_0_2304
  | ⟨4, _⟩ => extractStridedSlice S4096x768 ![0, 3072] x slices_S4096x6144_S4096x768_0_3072
  | ⟨5, _⟩ => extractStridedSlice S4096x768 ![0, 3840] x slices_S4096x6144_S4096x768_0_3840
  | ⟨6, _⟩ => extractStridedSlice S4096x768 ![0, 4608] x slices_S4096x6144_S4096x768_0_4608
  | ⟨7, _⟩ => extractStridedSlice S4096x768 ![0, 5376] x slices_S4096x6144_S4096x768_0_5376

def winL (W : Vec F S4x2304x768 .f32) : Fin 4 → Vec F S2304x768 .f32
  | ⟨0, _⟩ => shapeCast _ (extractStridedSlice S1x2304x768 ![0, 0, 0] W slices_S4x2304x768_S1x2304x768_0_0_0) shapeCasts_S1x2304x768_S2304x768
  | ⟨1, _⟩ => shapeCast _ (extractStridedSlice S1x2304x768 ![1, 0, 0] W slices_S4x2304x768_S1x2304x768_1_0_0) shapeCasts_S1x2304x768_S2304x768
  | ⟨2, _⟩ => shapeCast _ (extractStridedSlice S1x2304x768 ![2, 0, 0] W slices_S4x2304x768_S1x2304x768_2_0_0) shapeCasts_S1x2304x768_S2304x768
  | ⟨3, _⟩ => shapeCast _ (extractStridedSlice S1x2304x768 ![3, 0, 0] W slices_S4x2304x768_S1x2304x768_3_0_0) shapeCasts_S1x2304x768_S2304x768

def binL (b : Vec F S4x2304 .f32) : Fin 4 → Vec F S2304 .f32
  | ⟨0, _⟩ => shapeCast _ (extractStridedSlice S1x2304 ![0, 0] b slices_S4x2304_S1x2304_0_0) shapeCasts_S1x2304_S2304
  | ⟨1, _⟩ => shapeCast _ (extractStridedSlice S1x2304 ![1, 0] b slices_S4x2304_S1x2304_1_0) shapeCasts_S1x2304_S2304
  | ⟨2, _⟩ => shapeCast _ (extractStridedSlice S1x2304 ![2, 0] b slices_S4x2304_S1x2304_2_0) shapeCasts_S1x2304_S2304
  | ⟨3, _⟩ => shapeCast _ (extractStridedSlice S1x2304 ![3, 0] b slices_S4x2304_S1x2304_3_0) shapeCasts_S1x2304_S2304

def woL (W : Vec F S4x768x768 .f32) : Fin 4 → Vec F S768x768 .f32
  | ⟨0, _⟩ => shapeCast _ (extractStridedSlice S1x768x768 ![0, 0, 0] W slices_S4x768x768_S1x768x768_0_0_0) shapeCasts_S1x768x768_S768x768
  | ⟨1, _⟩ => shapeCast _ (extractStridedSlice S1x768x768 ![1, 0, 0] W slices_S4x768x768_S1x768x768_1_0_0) shapeCasts_S1x768x768_S768x768
  | ⟨2, _⟩ => shapeCast _ (extractStridedSlice S1x768x768 ![2, 0, 0] W slices_S4x768x768_S1x768x768_2_0_0) shapeCasts_S1x768x768_S768x768
  | ⟨3, _⟩ => shapeCast _ (extractStridedSlice S1x768x768 ![3, 0, 0] W slices_S4x768x768_S1x768x768_3_0_0) shapeCasts_S1x768x768_S768x768

def rowL (b : Vec F S4x768 .f32) : Fin 4 → Vec F S768 .f32
  | ⟨0, _⟩ => shapeCast _ (extractStridedSlice S1x768 ![0, 0] b slices_S4x768_S1x768_0_0) shapeCasts_S1x768_S768
  | ⟨1, _⟩ => shapeCast _ (extractStridedSlice S1x768 ![1, 0] b slices_S4x768_S1x768_1_0) shapeCasts_S1x768_S768
  | ⟨2, _⟩ => shapeCast _ (extractStridedSlice S1x768 ![2, 0] b slices_S4x768_S1x768_2_0) shapeCasts_S1x768_S768
  | ⟨3, _⟩ => shapeCast _ (extractStridedSlice S1x768 ![3, 0] b slices_S4x768_S1x768_3_0) shapeCasts_S1x768_S768

def attL (x : Vec F S4096x6144 .f32) (Win : Vec F S4x2304x768 .f32) (bin : Vec F S4x2304 .f32) (Wo : Vec F S4x768x768 .f32) (bo : Vec F S4x768 .f32)
    (ch : Fin 8) (l : Fin 4) (q : Vec F S4096x768 .f32) : Vec F S4096x768 .f32 :=
  mha q (xchunk x ch) (winL Win l) (binL bin l) (woL Wo l) (rowL bo l)

def c0 (x : Vec F S4096x6144 .f32) (Win : Vec F S4x2304x768 .f32) (bin : Vec F S4x2304 .f32) (Wo : Vec F S4x768x768 .f32) (bo g b : Vec F S4x768 .f32) (k0 k1 k2 k3 : Fin 8) : Vec F S4096x768 .f32 :=
  attL x Win bin Wo bo k0 0 (xchunk x k0)
def c1 (x : Vec F S4096x6144 .f32) (Win : Vec F S4x2304x768 .f32) (bin : Vec F S4x2304 .f32) (Wo : Vec F S4x768x768 .f32) (bo g b : Vec F S4x768 .f32) (k0 k1 k2 k3 : Fin 8) : Vec F S4096x768 .f32 :=
  resBn (attL x Win bin Wo bo k1 1 (c0 x Win bin Wo bo g b k0 k1 k2 k3)) (c0 x Win bin Wo bo g b k0 k1 k2 k3) (rowL g 1) (rowL b 1)
def c2 (x : Vec F S4096x6144 .f32) (Win : Vec F S4x2304x768 .f32) (bin : Vec F S4x2304 .f32) (Wo : Vec F S4x768x768 .f32) (bo g b : Vec F S4x768 .f32) (k0 k1 k2 k3 : Fin 8) : Vec F S4096x768 .f32 :=
  resBn (attL x Win bin Wo bo k2 2 (c1 x Win bin Wo bo g b k0 k1 k2 k3)) (c1 x Win bin Wo bo g b k0 k1 k2 k3) (rowL g 2) (rowL b 2)
def c3 (x : Vec F S4096x6144 .f32) (Win : Vec F S4x2304x768 .f32) (bin : Vec F S4x2304 .f32) (Wo : Vec F S4x768x768 .f32) (bo g b : Vec F S4x768 .f32) (k0 k1 k2 k3 : Fin 8) : Vec F S4096x768 .f32 :=
  resBn (attL x Win bin Wo bo k3 3 (c2 x Win bin Wo bo g b k0 k1 k2 k3)) (c2 x Win bin Wo bo g b k0 k1 k2 k3) (rowL g 3) (rowL b 3)

def hAll (x : Vec F S4096x6144 .f32)
    (pWin : Vec F S4x2304x768 .f32) (pbin : Vec F S4x2304 .f32) (pWo : Vec F S4x768x768 .f32) (pbo pg pb : Vec F S4x768 .f32)
    (jWin : Vec F S4x2304x768 .f32) (jbin : Vec F S4x2304 .f32) (jWo : Vec F S4x768x768 .f32) (jbo jg jb : Vec F S4x768 .f32) : Vec F S4096x6144 .f32 :=
  hcat (c0 x pWin pbin pWo pbo pg pb 0 1 2 3) (c1 x pWin pbin pWo pbo pg pb 0 1 2 3) (c2 x pWin pbin pWo pbo pg pb 0 1 2 3) (c3 x pWin pbin pWo pbo pg pb 0 1 2 3)
    (c0 x jWin jbin jWo jbo jg jb 4 5 6 7) (c1 x jWin jbin jWo jbo jg jb 4 5 6 7) (c2 x jWin jbin jWo jbo jg jb 4 5 6 7) (c3 x jWin jbin jWo jbo jg jb 4 5 6 7)

/-- The reference's result as a function of its 23 arguments: nothing evaluated, the operations grouped. -/
def refOut (x : Vec F S4096x6144 .f32)
    (pWin : Vec F S4x2304x768 .f32) (pbin : Vec F S4x2304 .f32) (pWo : Vec F S4x768x768 .f32) (pbo pg pb : Vec F S4x768 .f32)
    (jWin : Vec F S4x2304x768 .f32) (jbin : Vec F S4x2304 .f32) (jWo : Vec F S4x768x768 .f32) (jbo jg jb : Vec F S4x768 .f32)
    (W1 : Vec F S512x6144 .f32) (b1 g1 be1 : Vec F S512 .f32) (W2 : Vec F S128x512 .f32) (b2 g2 be2 : Vec F S128 .f32) (W3 : Vec F S1x128 .f32) (b3 : Vec F S1 .f32) : Vec F S4096x1 .f32 :=
  mlp (hAll x pWin pbin pWo pbo pg pb jWin jbin jWo jbo jg jb) W1 b1 g1 be1 W2 b2 g2 be2 W3 b3

end Cert.ReferenceIdeal.Chain

end
-- ==== Proof.ROps.lean ====
import proofs.«172500_j1709396984333_1_alg».proof.Proof.Gen.ReferenceIdeal
import Idealize.ShloMosaic.Lib.StableHlo.Run

noncomputable section

namespace Cert.ReferenceIdeal.RunH

open Cert.ReferenceIdeal Cert.ReferenceIdeal.Gen Idealize.ShloMosaic Idealize.ShloMosaic.TcCoe Idealize.ShloMosaic.StableHlo

variable {F : FTy → Type} [FloatOps F]

def win0 : List (HloOp τ sig (Elt F)) :=
  [ unary main_arg0 main_v0 (extractStridedSlice S4096x768 ![0, 0] · slices_S4096x6144_S4096x768_0_0),
    unary main_arg0 main_v1 (extractStridedSlice S4096x768 ![0, 768] · slices_S4096x6144_S4096x768_0_768),
    unary main_arg0 main_v2 (extractStridedSlice S4096x768 ![0, 1536] · slices_S4096x6144_S4096x768_0_1536),
    unary main_arg0 main_v3 (extractStridedSlice S4096x768 ![0, 2304] · slices_S4096x6144_S4096x768_0_2304),
    unary main_arg1 main_v4 (extractStridedSlice S1x2304x768 ![0, 0, 0] · slices_S4x2304x768_S1x2304x768_0_0_0),
    reshape main_v4 main_v5 rfl shapeCasts_S1x2304x768_S2304x768,
    unary main_arg2 main_v6 (extractStridedSlice S1x2304 ![0, 0] · slices_S4x2304_S1x2304_0_0),
    reshape main_v6 main_v7 rfl shapeCasts_S1x2304_S2304,
    unary main_arg3 main_v8 (extractStridedSlice S1x768x768 ![0, 0, 0] · slices_S4x768x768_S1x768x768_0_0_0),
    reshape main_v8 main_v9 rfl shapeCasts_S1x768x768_S768x768,
    unary main_arg4 main_v10 (extractStridedSlice S1x768 ![0, 0] · slices_S4x768_S1x768_0_0),
    reshape main_v10 main_v11 rfl shapeCasts_S1x768_S768,
    unary main_v5 main_v12 (extractStridedSlice S768x768 ![0, 0] · slices_S2304x768_S768x768_0_0),
    unary main_v5 main_v13 (extractStridedSlice S768x768 ![768, 0] · slices_S2304x768_S768x768_768_0),
    unary main_v5 main_v14 (extractStridedSlice S768x768 ![1536, 0] · slices_S2304x768_S768x768_1536_0),
    unary main_v7 main_v15 (extractStridedSlice S768 ![0] · slices_S2304_S768_0),
    unary main_v7 main_v16 (extractStridedSlice S768 ![768] · slices_S2304_S768_768),
    unary main_v7 main_v17 (extractStridedSlice S768 ![1536] · slices_S2304_S768_1536),
    unary main_v12 main_v18 (transpose S768x768 [1, 0] · transposes_S768x768_S768x768_1_0),
    binary main_v0 main_v18 main_v19 (fun l r => Host.dotGeneral dot_S4096x768_S768x768_S4096x768_1_0_0_1_n_n none l r),
    unary main_v15 main_v20 (broadcastInDim S1x768 ![1] bcast_S768_S1x768_1),
    unary main_v20 main_v21 (broadcastInDim S4096x768 ![0, 1] bcast_S1x768_S4096x768_0_1),
    binary main_v19 main_v21 main_v22 addf,
    reshape main_v22 main_v23 rfl shapeCasts_S4096x768_S4096x4x192,
    unary main_v13 main_v24 (transpose S768x768 [1, 0] · transposes_S768x768_S768x768_1_0),
    binary main_v0 main_v24 main_v25 (fun l r => Host.dotGeneral dot_S4096x768_S768x768_S4096x768_1_0_0_1_n_n none l r),
    unary main_v16 main_v26 (broadcastInDim S1x768 ![1] bcast_S768_S1x768_1),
    unary main_v26 main_v27 (broadcastInDim S4096x768 ![0, 1] bcast_S1x768_S4096x768_0_1),
    binary main_v25 main_v27 main_v28 addf,
    reshape main_v28 main_v29 rfl shapeCasts_S4096x768_S4096x4x192,
    unary main_v14 main_v30 (transpose S768x768 [1, 0] · transposes_S768x768_S768x768_1_0),
    binary main_v0 main_v30 main_v31 (fun l r => Host.dotGeneral dot_S4096x768_S768x768_S4096x768_1_0_0_1_n_n none l r),
    unary main_v17 main_v32 (broadcastInDim S1x768 ![1] bcast_S768_S1x768_1),
    unary main_v32 main_v33 (broadcastInDim S4096x768 ![0, 1] bcast_S1x768_S4096x768_0_1),
    binary main_v31 main_v33 main_v34 addf,
    reshape main_v34 main_v35 rfl shapeCasts_S4096x768_S4096x4x192,
    binary main_v23 main_v29 main_v36 mulf,
    nullary main_cst (constant S_ .f32 0x00000000#32),
    binary main_v36 main_cst main_v37 (fun x v => Host.reduceAdd x v reducesTo_S4096x4x192_S4096x4_d2 h_S_),
    unary main_v37 main_v38 (broadcastInDim S4096x4x1 ![0, 1] bcast_S4096x4_S4096x4x1_0_1),
    nullary main_cst_0 (constant S_ .f32 0x43400000#32),
    unary main_cst_0 main_v39 Host.sqrt,
    unary main_v39 main_v40 (broadcastInDim S4096x4x1 ![] bcast_S_S4096x4x1),
    binary main_v38 main_v40 main_v41 Host.divf,
    nullary main_cst_1 (constant S_ .f32 0xFF800000#32),
    binary main_v41 main_cst_1 main_v42 (fun x v => Host.reduce FloatOps.maximumf x v reducesTo_S4096x4x1_S4096x4_d2 h_S_),
    nullary main_cst_2 (constant S_ .f32 0xFF800000#32),
    unary main_cst_2 main_v43 (broadcastInDim S4096x4 ![] bcast_S_S4096x4),
    binary main_v43 main_v42 main_v44 maximumf,
    unary main_v44 main_v45 (broadcastInDim S4096x4x1 ![0, 1] bcast_S4096x4_S4096x4x1_0_1),
    binary main_v41 main_v45 main_v46 subf,
    unary main_v46 main_v47 Host.exp,
    nullary main_cst_3 (constant S_ .f32 0x00000000#32),
    binary main_v47 main_cst_3 main_v48 (fun x v => Host.reduceAdd x v reducesTo_S4096x4x1_S4096x4_d2 h_S_),
    unary main_v48 main_v49 (broadcastInDim S4096x4x1 ![0, 1] bcast_S4096x4_S4096x4x1_0_1),
    binary main_v47 main_v49 main_v50 Host.divf,
    unary main_v50 main_v51 (broadcastInDim S4096x4x192 ![0, 1, 2] bcast_S4096x4x1_S4096x4x192_0_1_2),
    binary main_v51 main_v35 main_v52 mulf,
    reshape main_v52 main_v53 rfl shapeCasts_S4096x4x192_S4096x768,
    unary main_v9 main_v54 (transpose S768x768 [1, 0] · transposes_S768x768_S768x768_1_0) ]

def win1 : List (HloOp τ sig (Elt F)) :=
  [ binary main_v53 main_v54 main_v55 (fun l r => Host.dotGeneral dot_S4096x768_S768x768_S4096x768_1_0_0_1_n_n none l r),
    unary main_v11 main_v56 (broadcastInDim S1x768 ![1] bcast_S768_S1x768_1),
    unary main_v56 main_v57 (broadcastInDim S4096x768 ![0, 1] bcast_S1x768_S4096x768_0_1),
    binary main_v55 main_v57 main_v58 addf,
    unary main_arg1 main_v59 (extractStridedSlice S1x2304x768 ![1, 0, 0] · slices_S4x2304x768_S1x2304x768_1_0_0),
    reshape main_v59 main_v60 rfl shapeCasts_S1x2304x768_S2304x768,
    unary main_arg2 main_v61 (extractStridedSlice S1x2304 ![1, 0] · slices_S4x2304_S1x2304_1_0),
    reshape main_v61 main_v62 rfl shapeCasts_S1x2304_S2304,
    unary main_arg3 main_v63 (extractStridedSlice S1x768x768 ![1, 0, 0] · slices_S4x768x768_S1x768x768_1_0_0),
    reshape main_v63 main_v64 rfl shapeCasts_S1x768x768_S768x768,
    unary main_arg4 main_v65 (extractStridedSlice S1x768 ![1, 0] · slices_S4x768_S1x768_1_0),
    reshape main_v65 main_v66 rfl shapeCasts_S1x768_S768,
    unary main_v60 main_v67 (extractStridedSlice S768x768 ![0, 0] · slices_S2304x768_S768x768_0_0),
    unary main_v60 main_v68 (extractStridedSlice S768x768 ![768, 0] · slices_S2304x768_S768x768_768_0),
    unary main_v60 main_v69 (extractStridedSlice S768x768 ![1536, 0] · slices_S2304x768_S768x768_1536_0),
    unary main_v62 main_v70 (extractStridedSlice S768 ![0] · slices_S2304_S768_0),
    unary main_v62 main_v71 (extractStridedSlice S768 ![768] · slices_S2304_S768_768),
    unary main_v62 main_v72 (extractStridedSlice S768 ![1536] · slices_S2304_S768_1536),
    unary main_v67 main_v73 (transpose S768x768 [1, 0] · transposes_S768x768_S768x768_1_0),
    binary main_v58 main_v73 main_v74 (fun l r => Host.dotGeneral dot_S4096x768_S768x768_S4096x768_1_0_0_1_n_n none l r),
    unary main_v70 main_v75 (broadcastInDim S1x768 ![1] bcast_S768_S1x768_1),
    unary main_v75 main_v76 (broadcastInDim S4096x768 ![0, 1] bcast_S1x768_S4096x768_0_1),
    binary main_v74 main_v76 main_v77 addf,
    reshape main_v77 main_v78 rfl shapeCasts_S4096x768_S4096x4x192,
    unary main_v68 main_v79 (transpose S768x768 [1, 0] · transposes_S768x768_S768x768_1_0),
    binary main_v1 main_v79 main_v80 (fun l r => Host.dotGeneral dot_S4096x768_S768x768_S4096x768_1_0_0_1_n_n none l r),
    unary main_v71 main_v81 (broadcastInDim S1x768 ![1] bcast_S768_S1x768_1),
    unary main_v81 main_v82 (broadcastInDim S4096x768 ![0, 1] bcast_S1x768_S4096x768_0_1),
    binary main_v80 main_v82 main_v83 addf,
    reshape main_v83 main_v84 rfl shapeCasts_S4096x768_S4096x4x192,
    unary main_v69 main_v85 (transpose S768x768 [1, 0] · transposes_S768x768_S768x768_1_0),
    binary main_v1 main_v85 main_v86 (fun l r => Host.dotGeneral dot_S4096x768_S768x768_S4096x768_1_0_0_1_n_n none l r),
    unary main_v72 main_v87 (broadcastInDim S1x768 ![1] bcast_S768_S1x768_1),
    unary main_v87 main_v88 (broadcastInDim S4096x768 ![0, 1] bcast_S1x768_S4096x768_0_1),
    binary main_v86 main_v88 main_v89 addf,
    reshape main_v89 main_v90 rfl shapeCasts_S4096x768_S4096x4x192,
    binary main_v78 main_v84 main_v91 mulf,
    nullary main_cst_4 (constant S_ .f32 0x00000000#32),
    binary main_v91 main_cst_4 main_v92 (fun x v => Host.reduceAdd x v reducesTo_S4096x4x192_S4096x4_d2 h_S_),
    unary main_v92 main_v93 (broadcastInDim S4096x4x1 ![0, 1] bcast_S4096x4_S4096x4x1_0_1),
    nullary main_cst_5 (constant S_ .f32 0x43400000#32),
    unary main_cst_5 main_v94 Host.sqrt,
    unary main_v94 main_v95 (broadcastInDim S4096x4x1 ![] bcast_S_S4096x4x1),
    binary main_v93 main_v95 main_v96 Host.divf,
    nullary main_cst_6 (constant S_ .f32 0xFF800000#32),
    binary main_v96 main_cst_6 main_v97 (fun x v => Host.reduce FloatOps.maximumf x v reducesTo_S4096x4x1_S4096x4_d2 h_S_),
    nullary main_cst_7 (constant S_ .f32 0xFF800000#32),
    unary main_cst_7 main_v98 (broadcastInDim S4096x4 ![] bcast_S_S4096x4),
    binary main_v98 main_v97 main_v99 maximumf,
    unary main_v99 main_v100 (broadcastInDim S4096x4x1 ![0, 1] bcast_S4096x4_S4096x4x1_0_1),
    binary main_v96 main_v100 main_v101 subf,
    unary main_v101 main_v102 Host.exp,
    nullary main_cst_8 (constant S_ .f32 0x00000000#32),
    binary main_v102 main_cst_8 main_v103 (fun x v => Host.reduceAdd x v reducesTo_S4096x4x1_S4096x4_d2 h_S_),
    unary main_v103 main_v104 (broadcastInDim S4096x4x1 ![0, 1] bcast_S4096x4_S4096x4x1_0_1),
    binary main_v102 main_v104 main_v105 Host.divf,
    unary main_v105 main_v106 (broadcastInDim S4096x4x192 ![0, 1, 2] bcast_S4096x4x1_S4096x4x192_0_1_2),
    binary main_v106 main_v90 main_v107 mulf,
    reshape main_v107 main_v108 rfl shapeCasts_S4096x4x192_S4096x768,
    unary main_v64 main_v109 (transpose S768x768 [1, 0] · transposes_S768x768_S768x768_1_0) ]

def win2 : List (HloOp τ sig (Elt F)) :=
  [ binary main_v108 main_v109 main_v110 (fun l r => Host.dotGeneral dot_S4096x768_S768x768_S4096x768_1_0_0_1_n_n none l r),
    unary main_v66 main_v111 (broadcastInDim S1x768 ![1] bcast_S768_S1x768_1),
    unary main_v111 main_v112 (broadcastInDim S4096x768 ![0, 1] bcast_S1x768_S4096x768_0_1),
    binary main_v110 main_v112 main_v113 addf,
    binary main_v113 main_v58 main_v114 addf,
    unary main_arg5 main_v115 (extractStridedSlice S1x768 ![1, 0] · slices_S4x768_S1x768_1_0),
    reshape main_v115 main_v116 rfl shapeCasts_S1x768_S768,
    unary main_arg6 main_v117 (extractStridedSlice S1x768 ![1, 0] · slices_S4x768_S1x768_1_0),
    reshape main_v117 main_v118 rfl shapeCasts_S1x768_S768,
    nullary main_cst_9 (constant S_ .f32 0x3F7FFFAC#32),
    unary main_cst_9 main_v119 (broadcastInDim S768 ![] bcast_S_S768),
    binary main_v116 main_v119 main_v120 mulf,
    unary main_v120 main_v121 (broadcastInDim S1x768 ![1] bcast_S768_S1x768_1),
    unary main_v121 main_v122 (broadcastInDim S4096x768 ![0, 1] bcast_S1x768_S4096x768_0_1),
    binary main_v114 main_v122 main_v123 mulf,
    unary main_v118 main_v124 (broadcastInDim S1x768 ![1] bcast_S768_S1x768_1),
    unary main_v124 main_v125 (broadcastInDim S4096x768 ![0, 1] bcast_S1x768_S4096x768_0_1),
    binary main_v123 main_v125 main_v126 addf,
    unary main_arg1 main_v127 (extractStridedSlice S1x2304x768 ![2, 0, 0] · slices_S4x2304x768_S1x2304x768_2_0_0),
    reshape main_v127 main_v128 rfl shapeCasts_S1x2304x768_S2304x768,
    unary main_arg2 main_v129 (extractStridedSlice S1x2304 ![2, 0] · slices_S4x2304_S1x2304_2_0),
    reshape main_v129 main_v130 rfl shapeCasts_S1x2304_S2304,
    unary main_arg3 main_v131 (extractStridedSlice S1x768x768 ![2, 0, 0] · slices_S4x768x768_S1x768x768_2_0_0),
    reshape main_v131 main_v132 rfl shapeCasts_S1x768x768_S768x768,
    unary main_arg4 main_v133 (extractStridedSlice S1x768 ![2, 0] · slices_S4x768_S1x768_2_0),
    reshape main_v133 main_v134 rfl shapeCasts_S1x768_S768,
    unary main_v128 main_v135 (extractStridedSlice S768x768 ![0, 0] · slices_S2304x768_S768x768_0_0),
    unary main_v128 main_v136 (extractStridedSlice S768x768 ![768, 0] · slices_S2304x768_S768x768_768_0),
    unary main_v128 main_v137 (extractStridedSlice S768x768 ![1536, 0] · slices_S2304x768_S768x768_1536_0),
    unary main_v130 main_v138 (extractStridedSlice S768 ![0] · slices_S2304_S768_0),
    unary main_v130 main_v139 (extractStridedSlice S768 ![768] · slices_S2304_S768_768),
    unary main_v130 main_v140 (extractStridedSlice S768 ![1536] · slices_S2304_S768_1536),
    unary main_v135 main_v141 (transpose S768x768 [1, 0] · transposes_S768x768_S768x768_1_0),
    binary main_v126 main_v141 main_v142 (fun l r => Host.dotGeneral dot_S4096x768_S768x768_S4096x768_1_0_0_1_n_n none l r),
    unary main_v138 main_v143 (broadcastInDim S1x768 ![1] bcast_S768_S1x768_1),
    unary main_v143 main_v144 (broadcastInDim S4096x768 ![0, 1] bcast_S1x768_S4096x768_0_1),
    binary main_v142 main_v144 main_v145 addf,
    reshape main_v145 main_v146 rfl shapeCasts_S4096x768_S4096x4x192,
    unary main_v136 main_v147 (transpose S768x768 [1, 0] · transposes_S768x768_S768x768_1_0),
    binary main_v2 main_v147 main_v148 (fun l r => Host.dotGeneral dot_S4096x768_S768x768_S4096x768_1_0_0_1_n_n none l r),
    unary main_v139 main_v149 (broadcastInDim S1x768 ![1] bcast_S768_S1x768_1),
    unary main_v149 main_v150 (broadcastInDim S4096x768 ![0, 1] bcast_S1x768_S4096x768_0_1),
    binary main_v148 main_v150 main_v151 addf,
    reshape main_v151 main_v152 rfl shapeCasts_S4096x768_S4096x4x192,
    unary main_v137 main_v153 (transpose S768x768 [1, 0] · transposes_S768x768_S768x768_1_0),
    binary main_v2 main_v153 main_v154 (fun l r => Host.dotGeneral dot_S4096x768_S768x768_S4096x768_1_0_0_1_n_n none l r),
    unary main_v140 main_v155 (broadcastInDim S1x768 ![1] bcast_S768_S1x768_1),
    unary main_v155 main_v156 (broadcastInDim S4096x768 ![0, 1] bcast_S1x768_S4096x768_0_1),
    binary main_v154 main_v156 main_v157 addf,
    reshape main_v157 main_v158 rfl shapeCasts_S4096x768_S4096x4x192,
    binary main_v146 main_v152 main_v159 mulf,
    nullary main_cst_10 (constant S_ .f32 0x00000000#32),
    binary main_v159 main_cst_10 main_v160 (fun x v => Host.reduceAdd x v reducesTo_S4096x4x192_S4096x4_d2 h_S_),
    unary main_v160 main_v161 (broadcastInDim S4096x4x1 ![0, 1] bcast_S4096x4_S4096x4x1_0_1),
    nullary main_cst_11 (constant S_ .f32 0x43400000#32),
    unary main_cst_11 main_v162 Host.sqrt,
    unary main_v162 main_v163 (broadcastInDim S4096x4x1 ![] bcast_S_S4096x4x1),
    binary main_v161 main_v163 main_v164 Host.divf,
    nullary main_cst_12 (constant S_ .f32 0xFF800000#32),
    binary main_v164 main_cst_12 main_v165 (fun x v => Host.reduce FloatOps.maximumf x v reducesTo_S4096x4x1_S4096x4_d2 h_S_) ]

def win3 : List (HloOp τ sig (Elt F)) :=
  [ nullary main_cst_13 (constant S_ .f32 0xFF800000#32),
    unary main_cst_13 main_v166 (broadcastInDim S4096x4 ![] bcast_S_S4096x4),
    binary main_v166 main_v165 main_v167 maximumf,
    unary main_v167 main_v168 (broadcastInDim S4096x4x1 ![0, 1] bcast_S4096x4_S4096x4x1_0_1),
    binary main_v164 main_v168 main_v169 subf,
    unary main_v169 main_v170 Host.exp,
    nullary main_cst_14 (constant S_ .f32 0x00000000#32),
    binary main_v170 main_cst_14 main_v171 (fun x v => Host.reduceAdd x v reducesTo_S4096x4x1_S4096x4_d2 h_S_),
    unary main_v171 main_v172 (broadcastInDim S4096x4x1 ![0, 1] bcast_S4096x4_S4096x4x1_0_1),
    binary main_v170 main_v172 main_v173 Host.divf,
    unary main_v173 main_v174 (broadcastInDim S4096x4x192 ![0, 1, 2] bcast_S4096x4x1_S4096x4x192_0_1_2),
    binary main_v174 main_v158 main_v175 mulf,
    reshape main_v175 main_v176 rfl shapeCasts_S4096x4x192_S4096x768,
    unary main_v132 main_v177 (transpose S768x768 [1, 0] · transposes_S768x768_S768x768_1_0),
    binary main_v176 main_v177 main_v178 (fun l r => Host.dotGeneral dot_S4096x768_S768x768_S4096x768_1_0_0_1_n_n none l r),
    unary main_v134 main_v179 (broadcastInDim S1x768 ![1] bcast_S768_S1x768_1),
    unary main_v179 main_v180 (broadcastInDim S4096x768 ![0, 1] bcast_S1x768_S4096x768_0_1),
    binary main_v178 main_v180 main_v181 addf,
    binary main_v181 main_v126 main_v182 addf,
    unary main_arg5 main_v183 (extractStridedSlice S1x768 ![2, 0] · slices_S4x768_S1x768_2_0),
    reshape main_v183 main_v184 rfl shapeCasts_S1x768_S768,
    unary main_arg6 main_v185 (extractStridedSlice S1x768 ![2, 0] · slices_S4x768_S1x768_2_0),
    reshape main_v185 main_v186 rfl shapeCasts_S1x768_S768,
    nullary main_cst_15 (constant S_ .f32 0x3F7FFFAC#32),
    unary main_cst_15 main_v187 (broadcastInDim S768 ![] bcast_S_S768),
    binary main_v184 main_v187 main_v188 mulf,
    unary main_v188 main_v189 (broadcastInDim S1x768 ![1] bcast_S768_S1x768_1),
    unary main_v189 main_v190 (broadcastInDim S4096x768 ![0, 1] bcast_S1x768_S4096x768_0_1),
    binary main_v182 main_v190 main_v191 mulf,
    unary main_v186 main_v192 (broadcastInDim S1x768 ![1] bcast_S768_S1x768_1),
    unary main_v192 main_v193 (broadcastInDim S4096x768 ![0, 1] bcast_S1x768_S4096x768_0_1),
    binary main_v191 main_v193 main_v194 addf,
    unary main_arg1 main_v195 (extractStridedSlice S1x2304x768 ![3, 0, 0] · slices_S4x2304x768_S1x2304x768_3_0_0),
    reshape main_v195 main_v196 rfl shapeCasts_S1x2304x768_S2304x768,
    unary main_arg2 main_v197 (extractStridedSlice S1x2304 ![3, 0] · slices_S4x2304_S1x2304_3_0),
    reshape main_v197 main_v198 rfl shapeCasts_S1x2304_S2304,
    unary main_arg3 main_v199 (extractStridedSlice S1x768x768 ![3, 0, 0] · slices_S4x768x768_S1x768x768_3_0_0),
    reshape main_v199 main_v200 rfl shapeCasts_S1x768x768_S768x768,
    unary main_arg4 main_v201 (extractStridedSlice S1x768 ![3, 0] · slices_S4x768_S1x768_3_0),
    reshape main_v201 main_v202 rfl shapeCasts_S1x768_S768,
    unary main_v196 main_v203 (extractStridedSlice S768x768 ![0, 0] · slices_S2304x768_S768x768_0_0),
    unary main_v196 main_v204 (extractStridedSlice S768x768 ![768, 0] · slices_S2304x768_S768x768_768_0),
    unary main_v196 main_v205 (extractStridedSlice S768x768 ![1536, 0] · slices_S2304x768_S768x768_1536_0),
    unary main_v198 main_v206 (extractStridedSlice S768 ![0] · slices_S2304_S768_0),
    unary main_v198 main_v207 (extractStridedSlice S768 ![768] · slices_S2304_S768_768),
    unary main_v198 main_v208 (extractStridedSlice S768 ![1536] · slices_S2304_S768_1536),
    unary main_v203 main_v209 (transpose S768x768 [1, 0] · transposes_S768x768_S768x768_1_0),
    binary main_v194 main_v209 main_v210 (fun l r => Host.dotGeneral dot_S4096x768_S768x768_S4096x768_1_0_0_1_n_n none l r),
    unary main_v206 main_v211 (broadcastInDim S1x768 ![1] bcast_S768_S1x768_1),
    unary main_v211 main_v212 (broadcastInDim S4096x768 ![0, 1] bcast_S1x768_S4096x768_0_1),
    binary main_v210 main_v212 main_v213 addf,
    reshape main_v213 main_v214 rfl shapeCasts_S4096x768_S4096x4x192,
    unary main_v204 main_v215 (transpose S768x768 [1, 0] · transposes_S768x768_S768x768_1_0),
    binary main_v3 main_v215 main_v216 (fun l r => Host.dotGeneral dot_S4096x768_S768x768_S4096x768_1_0_0_1_n_n none l r),
    unary main_v207 main_v217 (broadcastInDim S1x768 ![1] bcast_S768_S1x768_1),
    unary main_v217 main_v218 (broadcastInDim S4096x768 ![0, 1] bcast_S1x768_S4096x768_0_1),
    binary main_v216 main_v218 main_v219 addf,
    reshape main_v219 main_v220 rfl shapeCasts_S4096x768_S4096x4x192,
    unary main_v205 main_v221 (transpose S768x768 [1, 0] · transposes_S768x768_S768x768_1_0),
    binary main_v3 main_v221 main_v222 (fun l r => Host.dotGeneral dot_S4096x768_S768x768_S4096x768_1_0_0_1_n_n none l r) ]

def win4 : List (HloOp τ sig (Elt F)) :=
  [ unary main_v208 main_v223 (broadcastInDim S1x768 ![1] bcast_S768_S1x768_1),
    unary main_v223 main_v224 (broadcastInDim S4096x768 ![0, 1] bcast_S1x768_S4096x768_0_1),
    binary main_v222 main_v224 main_v225 addf,
    reshape main_v225 main_v226 rfl shapeCasts_S4096x768_S4096x4x192,
    binary main_v214 main_v220 main_v227 mulf,
    nullary main_cst_16 (constant S_ .f32 0x00000000#32),
    binary main_v227 main_cst_16 main_v228 (fun x v => Host.reduceAdd x v reducesTo_S4096x4x192_S4096x4_d2 h_S_),
    unary main_v228 main_v229 (broadcastInDim S4096x4x1 ![0, 1] bcast_S4096x4_S4096x4x1_0_1),
    nullary main_cst_17 (constant S_ .f32 0x43400000#32),
    unary main_cst_17 main_v230 Host.sqrt,
    unary main_v230 main_v231 (broadcastInDim S4096x4x1 ![] bcast_S_S4096x4x1),
    binary main_v229 main_v231 main_v232 Host.divf,
    nullary main_cst_18 (constant S_ .f32 0xFF800000#32),
    binary main_v232 main_cst_18 main_v233 (fun x v => Host.reduce FloatOps.maximumf x v reducesTo_S4096x4x1_S4096x4_d2 h_S_),
    nullary main_cst_19 (constant S_ .f32 0xFF800000#32),
    unary main_cst_19 main_v234 (broadcastInDim S4096x4 ![] bcast_S_S4096x4),
    binary main_v234 main_v233 main_v235 maximumf,
    unary main_v235 main_v236 (broadcastInDim S4096x4x1 ![0, 1] bcast_S4096x4_S4096x4x1_0_1),
    binary main_v232 main_v236 main_v237 subf,
    unary main_v237 main_v238 Host.exp,
    nullary main_cst_20 (constant S_ .f32 0x00000000#32),
    binary main_v238 main_cst_20 main_v239 (fun x v => Host.reduceAdd x v reducesTo_S4096x4x1_S4096x4_d2 h_S_),
    unary main_v239 main_v240 (broadcastInDim S4096x4x1 ![0, 1] bcast_S4096x4_S4096x4x1_0_1),
    binary main_v238 main_v240 main_v241 Host.divf,
    unary main_v241 main_v242 (broadcastInDim S4096x4x192 ![0, 1, 2] bcast_S4096x4x1_S4096x4x192_0_1_2),
    binary main_v242 main_v226 main_v243 mulf,
    reshape main_v243 main_v244 rfl shapeCasts_S4096x4x192_S4096x768,
    unary main_v200 main_v245 (transpose S768x768 [1, 0] · transposes_S768x768_S768x768_1_0),
    binary main_v244 main_v245 main_v246 (fun l r => Host.dotGeneral dot_S4096x768_S768x768_S4096x768_1_0_0_1_n_n none l r),
    unary main_v202 main_v247 (broadcastInDim S1x768 ![1] bcast_S768_S1x768_1),
    unary main_v247 main_v248 (broadcastInDim S4096x768 ![0, 1] bcast_S1x768_S4096x768_0_1),
    binary main_v246 main_v248 main_v249 addf,
    binary main_v249 main_v194 main_v250 addf,
    unary main_arg5 main_v251 (extractStridedSlice S1x768 ![3, 0] · slices_S4x768_S1x768_3_0),
    reshape main_v251 main_v252 rfl shapeCasts_S1x768_S768,
    unary main_arg6 main_v253 (extractStridedSlice S1x768 ![3, 0] · slices_S4x768_S1x768_3_0),
    reshape main_v253 main_v254 rfl shapeCasts_S1x768_S768,
    nullary main_cst_21 (constant S_ .f32 0x3F7FFFAC#32),
    unary main_cst_21 main_v255 (broadcastInDim S768 ![] bcast_S_S768),
    binary main_v252 main_v255 main_v256 mulf,
    unary main_v256 main_v257 (broadcastInDim S1x768 ![1] bcast_S768_S1x768_1),
    unary main_v257 main_v258 (broadcastInDim S4096x768 ![0, 1] bcast_S1x768_S4096x768_0_1),
    binary main_v250 main_v258 main_v259 mulf,
    unary main_v254 main_v260 (broadcastInDim S1x768 ![1] bcast_S768_S1x768_1),
    unary main_v260 main_v261 (broadcastInDim S4096x768 ![0, 1] bcast_S1x768_S4096x768_0_1),
    binary main_v259 main_v261 main_v262 addf,
    nary ![main_v58, main_v126, main_v194, main_v262] main_v263 (fun u => concatenate S4096x3072 1 [⟨S4096x768, u 0⟩, ⟨S4096x768, u 1⟩, ⟨S4096x768, u 2⟩, ⟨S4096x768, u 3⟩] concatenates_S4096x768_S4096x768_S4096x768_S4096x768_S4096x3072_d1),
    unary main_arg0 main_v264 (extractStridedSlice S4096x768 ![0, 3072] · slices_S4096x6144_S4096x768_0_3072),
    unary main_arg0 main_v265 (extractStridedSlice S4096x768 ![0, 3840] · slices_S4096x6144_S4096x768_0_3840),
    unary main_arg0 main_v266 (extractStridedSlice S4096x768 ![0, 4608] · slices_S4096x6144_S4096x768_0_4608),
    unary main_arg0 main_v267 (extractStridedSlice S4096x768 ![0, 5376] · slices_S4096x6144_S4096x768_0_5376),
    unary main_arg7 main_v268 (extractStridedSlice S1x2304x768 ![0, 0, 0] · slices_S4x2304x768_S1x2304x768_0_0_0),
    reshape main_v268 main_v269 rfl shapeCasts_S1x2304x768_S2304x768,
    unary main_arg8 main_v270 (extractStridedSlice S1x2304 ![0, 0] · slices_S4x2304_S1x2304_0_0),
    reshape main_v270 main_v271 rfl shapeCasts_S1x2304_S2304,
    unary main_arg9 main_v272 (extractStridedSlice S1x768x768 ![0, 0, 0] · slices_S4x768x768_S1x768x768_0_0_0),
    reshape main_v272 main_v273 rfl shapeCasts_S1x768x768_S768x768,
    unary main_arg10 main_v274 (extractStridedSlice S1x768 ![0, 0] · slices_S4x768_S1x768_0_0),
    reshape main_v274 main_v275 rfl shapeCasts_S1x768_S768,
    unary main_v269 main_v276 (extractStridedSlice S768x768 ![0, 0] · slices_S2304x768_S768x768_0_0) ]

def win5 : List (HloOp τ sig (Elt F)) :=
  [ unary main_v269 main_v277 (extractStridedSlice S768x768 ![768, 0] · slices_S2304x768_S768x768_768_0),
    unary main_v269 main_v278 (extractStridedSlice S768x768 ![1536, 0] · slices_S2304x768_S768x768_1536_0),
    unary main_v271 main_v279 (extractStridedSlice S768 ![0] · slices_S2304_S768_0),
    unary main_v271 main_v280 (extractStridedSlice S768 ![768] · slices_S2304_S768_768),
    unary main_v271 main_v281 (extractStridedSlice S768 ![1536] · slices_S2304_S768_1536),
    unary main_v276 main_v282 (transpose S768x768 [1, 0] · transposes_S768x768_S768x768_1_0),
    binary main_v264 main_v282 main_v283 (fun l r => Host.dotGeneral dot_S4096x768_S768x768_S4096x768_1_0_0_1_n_n none l r),
    unary main_v279 main_v284 (broadcastInDim S1x768 ![1] bcast_S768_S1x768_1),
    unary main_v284 main_v285 (broadcastInDim S4096x768 ![0, 1] bcast_S1x768_S4096x768_0_1),
    binary main_v283 main_v285 main_v286 addf,
    reshape main_v286 main_v287 rfl shapeCasts_S4096x768_S4096x4x192,
    unary main_v277 main_v288 (transpose S768x768 [1, 0] · transposes_S768x768_S768x768_1_0),
    binary main_v264 main_v288 main_v289 (fun l r => Host.dotGeneral dot_S4096x768_S768x768_S4096x768_1_0_0_1_n_n none l r),
    unary main_v280 main_v290 (broadcastInDim S1x768 ![1] bcast_S768_S1x768_1),
    unary main_v290 main_v291 (broadcastInDim S4096x768 ![0, 1] bcast_S1x768_S4096x768_0_1),
    binary main_v289 main_v291 main_v292 addf,
    reshape main_v292 main_v293 rfl shapeCasts_S4096x768_S4096x4x192,
    unary main_v278 main_v294 (transpose S768x768 [1, 0] · transposes_S768x768_S768x768_1_0),
    binary main_v264 main_v294 main_v295 (fun l r => Host.dotGeneral dot_S4096x768_S768x768_S4096x768_1_0_0_1_n_n none l r),
    unary main_v281 main_v296 (broadcastInDim S1x768 ![1] bcast_S768_S1x768_1),
    unary main_v296 main_v297 (broadcastInDim S4096x768 ![0, 1] bcast_S1x768_S4096x768_0_1),
    binary main_v295 main_v297 main_v298 addf,
    reshape main_v298 main_v299 rfl shapeCasts_S4096x768_S4096x4x192,
    binary main_v287 main_v293 main_v300 mulf,
    nullary main_cst_22 (constant S_ .f32 0x00000000#32),
    binary main_v300 main_cst_22 main_v301 (fun x v => Host.reduceAdd x v reducesTo_S4096x4x192_S4096x4_d2 h_S_),
    unary main_v301 main_v302 (broadcastInDim S4096x4x1 ![0, 1] bcast_S4096x4_S4096x4x1_0_1),
    nullary main_cst_23 (constant S_ .f32 0x43400000#32),
    unary main_cst_23 main_v303 Host.sqrt,
    unary main_v303 main_v304 (broadcastInDim S4096x4x1 ![] bcast_S_S4096x4x1),
    binary main_v302 main_v304 main_v305 Host.divf,
    nullary main_cst_24 (constant S_ .f32 0xFF800000#32),
    binary main_v305 main_cst_24 main_v306 (fun x v => Host.reduce FloatOps.maximumf x v reducesTo_S4096x4x1_S4096x4_d2 h_S_),
    nullary main_cst_25 (constant S_ .f32 0xFF800000#32),
    unary main_cst_25 main_v307 (broadcastInDim S4096x4 ![] bcast_S_S4096x4),
    binary main_v307 main_v306 main_v308 maximumf,
    unary main_v308 main_v309 (broadcastInDim S4096x4x1 ![0, 1] bcast_S4096x4_S4096x4x1_0_1),
    binary main_v305 main_v309 main_v310 subf,
    unary main_v310 main_v311 Host.exp,
    nullary main_cst_26 (constant S_ .f32 0x00000000#32),
    binary main_v311 main_cst_26 main_v312 (fun x v => Host.reduceAdd x v reducesTo_S4096x4x1_S4096x4_d2 h_S_),
    unary main_v312 main_v313 (broadcastInDim S4096x4x1 ![0, 1] bcast_S4096x4_S4096x4x1_0_1),
    binary main_v311 main_v313 main_v314 Host.divf,
    unary main_v314 main_v315 (broadcastInDim S4096x4x192 ![0, 1, 2] bcast_S4096x4x1_S4096x4x192_0_1_2),
    binary main_v315 main_v299 main_v316 mulf,
    reshape main_v316 main_v317 rfl shapeCasts_S4096x4x192_S4096x768,
    unary main_v273 main_v318 (transpose S768x768 [1, 0] · transposes_S768x768_S768x768_1_0),
    binary main_v317 main_v318 main_v319 (fun l r => Host.dotGeneral dot_S4096x768_S768x768_S4096x768_1_0_0_1_n_n none l r),
    unary main_v275 main_v320 (broadcastInDim S1x768 ![1] bcast_S768_S1x768_1),
    unary main_v320 main_v321 (broadcastInDim S4096x768 ![0, 1] bcast_S1x768_S4096x768_0_1),
    binary main_v319 main_v321 main_v322 addf,
    unary main_arg7 main_v323 (extractStridedSlice S1x2304x768 ![1, 0, 0] · slices_S4x2304x768_S1x2304x768_1_0_0),
    reshape main_v323 main_v324 rfl shapeCasts_S1x2304x768_S2304x768,
    unary main_arg8 main_v325 (extractStridedSlice S1x2304 ![1, 0] · slices_S4x2304_S1x2304_1_0),
    reshape main_v325 main_v326 rfl shapeCasts_S1x2304_S2304,
    unary main_arg9 main_v327 (extractStridedSlice S1x768x768 ![1, 0, 0] · slices_S4x768x768_S1x768x768_1_0_0),
    reshape main_v327 main_v328 rfl shapeCasts_S1x768x768_S768x768,
    unary main_arg10 main_v329 (extractStridedSlice S1x768 ![1, 0] · slices_S4x768_S1x768_1_0),
    reshape main_v329 main_v330 rfl shapeCasts_S1x768_S768,
    unary main_v324 main_v331 (extractStridedSlice S768x768 ![0, 0] · slices_S2304x768_S768x768_0_0) ]

def win6 : List (HloOp τ sig (Elt F)) :=
  [ unary main_v324 main_v332 (extractStridedSlice S768x768 ![768, 0] · slices_S2304x768_S768x768_768_0),
    unary main_v324 main_v333 (extractStridedSlice S768x768 ![1536, 0] · slices_S2304x768_S768x768_1536_0),
    unary main_v326 main_v334 (extractStridedSlice S768 ![0] · slices_S2304_S768_0),
    unary main_v326 main_v335 (extractStridedSlice S768 ![768] · slices_S2304_S768_768),
    unary main_v326 main_v336 (extractStridedSlice S768 ![1536] · slices_S2304_S768_1536),
    unary main_v331 main_v337 (transpose S768x768 [1, 0] · transposes_S768x768_S768x768_1_0),
    binary main_v322 main_v337 main_v338 (fun l r => Host.dotGeneral dot_S4096x768_S768x768_S4096x768_1_0_0_1_n_n none l r),
    unary main_v334 main_v339 (broadcastInDim S1x768 ![1] bcast_S768_S1x768_1),
    unary main_v339 main_v340 (broadcastInDim S4096x768 ![0, 1] bcast_S1x768_S4096x768_0_1),
    binary main_v338 main_v340 main_v341 addf,
    reshape main_v341 main_v342 rfl shapeCasts_S4096x768_S4096x4x192,
    unary main_v332 main_v343 (transpose S768x768 [1, 0] · transposes_S768x768_S768x768_1_0),
    binary main_v265 main_v343 main_v344 (fun l r => Host.dotGeneral dot_S4096x768_S768x768_S4096x768_1_0_0_1_n_n none l r),
    unary main_v335 main_v345 (broadcastInDim S1x768 ![1] bcast_S768_S1x768_1),
    unary main_v345 main_v346 (broadcastInDim S4096x768 ![0, 1] bcast_S1x768_S4096x768_0_1),
    binary main_v344 main_v346 main_v347 addf,
    reshape main_v347 main_v348 rfl shapeCasts_S4096x768_S4096x4x192,
    unary main_v333 main_v349 (transpose S768x768 [1, 0] · transposes_S768x768_S768x768_1_0),
    binary main_v265 main_v349 main_v350 (fun l r => Host.dotGeneral dot_S4096x768_S768x768_S4096x768_1_0_0_1_n_n none l r),
    unary main_v336 main_v351 (broadcastInDim S1x768 ![1] bcast_S768_S1x768_1),
    unary main_v351 main_v352 (broadcastInDim S4096x768 ![0, 1] bcast_S1x768_S4096x768_0_1),
    binary main_v350 main_v352 main_v353 addf,
    reshape main_v353 main_v354 rfl shapeCasts_S4096x768_S4096x4x192,
    binary main_v342 main_v348 main_v355 mulf,
    nullary main_cst_27 (constant S_ .f32 0x00000000#32),
    binary main_v355 main_cst_27 main_v356 (fun x v => Host.reduceAdd x v reducesTo_S4096x4x192_S4096x4_d2 h_S_),
    unary main_v356 main_v357 (broadcastInDim S4096x4x1 ![0, 1] bcast_S4096x4_S4096x4x1_0_1),
    nullary main_cst_28 (constant S_ .f32 0x43400000#32),
    unary main_cst_28 main_v358 Host.sqrt,
    unary main_v358 main_v359 (broadcastInDim S4096x4x1 ![] bcast_S_S4096x4x1),
    binary main_v357 main_v359 main_v360 Host.divf,
    nullary main_cst_29 (constant S_ .f32 0xFF800000#32),
    binary main_v360 main_cst_29 main_v361 (fun x v => Host.reduce FloatOps.maximumf x v reducesTo_S4096x4x1_S4096x4_d2 h_S_),
    nullary main_cst_30 (constant S_ .f32 0xFF800000#32),
    unary main_cst_30 main_v362 (broadcastInDim S4096x4 ![] bcast_S_S4096x4),
    binary main_v362 main_v361 main_v363 maximumf,
    unary main_v363 main_v364 (broadcastInDim S4096x4x1 ![0, 1] bcast_S4096x4_S4096x4x1_0_1),
    binary main_v360 main_v364 main_v365 subf,
    unary main_v365 main_v366 Host.exp,
    nullary main_cst_31 (constant S_ .f32 0x00000000#32),
    binary main_v366 main_cst_31 main_v367 (fun x v => Host.reduceAdd x v reducesTo_S4096x4x1_S4096x4_d2 h_S_),
    unary main_v367 main_v368 (broadcastInDim S4096x4x1 ![0, 1] bcast_S4096x4_S4096x4x1_0_1),
    binary main_v366 main_v368 main_v369 Host.divf,
    unary main_v369 main_v370 (broadcastInDim S4096x4x192 ![0, 1, 2] bcast_S4096x4x1_S4096x4x192_0_1_2),
    binary main_v370 main_v354 main_v371 mulf,
    reshape main_v371 main_v372 rfl shapeCasts_S4096x4x192_S4096x768,
    unary main_v328 main_v373 (transpose S768x768 [1, 0] · transposes_S768x768_S768x768_1_0),
    binary main_v372 main_v373 main_v374 (fun l r => Host.dotGeneral dot_S4096x768_S768x768_S4096x768_1_0_0_1_n_n none l r),
    unary main_v330 main_v375 (broadcastInDim S1x768 ![1] bcast_S768_S1x768_1),
    unary main_v375 main_v376 (broadcastInDim S4096x768 ![0, 1] bcast_S1x768_S4096x768_0_1),
    binary main_v374 main_v376 main_v377 addf,
    binary main_v377 main_v322 main_v378 addf,
    unary main_arg11 main_v379 (extractStridedSlice S1x768 ![1, 0] · slices_S4x768_S1x768_1_0),
    reshape main_v379 main_v380 rfl shapeCasts_S1x768_S768,
    unary main_arg12 main_v381 (extractStridedSlice S1x768 ![1, 0] · slices_S4x768_S1x768_1_0),
    reshape main_v381 main_v382 rfl shapeCasts_S1x768_S768,
    nullary main_cst_32 (constant S_ .f32 0x3F7FFFAC#32),
    unary main_cst_32 main_v383 (broadcastInDim S768 ![] bcast_S_S768),
    binary main_v380 main_v383 main_v384 mulf,
    unary main_v384 main_v385 (broadcastInDim S1x768 ![1] bcast_S768_S1x768_1) ]

def win7 : List (HloOp τ sig (Elt F)) :=
  [ unary main_v385 main_v386 (broadcastInDim S4096x768 ![0, 1] bcast_S1x768_S4096x768_0_1),
    binary main_v378 main_v386 main_v387 mulf,
    unary main_v382 main_v388 (broadcastInDim S1x768 ![1] bcast_S768_S1x768_1),
    unary main_v388 main_v389 (broadcastInDim S4096x768 ![0, 1] bcast_S1x768_S4096x768_0_1),
    binary main_v387 main_v389 main_v390 addf,
    unary main_arg7 main_v391 (extractStridedSlice S1x2304x768 ![2, 0, 0] · slices_S4x2304x768_S1x2304x768_2_0_0),
    reshape main_v391 main_v392 rfl shapeCasts_S1x2304x768_S2304x768,
    unary main_arg8 main_v393 (extractStridedSlice S1x2304 ![2, 0] · slices_S4x2304_S1x2304_2_0),
    reshape main_v393 main_v394 rfl shapeCasts_S1x2304_S2304,
    unary main_arg9 main_v395 (extractStridedSlice S1x768x768 ![2, 0, 0] · slices_S4x768x768_S1x768x768_2_0_0),
    reshape main_v395 main_v396 rfl shapeCasts_S1x768x768_S768x768,
    unary main_arg10 main_v397 (extractStridedSlice S1x768 ![2, 0] · slices_S4x768_S1x768_2_0),
    reshape main_v397 main_v398 rfl shapeCasts_S1x768_S768,
    unary main_v392 main_v399 (extractStridedSlice S768x768 ![0, 0] · slices_S2304x768_S768x768_0_0),
    unary main_v392 main_v400 (extractStridedSlice S768x768 ![768, 0] · slices_S2304x768_S768x768_768_0),
    unary main_v392 main_v401 (extractStridedSlice S768x768 ![1536, 0] · slices_S2304x768_S768x768_1536_0),
    unary main_v394 main_v402 (extractStridedSlice S768 ![0] · slices_S2304_S768_0),
    unary main_v394 main_v403 (extractStridedSlice S768 ![768] · slices_S2304_S768_768),
    unary main_v394 main_v404 (extractStridedSlice S768 ![1536] · slices_S2304_S768_1536),
    unary main_v399 main_v405 (transpose S768x768 [1, 0] · transposes_S768x768_S768x768_1_0),
    binary main_v390 main_v405 main_v406 (fun l r => Host.dotGeneral dot_S4096x768_S768x768_S4096x768_1_0_0_1_n_n none l r),
    unary main_v402 main_v407 (broadcastInDim S1x768 ![1] bcast_S768_S1x768_1),
    unary main_v407 main_v408 (broadcastInDim S4096x768 ![0, 1] bcast_S1x768_S4096x768_0_1),
    binary main_v406 main_v408 main_v409 addf,
    reshape main_v409 main_v410 rfl shapeCasts_S4096x768_S4096x4x192,
    unary main_v400 main_v411 (transpose S768x768 [1, 0] · transposes_S768x768_S768x768_1_0),
    binary main_v266 main_v411 main_v412 (fun l r => Host.dotGeneral dot_S4096x768_S768x768_S4096x768_1_0_0_1_n_n none l r),
    unary main_v403 main_v413 (broadcastInDim S1x768 ![1] bcast_S768_S1x768_1),
    unary main_v413 main_v414 (broadcastInDim S4096x768 ![0, 1] bcast_S1x768_S4096x768_0_1),
    binary main_v412 main_v414 main_v415 addf,
    reshape main_v415 main_v416 rfl shapeCasts_S4096x768_S4096x4x192,
    unary main_v401 main_v417 (transpose S768x768 [1, 0] · transposes_S768x768_S768x768_1_0),
    binary main_v266 main_v417 main_v418 (fun l r => Host.dotGeneral dot_S4096x768_S768x768_S4096x768_1_0_0_1_n_n none l r),
    unary main_v404 main_v419 (broadcastInDim S1x768 ![1] bcast_S768_S1x768_1),
    unary main_v419 main_v420 (broadcastInDim S4096x768 ![0, 1] bcast_S1x768_S4096x768_0_1),
    binary main_v418 main_v420 main_v421 addf,
    reshape main_v421 main_v422 rfl shapeCasts_S4096x768_S4096x4x192,
    binary main_v410 main_v416 main_v423 mulf,
    nullary main_cst_33 (constant S_ .f32 0x00000000#32),
    binary main_v423 main_cst_33 main_v424 (fun x v => Host.reduceAdd x v reducesTo_S4096x4x192_S4096x4_d2 h_S_),
    unary main_v424 main_v425 (broadcastInDim S4096x4x1 ![0, 1] bcast_S4096x4_S4096x4x1_0_1),
    nullary main_cst_34 (constant S_ .f32 0x43400000#32),
    unary main_cst_34 main_v426 Host.sqrt,
    unary main_v426 main_v427 (broadcastInDim S4096x4x1 ![] bcast_S_S4096x4x1),
    binary main_v425 main_v427 main_v428 Host.divf,
    nullary main_cst_35 (constant S_ .f32 0xFF800000#32),
    binary main_v428 main_cst_35 main_v429 (fun x v => Host.reduce FloatOps.maximumf x v reducesTo_S4096x4x1_S4096x4_d2 h_S_),
    nullary main_cst_36 (constant S_ .f32 0xFF800000#32),
    unary main_cst_36 main_v430 (broadcastInDim S4096x4 ![] bcast_S_S4096x4),
    binary main_v430 main_v429 main_v431 maximumf,
    unary main_v431 main_v432 (broadcastInDim S4096x4x1 ![0, 1] bcast_S4096x4_S4096x4x1_0_1),
    binary main_v428 main_v432 main_v433 subf,
    unary main_v433 main_v434 Host.exp,
    nullary main_cst_37 (constant S_ .f32 0x00000000#32),
    binary main_v434 main_cst_37 main_v435 (fun x v => Host.reduceAdd x v reducesTo_S4096x4x1_S4096x4_d2 h_S_),
    unary main_v435 main_v436 (broadcastInDim S4096x4x1 ![0, 1] bcast_S4096x4_S4096x4x1_0_1),
    binary main_v434 main_v436 main_v437 Host.divf,
    unary main_v437 main_v438 (broadcastInDim S4096x4x192 ![0, 1, 2] bcast_S4096x4x1_S4096x4x192_0_1_2),
    binary main_v438 main_v422 main_v439 mulf,
    reshape main_v439 main_v440 rfl shapeCasts_S4096x4x192_S4096x768 ]

def win8 : List (HloOp τ sig (Elt F)) :=
  [ unary main_v396 main_v441 (transpose S768x768 [1, 0] · transposes_S768x768_S768x768_1_0),
    binary main_v440 main_v441 main_v442 (fun l r => Host.dotGeneral dot_S4096x768_S768x768_S4096x768_1_0_0_1_n_n none l r),
    unary main_v398 main_v443 (broadcastInDim S1x768 ![1] bcast_S768_S1x768_1),
    unary main_v443 main_v444 (broadcastInDim S4096x768 ![0, 1] bcast_S1x768_S4096x768_0_1),
    binary main_v442 main_v444 main_v445 addf,
    binary main_v445 main_v390 main_v446 addf,
    unary main_arg11 main_v447 (extractStridedSlice S1x768 ![2, 0] · slices_S4x768_S1x768_2_0),
    reshape main_v447 main_v448 rfl shapeCasts_S1x768_S768,
    unary main_arg12 main_v449 (extractStridedSlice S1x768 ![2, 0] · slices_S4x768_S1x768_2_0),
    reshape main_v449 main_v450 rfl shapeCasts_S1x768_S768,
    nullary main_cst_38 (constant S_ .f32 0x3F7FFFAC#32),
    unary main_cst_38 main_v451 (broadcastInDim S768 ![] bcast_S_S768),
    binary main_v448 main_v451 main_v452 mulf,
    unary main_v452 main_v453 (broadcastInDim S1x768 ![1] bcast_S768_S1x768_1),
    unary main_v453 main_v454 (broadcastInDim S4096x768 ![0, 1] bcast_S1x768_S4096x768_0_1),
    binary main_v446 main_v454 main_v455 mulf,
    unary main_v450 main_v456 (broadcastInDim S1x768 ![1] bcast_S768_S1x768_1),
    unary main_v456 main_v457 (broadcastInDim S4096x768 ![0, 1] bcast_S1x768_S4096x768_0_1),
    binary main_v455 main_v457 main_v458 addf,
    unary main_arg7 main_v459 (extractStridedSlice S1x2304x768 ![3, 0, 0] · slices_S4x2304x768_S1x2304x768_3_0_0),
    reshape main_v459 main_v460 rfl shapeCasts_S1x2304x768_S2304x768,
    unary main_arg8 main_v461 (extractStridedSlice S1x2304 ![3, 0] · slices_S4x2304_S1x2304_3_0),
    reshape main_v461 main_v462 rfl shapeCasts_S1x2304_S2304,
    unary main_arg9 main_v463 (extractStridedSlice S1x768x768 ![3, 0, 0] · slices_S4x768x768_S1x768x768_3_0_0),
    reshape main_v463 main_v464 rfl shapeCasts_S1x768x768_S768x768,
    unary main_arg10 main_v465 (extractStridedSlice S1x768 ![3, 0] · slices_S4x768_S1x768_3_0),
    reshape main_v465 main_v466 rfl shapeCasts_S1x768_S768,
    unary main_v460 main_v467 (extractStridedSlice S768x768 ![0, 0] · slices_S2304x768_S768x768_0_0),
    unary main_v460 main_v468 (extractStridedSlice S768x768 ![768, 0] · slices_S2304x768_S768x768_768_0),
    unary main_v460 main_v469 (extractStridedSlice S768x768 ![1536, 0] · slices_S2304x768_S768x768_1536_0),
    unary main_v462 main_v470 (extractStridedSlice S768 ![0] · slices_S2304_S768_0),
    unary main_v462 main_v471 (extractStridedSlice S768 ![768] · slices_S2304_S768_768),
    unary main_v462 main_v472 (extractStridedSlice S768 ![1536] · slices_S2304_S768_1536),
    unary main_v467 main_v473 (transpose S768x768 [1, 0] · transposes_S768x768_S768x768_1_0),
    binary main_v458 main_v473 main_v474 (fun l r => Host.dotGeneral dot_S4096x768_S768x768_S4096x768_1_0_0_1_n_n none l r),
    unary main_v470 main_v475 (broadcastInDim S1x768 ![1] bcast_S768_S1x768_1),
    unary main_v475 main_v476 (broadcastInDim S4096x768 ![0, 1] bcast_S1x768_S4096x768_0_1),
    binary main_v474 main_v476 main_v477 addf,
    reshape main_v477 main_v478 rfl shapeCasts_S4096x768_S4096x4x192,
    unary main_v468 main_v479 (transpose S768x768 [1, 0] · transposes_S768x768_S768x768_1_0),
    binary main_v267 main_v479 main_v480 (fun l r => Host.dotGeneral dot_S4096x768_S768x768_S4096x768_1_0_0_1_n_n none l r),
    unary main_v471 main_v481 (broadcastInDim S1x768 ![1] bcast_S768_S1x768_1),
    unary main_v481 main_v482 (broadcastInDim S4096x768 ![0, 1] bcast_S1x768_S4096x768_0_1),
    binary main_v480 main_v482 main_v483 addf,
    reshape main_v483 main_v484 rfl shapeCasts_S4096x768_S4096x4x192,
    unary main_v469 main_v485 (transpose S768x768 [1, 0] · transposes_S768x768_S768x768_1_0),
    binary main_v267 main_v485 main_v486 (fun l r => Host.dotGeneral dot_S4096x768_S768x768_S4096x768_1_0_0_1_n_n none l r),
    unary main_v472 main_v487 (broadcastInDim S1x768 ![1] bcast_S768_S1x768_1),
    unary main_v487 main_v488 (broadcastInDim S4096x768 ![0, 1] bcast_S1x768_S4096x768_0_1),
    binary main_v486 main_v488 main_v489 addf,
    reshape main_v489 main_v490 rfl shapeCasts_S4096x768_S4096x4x192,
    binary main_v478 main_v484 main_v491 mulf,
    nullary main_cst_39 (constant S_ .f32 0x00000000#32),
    binary main_v491 main_cst_39 main_v492 (fun x v => Host.reduceAdd x v reducesTo_S4096x4x192_S4096x4_d2 h_S_),
    unary main_v492 main_v493 (broadcastInDim S4096x4x1 ![0, 1] bcast_S4096x4_S4096x4x1_0_1),
    nullary main_cst_40 (constant S_ .f32 0x43400000#32),
    unary main_cst_40 main_v494 Host.sqrt,
    unary main_v494 main_v495 (broadcastInDim S4096x4x1 ![] bcast_S_S4096x4x1),
    binary main_v493 main_v495 main_v496 Host.divf,
    nullary main_cst_41 (constant S_ .f32 0xFF800000#32) ]

def win9 : List (HloOp τ sig (Elt F)) :=
  [ binary main_v496 main_cst_41 main_v497 (fun x v => Host.reduce FloatOps.maximumf x v reducesTo_S4096x4x1_S4096x4_d2 h_S_),
    nullary main_cst_42 (constant S_ .f32 0xFF800000#32),
    unary main_cst_42 main_v498 (broadcastInDim S4096x4 ![] bcast_S_S4096x4),
    binary main_v498 main_v497 main_v499 maximumf,
    unary main_v499 main_v500 (broadcastInDim S4096x4x1 ![0, 1] bcast_S4096x4_S4096x4x1_0_1),
    binary main_v496 main_v500 main_v501 subf,
    unary main_v501 main_v502 Host.exp,
    nullary main_cst_43 (constant S_ .f32 0x00000000#32),
    binary main_v502 main_cst_43 main_v503 (fun x v => Host.reduceAdd x v reducesTo_S4096x4x1_S4096x4_d2 h_S_),
    unary main_v503 main_v504 (broadcastInDim S4096x4x1 ![0, 1] bcast_S4096x4_S4096x4x1_0_1),
    binary main_v502 main_v504 main_v505 Host.divf,
    unary main_v505 main_v506 (broadcastInDim S4096x4x192 ![0, 1, 2] bcast_S4096x4x1_S4096x4x192_0_1_2),
    binary main_v506 main_v490 main_v507 mulf,
    reshape main_v507 main_v508 rfl shapeCasts_S4096x4x192_S4096x768,
    unary main_v464 main_v509 (transpose S768x768 [1, 0] · transposes_S768x768_S768x768_1_0),
    binary main_v508 main_v509 main_v510 (fun l r => Host.dotGeneral dot_S4096x768_S768x768_S4096x768_1_0_0_1_n_n none l r),
    unary main_v466 main_v511 (broadcastInDim S1x768 ![1] bcast_S768_S1x768_1),
    unary main_v511 main_v512 (broadcastInDim S4096x768 ![0, 1] bcast_S1x768_S4096x768_0_1),
    binary main_v510 main_v512 main_v513 addf,
    binary main_v513 main_v458 main_v514 addf,
    unary main_arg11 main_v515 (extractStridedSlice S1x768 ![3, 0] · slices_S4x768_S1x768_3_0),
    reshape main_v515 main_v516 rfl shapeCasts_S1x768_S768,
    unary main_arg12 main_v517 (extractStridedSlice S1x768 ![3, 0] · slices_S4x768_S1x768_3_0),
    reshape main_v517 main_v518 rfl shapeCasts_S1x768_S768,
    nullary main_cst_44 (constant S_ .f32 0x3F7FFFAC#32),
    unary main_cst_44 main_v519 (broadcastInDim S768 ![] bcast_S_S768),
    binary main_v516 main_v519 main_v520 mulf,
    unary main_v520 main_v521 (broadcastInDim S1x768 ![1] bcast_S768_S1x768_1),
    unary main_v521 main_v522 (broadcastInDim S4096x768 ![0, 1] bcast_S1x768_S4096x768_0_1),
    binary main_v514 main_v522 main_v523 mulf,
    unary main_v518 main_v524 (broadcastInDim S1x768 ![1] bcast_S768_S1x768_1),
    unary main_v524 main_v525 (broadcastInDim S4096x768 ![0, 1] bcast_S1x768_S4096x768_0_1),
    binary main_v523 main_v525 main_v526 addf,
    nary ![main_v322, main_v390, main_v458, main_v526] main_v527 (fun u => concatenate S4096x3072 1 [⟨S4096x768, u 0⟩, ⟨S4096x768, u 1⟩, ⟨S4096x768, u 2⟩, ⟨S4096x768, u 3⟩] concatenates_S4096x768_S4096x768_S4096x768_S4096x768_S4096x3072_d1),
    binary main_v263 main_v527 main_v528 (fun a b => concatenate S4096x6144 1 [⟨S4096x3072, a⟩, ⟨S4096x3072, b⟩] concatenates_S4096x3072_S4096x3072_S4096x6144_d1),
    unary main_arg13 main_v529 (transpose S6144x512 [1, 0] · transposes_S512x6144_S6144x512_1_0),
    binary main_v528 main_v529 main_v530 (fun l r => Host.dotGeneral dot_S4096x6144_S6144x512_S4096x512_1_0_0_1_n_n none l r),
    unary main_arg14 main_v531 (broadcastInDim S1x512 ![1] bcast_S512_S1x512_1),
    unary main_v531 main_v532 (broadcastInDim S4096x512 ![0, 1] bcast_S1x512_S4096x512_0_1),
    binary main_v530 main_v532 main_v533 addf,
    TRef.nullary main_call0.cst (constant S_ .f32 0x00000000#32),
    TRef.unary main_call0.cst main_call0.v0 (broadcastInDim S4096x512 ![] bcast_S_S4096x512),
    TRef.binary (.of main_v533) main_call0.v0 main_call0.v1 maximumf,
    nullary main_cst_45 (constant S_ .f32 0x3F7FFFAC#32),
    unary main_cst_45 main_v535 (broadcastInDim S512 ![] bcast_S_S512),
    binary main_arg15 main_v535 main_v536 mulf,
    unary main_v536 main_v537 (broadcastInDim S1x512 ![1] bcast_S512_S1x512_1),
    unary main_v537 main_v538 (broadcastInDim S4096x512 ![0, 1] bcast_S1x512_S4096x512_0_1),
    binary main_v534 main_v538 main_v539 mulf,
    unary main_arg16 main_v540 (broadcastInDim S1x512 ![1] bcast_S512_S1x512_1),
    unary main_v540 main_v541 (broadcastInDim S4096x512 ![0, 1] bcast_S1x512_S4096x512_0_1),
    binary main_v539 main_v541 main_v542 addf,
    unary main_arg17 main_v543 (transpose S512x128 [1, 0] · transposes_S128x512_S512x128_1_0),
    binary main_v542 main_v543 main_v544 (fun l r => Host.dotGeneral dot_S4096x512_S512x128_S4096x128_1_0_0_1_n_n none l r),
    unary main_arg18 main_v545 (broadcastInDim S1x128 ![1] bcast_S128_S1x128_1),
    unary main_v545 main_v546 (broadcastInDim S4096x128 ![0, 1] bcast_S1x128_S4096x128_0_1),
    binary main_v544 main_v546 main_v547 addf,
    TRef.nullary main_call1.cst (constant S_ .f32 0x00000000#32),
    TRef.unary main_call1.cst main_call1.v0 (broadcastInDim S4096x128 ![] bcast_S_S4096x128),
    TRef.binary (.of main_v547) main_call1.v0 main_call1.v1 maximumf,
    nullary main_cst_46 (constant S_ .f32 0x3F7FFFAC#32),
    unary main_cst_46 main_v549 (broadcastInDim S128 ![] bcast_S_S128),
    binary main_arg19 main_v549 main_v550 mulf,
    unary main_v550 main_v551 (broadcastInDim S1x128 ![1] bcast_S128_S1x128_1) ]

def win10 : List (HloOp τ sig (Elt F)) :=
  [ unary main_v551 main_v552 (broadcastInDim S4096x128 ![0, 1] bcast_S1x128_S4096x128_0_1),
    binary main_v548 main_v552 main_v553 mulf,
    unary main_arg20 main_v554 (broadcastInDim S1x128 ![1] bcast_S128_S1x128_1),
    unary main_v554 main_v555 (broadcastInDim S4096x128 ![0, 1] bcast_S1x128_S4096x128_0_1),
    binary main_v553 main_v555 main_v556 addf,
    unary main_arg21 main_v557 (transpose S128x1 [1, 0] · transposes_S1x128_S128x1_1_0),
    binary main_v556 main_v557 main_v558 (fun l r => Host.dotGeneral dot_S4096x128_S128x1_S4096x1_1_0_0_1_n_n none l r),
    unary main_arg22 main_v559 (broadcastInDim S1x1 ![1] bcast_S1_S1x1_1),
    unary main_v559 main_v560 (broadcastInDim S4096x1 ![0, 1] bcast_S1x1_S4096x1_0_1),
    binary main_v558 main_v560 main_v561 addf ]

end Cert.ReferenceIdeal.RunH

end
-- ==== Proof.RRun.lean ====
import proofs.«172500_j1709396984333_1_alg».proof.Proof.RDefs
import proofs.«172500_j1709396984333_1_alg».proof.Proof.ROps
import Idealize.ShloMosaic.Lib.Pipeline.Regions

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

def allOps : List (HloOp τ sig (Elt F)) := win0 ++ (win1 ++ (win2 ++ (win3 ++ (win4 ++ (win5 ++ (win6 ++ (win7 ++ (win8 ++ (win9 ++ (win10))))))))))

/-- The printed program is the same operations in the same order: both sides unfold to one chain of steps. -/
theorem main_eq (c : Dev nD) : main (F := F) c = seq allOps := by chain_rfl

theorem win0_sub : (win0 : List (HloOp τ sig (Elt F))).Forall fun op => op.bufs ⊆ tcRefs τ sig := by
  unfold win0
  repeat' apply And.intro
  all_goals first
    | with_reducible exact unary_bufs_sub .. | with_reducible exact binary_bufs_sub .. | with_reducible exact reshape_bufs_sub ..
    | with_reducible exact nullary_bufs_sub .. | with_reducible exact nary_bufs_sub ..
    | exact reshape_bufs_sub .. | exact nullary_bufs_sub .. | exact unary_bufs_sub .. | exact binary_bufs_sub ..

theorem win1_sub : (win1 : List (HloOp τ sig (Elt F))).Forall fun op => op.bufs ⊆ tcRefs τ sig := by
  unfold win1
  repeat' apply And.intro
  all_goals first
    | with_reducible exact unary_bufs_sub .. | with_reducible exact binary_bufs_sub .. | with_reducible exact reshape_bufs_sub ..
    | with_reducible exact nullary_bufs_sub .. | with_reducible exact nary_bufs_sub ..
    | exact reshape_bufs_sub .. | exact nullary_bufs_sub .. | exact unary_bufs_sub .. | exact binary_bufs_sub ..

theorem win2_sub : (win2 : List (HloOp τ sig (Elt F))).Forall fun op => op.bufs ⊆ tcRefs τ sig := by
  unfold win2
  repeat' apply And.intro
  all_goals first
    | with_reducible exact unary_bufs_sub .. | with_reducible exact binary_bufs_sub .. | with_reducible exact reshape_bufs_sub ..
    | with_reducible exact nullary_bufs_sub .. | with_reducible exact nary_bufs_sub ..
    | exact reshape_bufs_sub .. | exact nullary_bufs_sub .. | exact unary_bufs_sub .. | exact binary_bufs_sub ..

theorem win3_sub : (win3 : List (HloOp τ sig (Elt F))).Forall fun op => op.bufs ⊆ tcRefs τ sig := by
  unfold win3
  repeat' apply And.intro
  all_goals first
    | with_reducible exact unary_bufs_sub .. | with_reducible exact binary_bufs_sub .. | with_reducible exact reshape_bufs_sub ..
    | with_reducible exact nullary_bufs_sub .. | with_reducible exact nary_bufs_sub ..
    | exact reshape_bufs_sub .. | exact nullary_bufs_sub .. | exact unary_bufs_sub .. | exact binary_bufs_sub ..

theorem win4_sub : (win4 : List (HloOp τ sig (Elt F))).Forall fun op => op.bufs ⊆ tcRefs τ sig := by
  unfold win4
  repeat' apply And.intro
  all_goals first
    | with_reducible exact unary_bufs_sub .. | with_reducible exact binary_bufs_sub .. | with_reducible exact reshape_bufs_sub ..
    | with_reducible exact nullary_bufs_sub .. | with_reducible exact nary_bufs_sub ..
    | exact reshape_bufs_sub .. | exact nullary_bufs_sub .. | exact unary_bufs_sub .. | exact binary_bufs_sub ..

theorem win5_sub : (win5 : List (HloOp τ sig (Elt F))).Forall fun op => op.bufs ⊆ tcRefs τ sig := by
  unfold win5
  repeat' apply And.intro
  all_goals first
    | with_reducible exact unary_bufs_sub .. | with_reducible exact binary_bufs_sub .. | with_reducible exact reshape_bufs_sub ..
    | with_reducible exact nullary_bufs_sub .. | with_reducible exact nary_bufs_sub ..
    | exact reshape_bufs_sub .. | exact nullary_bufs_sub .. | exact unary_bufs_sub .. | exact binary_bufs_sub ..

theorem win6_sub : (win6 : List (HloOp τ sig (Elt F))).Forall fun op => op.bufs ⊆ tcRefs τ sig := by
  unfold win6
  repeat' apply And.intro
  all_goals first
    | with_reducible exact unary_bufs_sub .. | with_reducible exact binary_bufs_sub .. | with_reducible exact reshape_bufs_sub ..
    | with_reducible exact nullary_bufs_sub .. | with_reducible exact nary_bufs_sub ..
    | exact reshape_bufs_sub .. | exact nullary_bufs_sub .. | exact unary_bufs_sub .. | exact binary_bufs_sub ..

theorem win7_sub : (win7 : List (HloOp τ sig (Elt F))).Forall fun op => op.bufs ⊆ tcRefs τ sig := by
  unfold win7
  repeat' apply And.intro
  all_goals first
    | with_reducible exact unary_bufs_sub .. | with_reducible exact binary_bufs_sub .. | with_reducible exact reshape_bufs_sub ..
    | with_reducible exact nullary_bufs_sub .. | with_reducible exact nary_bufs_sub ..
    | exact reshape_bufs_sub .. | exact nullary_bufs_sub .. | exact unary_bufs_sub .. | exact binary_bufs_sub ..

theorem win8_sub : (win8 : List (HloOp τ sig (Elt F))).Forall fun op => op.bufs ⊆ tcRefs τ sig := by
  unfold win8
  repeat' apply And.intro
  all_goals first
    | with_reducible exact unary_bufs_sub .. | with_reducible exact binary_bufs_sub .. | with_reducible exact reshape_bufs_sub ..
    | with_reducible exact nullary_bufs_sub .. | with_reducible exact nary_bufs_sub ..
    | exact reshape_bufs_sub .. | exact nullary_bufs_sub .. | exact unary_bufs_sub .. | exact binary_bufs_sub ..

theorem win9_sub : (win9 : List (HloOp τ sig (Elt F))).Forall fun op => op.bufs ⊆ tcRefs τ sig := by
  unfold win9
  repeat' apply And.intro
  all_goals first
    | with_reducible exact unary_bufs_sub .. | with_reducible exact binary_bufs_sub .. | with_reducible exact reshape_bufs_sub ..
    | with_reducible exact nullary_bufs_sub .. | with_reducible exact nary_bufs_sub ..
    | exact reshape_bufs_sub .. | exact nullary_bufs_sub .. | exact unary_bufs_sub .. | exact binary_bufs_sub ..

theorem win10_sub : (win10 : List (HloOp τ sig (Elt F))).Forall fun op => op.bufs ⊆ tcRefs τ sig := by
  unfold win10
  repeat' apply And.intro
  all_goals first
    | with_reducible exact unary_bufs_sub .. | with_reducible exact binary_bufs_sub .. | with_reducible exact reshape_bufs_sub ..
    | with_reducible exact nullary_bufs_sub .. | with_reducible exact nary_bufs_sub ..
    | exact reshape_bufs_sub .. | exact nullary_bufs_sub .. | exact unary_bufs_sub .. | exact binary_bufs_sub ..

theorem allOps_sub : (allOps : List (HloOp τ sig (Elt F))).Forall fun op => op.bufs ⊆ tcRefs τ sig := by
  simp only [allOps, List.forall_append]
  exact ⟨win0_sub, win1_sub, win2_sub, win3_sub, win4_sub, win5_sub, win6_sub, win7_sub, win8_sub, win9_sub, win10_sub⟩

theorem allOps_fresh : (allOps : List (HloOp τ sig (Elt F))).Forall fun op => op.fresh = ∅ := by
  simp only [allOps, List.forall_append]
  unfold win0 win1 win2 win3 win4 win5 win6 win7 win8 win9 win10
  repeat' apply And.intro
  all_goals rfl

abbrev argsL : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

/-- Composing the operations' results in program order IS refOut of the arguments: the same operations, grouped. -/
theorem allOps_val (V : Valuation τ sig (Elt F)) : after allOps V (Proc.devRef .tc main_v561) = Chain.refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) := by
  chain_rfl

/-- No operation writes an argument. -/
theorem allOps_arg (V : Valuation τ sig (Elt F)) : argsL.Forall fun a => after allOps V (Proc.devRef .tc a) = V (Proc.devRef .tc a) := by
  repeat' apply And.intro
  all_goals (show _ = _; chain_rfl)

/-- Every weakly fair execution terminates with the result buffer at refOut of the arguments and the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v561) = Chain.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ ∀ a ∈ argsL, r.2.mem ((c.tc : Thread nD τ).loc a) = m ((c.tc : Thread nD τ).loc a) :=
  (θ_run defs _ _).mono (fun _ h c => ⟨(h c main_v561).trans (allOps_val _),
      fun a ha => (h c a).trans (List.forall_iff_forall_mem.mp (allOps_arg _) a ha)⟩)
    (run_seq (by decide) (by decide) defs main (fun _ => allOps) main_eq (fun _ => allOps_sub) m ρ
      (fun _ => List.forall_iff_forall_mem.mp allOps_fresh))

end Cert.ReferenceIdeal.RunH

end
-- ==== Proof.RAttn.lean ====
import proofs.«172500_j1709396984333_1_alg».proof.ReferenceIdeal
import proofs.«172500_j1709396984333_1_alg».proof.Proof.Gen.ReferenceIdeal
import proofs.«172500_j1709396984333_1_alg».proof.Proof.Spec
import proofs.«172500_j1709396984333_1_alg».proof.Proof.RDefs
import proofs.«172500_j1709396984333_1_alg».proof.Proof.Idx

noncomputable section

namespace Cert.ReferenceIdeal.Chain

open Cert.ReferenceIdeal Cert.ReferenceIdeal.Gen Idealize.ShloMosaic Idealize.ShloMosaic.TcCoe Idealize.ShloMosaic.ValueIdx Cert.Spec Cert.Idx

variable {F : FTy → Type} [FloatOps F]

private theorem proj_apply (x : FVec Ideal S4096x768 .f32) (W : FVec Ideal S768x768 .f32) (b : FVec Ideal S768 .f32)
    (r : Fin 4096) (e : Fin 768) :
    proj (F := Ideal) x W b (ix2 r e) = (∑ k : Fin 768, x (ix2 r k) * W (ix2 e k)) + b (ix1 e) := by
  unfold proj
  rw [addf_apply, dot_apply dot_S4096x768_S768x768_S4096x768_1_0_0_1_n_n rfl, bcastRow_apply]
  refine congrArg (· + b (ix1 e)) (Finset.sum_congr rfl fun k _ => ?_)
  rw [tr_apply]

private theorem proj_isReal {x : FVec Ideal S4096x768 .f32} {W : FVec Ideal S768x768 .f32} {b : FVec Ideal S768 .f32}
    (hx : ∀ i, IsReal (x i)) (hW : ∀ i, IsReal (W i)) (hb : ∀ i, IsReal (b i)) (i : S4096x768.Idx) :
    IsReal (proj (F := Ideal) x W b i) := by
  obtain ⟨r, e, rfl⟩ : ∃ (r : Fin 4096) (e : Fin 768), i = ix2 r e := ⟨i 0, i 1, eq_ix2 i⟩
  rw [proj_apply]
  exact (IsReal.sum _ _ fun k _ => (hx _).mul (hW _)).add (hb _)

private theorem vslice_apply {α : Type} (Win : S2304x768.Idx → α) (k j : Fin 768) :
    extractStridedSlice S768x768 ![1536, 0] Win slices_S2304x768_S768x768_1536_0 (ix2 k j) = Win (ix2 (Spec.vrow k) j) :=
  extractStridedSlice_apply ![1536, 0] Win slices_S2304x768_S768x768_1536_0 (ix2 k j) (ix2 (Spec.vrow k) j) (fun a => match a with
    | ⟨0, _⟩ => by show 1536 + k.val = 1536 + k.val; rfl
    | ⟨1, _⟩ => by show j.val = 0 + j.val; omega)

private theorem vbias_apply {α : Type} (bin : S2304.Idx → α) (k : Fin 768) :
    extractStridedSlice S768 ![1536] bin slices_S2304_S768_1536 (ix1 k) = bin (ix1 (Spec.vrow k)) :=
  extractStridedSlice_apply ![1536] bin slices_S2304_S768_1536 (ix1 k) (ix1 (Spec.vrow k)) (fun a => match a with
    | ⟨0, _⟩ => by show 1536 + k.val = 1536 + k.val; rfl)

private theorem slice_isReal {s t : Shape} {off : Fin s.rank → Nat} {x : s.Idx → EReal} (h : s.Slices off t)
    (hx : ∀ i, IsReal (x i)) (j : t.Idx) : IsReal (extractStridedSlice t off x h j) := by
  unfold extractStridedSlice
  exact hx _

private theorem heads_apply (x : FVec Ideal S4096x768 .f32) (r : Fin 4096) (h : Fin 4) (d : Fin 192) :
    heads (F := Ideal) x (ix3 r h d) = x (ix2 r ⟨h.val * 192 + d.val, by omega⟩) := by
  unfold heads
  exact shapeCast_apply x shapeCasts_S4096x768_S4096x4x192 (ix3 r h d) (ix2 r ⟨h.val * 192 + d.val, by omega⟩) (by
    rewrite [Shape.rowMajor_val_two, Shape.rowMajor_val_three]
    show r.val * 768 + (h.val * 192 + d.val) = (r.val * 4 + h.val) * 192 + d.val
    omega)

private theorem heads_isReal {x : FVec Ideal S4096x768 .f32} (hx : ∀ i, IsReal (x i)) (i : S4096x4x192.Idx) :
    IsReal (heads (F := Ideal) x i) := by
  unfold heads shapeCast
  exact hx _

private theorem unheads_apply {α : Type} (y : S4096x4x192.Idx → α) (r : Fin 4096) (k : Fin 768) :
    shapeCast S4096x768 y shapeCasts_S4096x4x192_S4096x768 (ix2 r k)
      = y (ix3 r (⟨k.val / 192, by omega⟩ : Fin 4) (⟨k.val % 192, by omega⟩ : Fin 192)) :=
  shapeCast_apply y shapeCasts_S4096x4x192_S4096x768 (ix2 r k) (ix3 r (⟨k.val / 192, by omega⟩ : Fin 4) (⟨k.val % 192, by omega⟩ : Fin 192)) (by
    rewrite [Shape.rowMajor_val_three, Shape.rowMajor_val_two]
    show (r.val * 4 + k.val / 192) * 192 + k.val % 192 = r.val * 768 + k.val
    omega)

private theorem heads_unheads (x : FVec Ideal S4096x768 .f32) (r : Fin 4096) (k : Fin 768) :
    heads (F := Ideal) x (ix3 r (⟨k.val / 192, by omega⟩ : Fin 4) (⟨k.val % 192, by omega⟩ : Fin 192)) = x (ix2 r k) := by
  rw [heads_apply]
  exact congrArg (fun c => x (ix2 r c)) (Fin.ext (by show k.val / 192 * 192 + k.val % 192 = k.val; omega))

private theorem keep_apply {α : Type} (y : S4096x4.Idx → α) (r : Fin 4096) (h : Fin 4) (z : Fin 1) :
    broadcastInDim S4096x4x1 ![0, 1] bcast_S4096x4_S4096x4x1_0_1 y (ix3 r h z) = y (ix2 r h) :=
  broadcastInDim_apply _ bcast_S4096x4_S4096x4x1_0_1 y (ix3 r h z) (ix2 r h) (fun a => match a with
    | ⟨0, _⟩ => by show r.val = if (4096 : Nat) = 1 then 0 else r.val; rw [if_neg (by decide)]
    | ⟨1, _⟩ => by show h.val = if (4 : Nat) = 1 then 0 else h.val; rw [if_neg (by decide)])

private theorem sum192_apply (x : FVec Ideal S4096x4x192 .f32) (c : FVec Ideal S_ .f32) (r : Fin 4096) (h : Fin 4) :
    Host.reduceAdd (F := Ideal) x c reducesTo_S4096x4x192_S4096x4_d2 h_S_ (ix2 r h) = c ix0 + ∑ d : Fin 192, x (ix3 r h d) := by
  simp only [Host.reduceAdd, Ideal.hostReduceAdd_def]
  rw [Ideal.hostReduceAdd_single reducesTo_S4096x4x192_S4096x4_d2 (by decide)]
  refine congrArg₂ (· + ·) (congrArg c (eq_ix0 _)) (Finset.sum_congr rfl fun k _ => ?_)
  exact congrArg x (funext fun a => Fin.ext (by match a with | ⟨0, _⟩ => rfl | ⟨1, _⟩ => rfl | ⟨2, _⟩ => rfl))

private theorem sum1_apply (x : FVec Ideal S4096x4x1 .f32) (c : FVec Ideal S_ .f32) (r : Fin 4096) (h : Fin 4) :
    Host.reduceAdd (F := Ideal) x c reducesTo_S4096x4x1_S4096x4_d2 h_S_ (ix2 r h) = c ix0 + ∑ d : Fin 1, x (ix3 r h d) := by
  simp only [Host.reduceAdd, Ideal.hostReduceAdd_def]
  rw [Ideal.hostReduceAdd_single reducesTo_S4096x4x1_S4096x4_d2 (by decide)]
  refine congrArg₂ (· + ·) (congrArg c (eq_ix0 _)) (Finset.sum_congr rfl fun k _ => ?_)
  exact congrArg x (funext fun a => Fin.ext (by match a with | ⟨0, _⟩ => rfl | ⟨1, _⟩ => rfl | ⟨2, _⟩ => rfl))

private theorem fold_fin1 {α : Type} (op : α → α → α) [Std.Commutative op] [Std.Associative op] (b : α) (f : Fin 1 → α) :
    (Finset.univ : Finset (Fin 1)).fold op b f = op (f 0) b := by
  rw [Finset.univ_unique, Finset.fold_singleton]
  rfl

private theorem max1_apply (x : FVec Ideal S4096x4x1 .f32) (c : FVec Ideal S_ .f32) (r : Fin 4096) (h : Fin 4) :
    Host.reduce (FloatOps.maximumf (F := Ideal) (φ := .f32)) x c reducesTo_S4096x4x1_S4096x4_d2 h_S_ (ix2 r h)
      = max (x (ix3 r h 0)) (c ix0) := by
  have hR : S4096x4x1.Reduces [2] S4096x4 := by decide
  rw [Host.reduce_eq_fold_single FloatOps.maximumf x c reducesTo_S4096x4x1_S4096x4_d2 hR h_S_]
  refine (fold_fin1 FloatOps.maximumf (c (Shape.Idx.first h_S_)) (x ∘ hR.lift (ix2 r h))).trans ?_
  refine congrArg₂ max (congrArg x (funext fun a => Fin.ext (by match a with | ⟨0, _⟩ => rfl | ⟨1, _⟩ => rfl | ⟨2, _⟩ => rfl))) (congrArg c (eq_ix0 _))

private theorem lit192 : Ideal.ofBits .f32 0x43400000#32 = ((192 : ℝ) : EReal) := by
  simp [Ideal.ofBits, Ideal.ieee, -EReal.coe_mul]; norm_num

private theorem litNegInf : Ideal.ofBits .f32 0xFF800000#32 = ⊥ := by
  simp [Ideal.ofBits, Ideal.ieee]

private theorem score_apply (qh kh : FVec Ideal S4096x4x192 .f32) (r : Fin 4096) (h : Fin 4) (z : Fin 1) :
    score (F := Ideal) qh kh (ix3 r h z)
      = (0 + ∑ d : Fin 192, qh (ix3 r h d) * kh (ix3 r h d)) * ((1 / Real.sqrt 192 : ℝ) : EReal) := by
  unfold score
  simp only [Host.divf, Ideal.hostDivf_def]
  rw [keep_apply, bcastScalar_apply, sum192_apply]
  simp only [Host.sqrt, Ideal.hostUnary_sqrt_def, constant_apply]
  rw [Ideal.ofBits_zero_f32, lit192, Ideal.sqrt_coe, if_neg (by norm_num), Ideal.div_coe (by positivity)]
  rfl

private theorem score_isReal {qh kh : FVec Ideal S4096x4x192 .f32} (hq : ∀ i, IsReal (qh i)) (hk : ∀ i, IsReal (kh i))
    (i : S4096x4x1.Idx) : IsReal (score (F := Ideal) qh kh i) := by
  obtain ⟨r, h, z, rfl⟩ : ∃ (r : Fin 4096) (h : Fin 4) (z : Fin 1), i = ix3 r h z := ⟨i 0, i 1, i 2, eq_ix3 i⟩
  rw [score_apply]
  exact (IsReal.zero.add (IsReal.sum _ _ fun d _ => (hq _).mul (hk _))).mul (IsReal.coe _)

/-- For a real score s: exp (s - max (-∞, s)) = exp 0 = 1. -/
private theorem sexp_one (s : FVec Ideal S4096x4x1 .f32) (hs : ∀ i, IsReal (s i)) (i : S4096x4x1.Idx) :
    sexp (F := Ideal) s i = 1 := by
  obtain ⟨r, h, z, rfl⟩ : ∃ (r : Fin 4096) (h : Fin 4) (z : Fin 1), i = ix3 r h z := ⟨i 0, i 1, i 2, eq_ix3 i⟩
  obtain rfl : z = 0 := Subsingleton.elim _ _
  unfold sexp
  simp only [Host.exp, Ideal.hostUnary_exp_def]
  rw [subf_apply, keep_apply, maximumf_apply, bcastScalar_apply, max1_apply, constant_apply, litNegInf]
  obtain ⟨a, ha⟩ := hs (ix3 r h 0)
  rw [ha, max_eq_left bot_le, max_eq_right bot_le, ← EReal.coe_sub, sub_self, Ideal.exp_coe, Real.exp_zero, EReal.coe_one]

private theorem div_one_one : Ideal.div 1 1 = 1 := by
  simp [Ideal.div]

private theorem softmax1_one (s : FVec Ideal S4096x4x1 .f32) (hs : ∀ i, IsReal (s i)) (i : S4096x4x1.Idx) :
    softmax1 (F := Ideal) s i = 1 := by
  obtain ⟨r, h, z, rfl⟩ : ∃ (r : Fin 4096) (h : Fin 4) (z : Fin 1), i = ix3 r h z := ⟨i 0, i 1, i 2, eq_ix3 i⟩
  unfold softmax1
  simp only [Host.divf, Ideal.hostDivf_def]
  rw [keep_apply, sum1_apply, constant_apply, Ideal.ofBits_zero_f32]
  simp only [sexp_one s hs]
  rw [Finset.sum_const, Finset.card_univ, Fintype.card_fin, one_smul, zero_add, div_one_one]

private theorem spread_apply {α : Type} (y : S4096x4x1.Idx → α) (r : Fin 4096) (h : Fin 4) (d : Fin 192) :
    broadcastInDim S4096x4x192 ![0, 1, 2] bcast_S4096x4x1_S4096x4x192_0_1_2 y (ix3 r h d) = y (ix3 r h (0 : Fin 1)) :=
  broadcastInDim_apply _ bcast_S4096x4x1_S4096x4x192_0_1_2 y (ix3 r h d) (ix3 r h (0 : Fin 1)) (fun a => match a with
    | ⟨0, _⟩ => by show r.val = if (4096 : Nat) = 1 then 0 else r.val; rw [if_neg (by decide)]
    | ⟨1, _⟩ => by show h.val = if (4 : Nat) = 1 then 0 else h.val; rw [if_neg (by decide)]
    | ⟨2, _⟩ => by show 0 = if (1 : Nat) = 1 then 0 else d.val; rw [if_pos rfl])

/-- With a real query, key-value input and input projection every score is real, its softmax over one entry is 1, and the layer is the value projection then the output projection. -/
theorem mha_apply (q kv : Vec Ideal S4096x768 .f32) (Win : Vec Ideal S2304x768 .f32) (bin : Vec Ideal S2304 .f32) (Wo : Vec Ideal S768x768 .f32) (bo : Vec Ideal S768 .f32)
    (hq : ∀ i, IsReal (q i)) (hkv : ∀ i, IsReal (kv i)) (hWin : ∀ i, IsReal (Win i)) (hbin : ∀ i, IsReal (bin i))
    (r : Fin 4096) (e : Fin 768) :
    mha (F := Ideal) q kv Win bin Wo bo (ix2 r e)
      = Spec.att (fun j => kv (ix2 r j)) (fun k j => Win (ix2 (Spec.vrow k) j)) (fun k => bin (ix1 (Spec.vrow k)))
          (fun e' k => Wo (ix2 e' k)) (fun e' => bo (ix1 e')) e := by
  have hs := score_isReal
    (heads_isReal (proj_isReal hq (slice_isReal slices_S2304x768_S768x768_0_0 hWin) (slice_isReal slices_S2304_S768_0 hbin)))
    (heads_isReal (proj_isReal hkv (slice_isReal slices_S2304x768_S768x768_768_0 hWin) (slice_isReal slices_S2304_S768_768 hbin)))
  unfold mha Spec.att
  rw [proj_apply]
  refine congrArg (· + bo (ix1 e)) (Finset.sum_congr rfl fun k _ => congrArg (· * Wo (ix2 e k)) ?_)
  rw [unheads_apply, mulf_apply, spread_apply, softmax1_one _ hs, one_mul, heads_unheads, proj_apply]
  refine congrArg₂ (· + ·) (Finset.sum_congr rfl fun j _ => ?_) (vbias_apply bin k)
  rw [vslice_apply]

end Cert.ReferenceIdeal.Chain

end
-- ==== Proof.RTail.lean ====
import proofs.«172500_j1709396984333_1_alg».proof.ReferenceIdeal
import proofs.«172500_j1709396984333_1_alg».proof.Proof.Gen.ReferenceIdeal
import proofs.«172500_j1709396984333_1_alg».proof.Proof.Spec
import proofs.«172500_j1709396984333_1_alg».proof.Proof.RDefs
import proofs.«172500_j1709396984333_1_alg».proof.Proof.Idx

noncomputable section

namespace Cert.ReferenceIdeal.Chain

open Cert.ReferenceIdeal Cert.ReferenceIdeal.Gen Idealize.ShloMosaic Idealize.ShloMosaic.TcCoe Idealize.ShloMosaic.ValueIdx Cert.Spec Cert.Idx

theorem resBn_apply (o prev : FVec Ideal S4096x768 .f32) (gl bl : FVec Ideal S768 .f32) (r : Fin 4096) (e : Fin 768) :
    resBn (F := Ideal) o prev gl bl (ix2 r e) = Spec.bn (o (ix2 r e) + prev (ix2 r e)) (gl (ix1 e)) (bl (ix1 e)) := by
  unfold resBn Spec.bn
  rw [addf_apply, mulf_apply, addf_apply, bcastRow_apply, bcastRow_apply, mulf_apply, bcastScalar_apply]
  rfl

/-- Four arrays of 768 columns side by side: column l · 768 + e of the whole is column e of the l-th. -/
private theorem cat4_apply (a : Fin 4 → FVec Ideal S4096x768 .f32) (r : Fin 4096) (c : Fin 3072) (l : Fin 4) (e : Fin 768)
    (hc : c.val = l.val * 768 + e.val) : concatenate S4096x3072 1 [⟨S4096x768, a 0⟩, ⟨S4096x768, a 1⟩, ⟨S4096x768, a 2⟩, ⟨S4096x768, a 3⟩] concatenates_S4096x768_S4096x768_S4096x768_S4096x768_S4096x3072_d1 (ix2 r c) = a l (ix2 r e) :=
  concatenate_apply_piece (t := S4096x3072) 1 [⟨S4096x768, a 0⟩, ⟨S4096x768, a 1⟩, ⟨S4096x768, a 2⟩, ⟨S4096x768, a 3⟩] _ (ix2 r c) l.val l.isLt S4096x768 (a l) (by fin_cases l <;> rfl) rfl (l.val * 768)
    (by fin_cases l <;> rfl) (ix2 r e) (fun b hb => match b with | ⟨0, _⟩ => rfl | ⟨1, _⟩ => absurd rfl hb)
    (by show l.val * 768 + e.val = c.val; omega)

/-- Where row r of the eight arrays is the two branches' cascades, row r of them side by side is Spec.hrow. -/
theorem hcat_row (p j : Fin 4 → FVec Ideal S4096x768 .f32) (P J : Spec.Branch) (r : Fin 4096)
    (hp : ∀ l e, p l (ix2 r e) = P.casc l e) (hj : ∀ l e, j l (ix2 r e) = J.casc l e) (q : Fin 6144) :
    hcat (F := Ideal) (p 0) (p 1) (p 2) (p 3) (j 0) (j 1) (j 2) (j 3) (ix2 r q) = Spec.hrow P J q := by
  unfold hcat Spec.hrow
  by_cases hq : q.val < 3072
  · rw [if_pos hq]
    refine (concatenate_pair_apply_left 1 _ _ concatenates_S4096x3072_S4096x3072_S4096x6144_d1 (ix2 r q) rfl (ix2 r ⟨q.val, hq⟩)
      (fun b => match b with | ⟨0, _⟩ => rfl | ⟨1, _⟩ => rfl)).trans ?_
    exact (cat4_apply p r ⟨q.val, hq⟩ _ _ (by show q.val = q.val / 768 % 4 * 768 + q.val % 768; omega)).trans (hp _ _)
  · rw [if_neg hq]
    have hq2 : q.val - 3072 < 3072 := by have := q.isLt; omega
    refine (concatenate_pair_apply_right 1 _ _ concatenates_S4096x3072_S4096x3072_S4096x6144_d1 (ix2 r q) rfl rfl (ix2 r ⟨q.val - 3072, hq2⟩)
      (fun b hb => match b with | ⟨0, _⟩ => rfl | ⟨1, _⟩ => absurd rfl hb) (by show q.val - 3072 + 3072 = q.val; omega)).trans ?_
    exact (cat4_apply j r ⟨q.val - 3072, hq2⟩ _ _ (by show q.val - 3072 = q.val / 768 % 4 * 768 + q.val % 768; have := q.isLt; omega)).trans (hj _ _)

/-- ReLU then the normalisation at (r, n): max(y, 0) · (g · β) + b. -/
private theorem reluBn512_apply (y : FVec Ideal S4096x512 .f32) (g be : FVec Ideal S512 .f32) (r : Fin 4096) (n : Fin 512) :
    reluBn512 (F := Ideal) y g be (ix2 r n) = Spec.bn (max (y (ix2 r n)) 0) (g (ix1 n)) (be (ix1 n)) := by
  unfold reluBn512 Spec.bn
  rw [addf_apply, mulf_apply, maximumf_apply, bcastRow_apply, bcastRow_apply, mulf_apply, bcastScalar_apply, bcastScalar_apply]
  exact congrArg (fun z => max (y (ix2 r n)) z * (g (ix1 n) * Spec.bnc) + be (ix1 n)) Ideal.ofBits_zero_f32

private theorem reluBn128_apply (y : FVec Ideal S4096x128 .f32) (g be : FVec Ideal S128 .f32) (r : Fin 4096) (n : Fin 128) :
    reluBn128 (F := Ideal) y g be (ix2 r n) = Spec.bn (max (y (ix2 r n)) 0) (g (ix1 n)) (be (ix1 n)) := by
  unfold reluBn128 Spec.bn
  rw [addf_apply, mulf_apply, maximumf_apply, bcastRow_apply, bcastRow_apply, mulf_apply, bcastScalar_apply, bcastScalar_apply]
  exact congrArg (fun z => max (y (ix2 r n)) z * (g (ix1 n) * Spec.bnc) + be (ix1 n)) Ideal.ofBits_zero_f32

/-- The perceptron at row r is Spec's head at row r of h: three products as sums, the sums agreeing term by term. -/
theorem mlp_apply (h : FVec Ideal S4096x6144 .f32) (W1 : FVec Ideal S512x6144 .f32) (b1 g1 be1 : FVec Ideal S512 .f32) (W2 : FVec Ideal S128x512 .f32) (b2 g2 be2 : FVec Ideal S128 .f32)
    (W3 : FVec Ideal S1x128 .f32) (b3 : FVec Ideal S1 .f32) (r : Fin 4096) :
    mlp (F := Ideal) h W1 b1 g1 be1 W2 b2 g2 be2 W3 b3 (ix2 r 0)
      = (Spec.headOf W1 b1 g1 be1 W2 b2 g2 be2 W3 b3).out (fun k => h (ix2 r k)) := by
  unfold mlp
  rw [addf_apply, dot_apply dot_S4096x128_S128x1_S4096x1_1_0_0_1_n_n rfl, bcastRow_apply]
  unfold Spec.Head.out
  refine congrArg₂ (· + ·) (Finset.sum_congr rfl fun k _ => ?_) rfl
  rw [reluBn128_apply, addf_apply, dot_apply dot_S4096x512_S512x128_S4096x128_1_0_0_1_n_n rfl, bcastRow_apply, tr_apply]
  unfold Spec.Head.a2
  refine congrArg (fun s => Spec.bn (max (s + b2 (ix1 k)) 0) (g2 (ix1 k)) (be2 (ix1 k)) * W3 (ix2 0 k)) (Finset.sum_congr rfl fun j _ => ?_)
  rw [tr_apply, reluBn512_apply, addf_apply, dot_apply dot_S4096x6144_S6144x512_S4096x512_1_0_0_1_n_n rfl, bcastRow_apply]
  unfold Spec.Head.a1
  refine congrArg (fun s => Spec.bn (max (s + b1 (ix1 j)) 0) (g1 (ix1 j)) (be1 (ix1 j)) * W2 (ix2 k j)) (Finset.sum_congr rfl fun i _ => ?_)
  rw [tr_apply]
  rfl

end Cert.ReferenceIdeal.Chain

end
-- ==== Proof.RGlue.lean ====
import proofs.«172500_j1709396984333_1_alg».proof.Proof.RAttn
import proofs.«172500_j1709396984333_1_alg».proof.Proof.RTail

noncomputable section

namespace Cert.ReferenceIdeal.Chain

open Cert.ReferenceIdeal Cert.ReferenceIdeal.Gen Idealize.ShloMosaic Idealize.ShloMosaic.TcCoe Idealize.ShloMosaic.ValueIdx Cert.Spec

private theorem fin4_cases (l : Fin 4) : l = 0 ∨ l = 1 ∨ l = 2 ∨ l = 3 := by revert l; decide

private theorem fin8_cases (k : Fin 8) : k = 0 ∨ k = 1 ∨ k = 2 ∨ k = 3 ∨ k = 4 ∨ k = 5 ∨ k = 6 ∨ k = 7 := by revert k; decide

private theorem colSlice_apply {α : Type} (x : S4096x6144.Idx → α) (off : Nat) (hs : S4096x6144.Slices ![0, off] S4096x768)
    (r : Fin 4096) (j : Fin 768) (c : Fin 6144) (hc : c.val = off + j.val) :
    extractStridedSlice S4096x768 ![0, off] x hs (ix2 r j) = x (ix2 r c) :=
  extractStridedSlice_apply ![0, off] x hs (ix2 r j) (ix2 r c) (fun a => match a with
    | ⟨0, _⟩ => by show r.val = 0 + r.val; omega
    | ⟨1, _⟩ => by show c.val = off + j.val; exact hc)

private theorem lead3_apply {α : Type} {n m : Nat} (W : (⟨3, ![4, n, m]⟩ : Shape).Idx → α) (o : Nat) (l : Fin 4) (hl : l.val = o)
    (hs : (⟨3, ![4, n, m]⟩ : Shape).Slices ![o, 0, 0] ⟨3, ![1, n, m]⟩) (hc : (⟨3, ![1, n, m]⟩ : Shape).ShapeCasts ⟨2, ![n, m]⟩)
    (a : Fin n) (b : Fin m) :
    shapeCast ⟨2, ![n, m]⟩ (extractStridedSlice ⟨3, ![1, n, m]⟩ ![o, 0, 0] W hs) hc (ix2 a b) = W (ix3 l a b) := by
  refine (shapeCast_apply _ hc (ix2 a b) (ix3 (0 : Fin 1) a b) (by
    rewrite [Shape.rowMajor_val_three, Shape.rowMajor_val_two]
    show (0 * n + a.val) * m + b.val = a.val * m + b.val
    rw [Nat.zero_mul, Nat.zero_add])).trans ?_
  exact extractStridedSlice_apply ![o, 0, 0] W hs (ix3 (0 : Fin 1) a b) (ix3 l a b) (fun c => match c with
    | ⟨0, _⟩ => by show l.val = o + 0; omega
    | ⟨1, _⟩ => by show a.val = 0 + a.val; omega
    | ⟨2, _⟩ => by show b.val = 0 + b.val; omega)

private theorem lead2_apply {α : Type} {n : Nat} (v : (⟨2, ![4, n]⟩ : Shape).Idx → α) (o : Nat) (l : Fin 4) (hl : l.val = o)
    (hs : (⟨2, ![4, n]⟩ : Shape).Slices ![o, 0] ⟨2, ![1, n]⟩) (hc : (⟨2, ![1, n]⟩ : Shape).ShapeCasts ⟨1, ![n]⟩) (a : Fin n) :
    shapeCast ⟨1, ![n]⟩ (extractStridedSlice ⟨2, ![1, n]⟩ ![o, 0] v hs) hc (ix1 a) = v (ix2 l a) := by
  refine (shapeCast_apply _ hc (ix1 a) (ix2 (0 : Fin 1) a) (by
    rewrite [Shape.rowMajor_val_two, Shape.rowMajor_val_one]
    show 0 * n + a.val = a.val
    rw [Nat.zero_mul, Nat.zero_add])).trans ?_
  exact extractStridedSlice_apply ![o, 0] v hs (ix2 (0 : Fin 1) a) (ix2 l a) (fun c => match c with
    | ⟨0, _⟩ => by show l.val = o + 0; omega
    | ⟨1, _⟩ => by show a.val = 0 + a.val; omega)

private theorem xchunk_apply (x : Vec Ideal S4096x6144 .f32) (br : Fin 2) (l : Fin 4) (k : Fin 8) (hk : k.val = 4 * br.val + l.val)
    (r : Fin 4096) (j : Fin 768) :
    xchunk (F := Ideal) x k (ix2 r j) = x (ix2 r (Spec.col br l j)) := by
  have hc : (Spec.col br l j).val = br.val * 3072 + l.val * 768 + j.val := rfl
  rcases fin8_cases k with rfl | rfl | rfl | rfl | rfl | rfl | rfl | rfl
  · exact colSlice_apply x 0 slices_S4096x6144_S4096x768_0_0 r j _ (by have hk : 0 = 4 * br.val + l.val := hk; omega)
  · exact colSlice_apply x 768 slices_S4096x6144_S4096x768_0_768 r j _ (by have hk : 1 = 4 * br.val + l.val := hk; omega)
  · exact colSlice_apply x 1536 slices_S4096x6144_S4096x768_0_1536 r j _ (by have hk : 2 = 4 * br.val + l.val := hk; omega)
  · exact colSlice_apply x 2304 slices_S4096x6144_S4096x768_0_2304 r j _ (by have hk : 3 = 4 * br.val + l.val := hk; omega)
  · exact colSlice_apply x 3072 slices_S4096x6144_S4096x768_0_3072 r j _ (by have hk : 4 = 4 * br.val + l.val := hk; omega)
  · exact colSlice_apply x 3840 slices_S4096x6144_S4096x768_0_3840 r j _ (by have hk : 5 = 4 * br.val + l.val := hk; omega)
  · exact colSlice_apply x 4608 slices_S4096x6144_S4096x768_0_4608 r j _ (by have hk : 6 = 4 * br.val + l.val := hk; omega)
  · exact colSlice_apply x 5376 slices_S4096x6144_S4096x768_0_5376 r j _ (by have hk : 7 = 4 * br.val + l.val := hk; omega)

private theorem xchunk_isReal {x : Vec Ideal S4096x6144 .f32} (hx : ∀ i, IsReal (x i)) (k : Fin 8) (i : S4096x768.Idx) :
    IsReal (xchunk (F := Ideal) x k i) := by
  rcases fin8_cases k with rfl | rfl | rfl | rfl | rfl | rfl | rfl | rfl <;> exact hx _

private theorem winL_apply (W : Vec Ideal S4x2304x768 .f32) (l : Fin 4) (a : Fin 2304) (b : Fin 768) :
    winL (F := Ideal) W l (ix2 a b) = W (ix3 l a b) := by
  rcases fin4_cases l with rfl | rfl | rfl | rfl
  · exact lead3_apply W 0 0 rfl slices_S4x2304x768_S1x2304x768_0_0_0 shapeCasts_S1x2304x768_S2304x768 a b
  · exact lead3_apply W 1 1 rfl slices_S4x2304x768_S1x2304x768_1_0_0 shapeCasts_S1x2304x768_S2304x768 a b
  · exact lead3_apply W 2 2 rfl slices_S4x2304x768_S1x2304x768_2_0_0 shapeCasts_S1x2304x768_S2304x768 a b
  · exact lead3_apply W 3 3 rfl slices_S4x2304x768_S1x2304x768_3_0_0 shapeCasts_S1x2304x768_S2304x768 a b

private theorem woL_apply (W : Vec Ideal S4x768x768 .f32) (l : Fin 4) (a b : Fin 768) :
    woL (F := Ideal) W l (ix2 a b) = W (ix3 l a b) := by
  rcases fin4_cases l with rfl | rfl | rfl | rfl
  · exact lead3_apply W 0 0 rfl slices_S4x768x768_S1x768x768_0_0_0 shapeCasts_S1x768x768_S768x768 a b
  · exact lead3_apply W 1 1 rfl slices_S4x768x768_S1x768x768_1_0_0 shapeCasts_S1x768x768_S768x768 a b
  · exact lead3_apply W 2 2 rfl slices_S4x768x768_S1x768x768_2_0_0 shapeCasts_S1x768x768_S768x768 a b
  · exact lead3_apply W 3 3 rfl slices_S4x768x768_S1x768x768_3_0_0 shapeCasts_S1x768x768_S768x768 a b

private theorem binL_apply (v : Vec Ideal S4x2304 .f32) (l : Fin 4) (a : Fin 2304) :
    binL (F := Ideal) v l (ix1 a) = v (ix2 l a) := by
  rcases fin4_cases l with rfl | rfl | rfl | rfl
  · exact lead2_apply v 0 0 rfl slices_S4x2304_S1x2304_0_0 shapeCasts_S1x2304_S2304 a
  · exact lead2_apply v 1 1 rfl slices_S4x2304_S1x2304_1_0 shapeCasts_S1x2304_S2304 a
  · exact lead2_apply v 2 2 rfl slices_S4x2304_S1x2304_2_0 shapeCasts_S1x2304_S2304 a
  · exact lead2_apply v 3 3 rfl slices_S4x2304_S1x2304_3_0 shapeCasts_S1x2304_S2304 a

private theorem rowL_apply (v : Vec Ideal S4x768 .f32) (l : Fin 4) (a : Fin 768) :
    rowL (F := Ideal) v l (ix1 a) = v (ix2 l a) := by
  rcases fin4_cases l with rfl | rfl | rfl | rfl
  · exact lead2_apply v 0 0 rfl slices_S4x768_S1x768_0_0 shapeCasts_S1x768_S768 a
  · exact lead2_apply v 1 1 rfl slices_S4x768_S1x768_1_0 shapeCasts_S1x768_S768 a
  · exact lead2_apply v 2 2 rfl slices_S4x768_S1x768_2_0 shapeCasts_S1x768_S768 a
  · exact lead2_apply v 3 3 rfl slices_S4x768_S1x768_3_0 shapeCasts_S1x768_S768 a

private theorem att_congr {x x' : Fin 768 → EReal} {wv wv' : Fin 768 → Fin 768 → EReal} {bv bv' : Fin 768 → EReal}
    {wo wo' : Fin 768 → Fin 768 → EReal} {bo bo' : Fin 768 → EReal}
    (h1 : ∀ j, x j = x' j) (h2 : ∀ k j, wv k j = wv' k j) (h3 : ∀ k, bv k = bv' k) (h4 : ∀ e k, wo e k = wo' e k) (h5 : ∀ e, bo e = bo' e)
    (e : Fin 768) : Spec.att x wv bv wo bo e = Spec.att x' wv' bv' wo' bo' e := by
  obtain rfl : x = x' := funext h1
  obtain rfl : wv = wv' := funext fun k => funext (h2 k)
  obtain rfl : bv = bv' := funext h3
  obtain rfl : wo = wo' := funext fun e => funext (h4 e)
  obtain rfl : bo = bo' := funext h5
  rfl

private theorem attL_apply (x : Vec Ideal S4096x6144 .f32) (Win : Vec Ideal S4x2304x768 .f32) (bin : Vec Ideal S4x2304 .f32) (Wo : Vec Ideal S4x768x768 .f32) (bo g b : Vec Ideal S4x768 .f32)
    (br : Fin 2) (l : Fin 4) (k : Fin 8) (hk : k.val = 4 * br.val + l.val) (q : Vec Ideal S4096x768 .f32)
    (hq : ∀ i, IsReal (q i)) (hx : ∀ i, IsReal (x i)) (hWin : ∀ i, IsReal (Win i)) (hbin : ∀ i, IsReal (bin i))
    (r : Fin 4096) (e : Fin 768) :
    attL (F := Ideal) x Win bin Wo bo k l q (ix2 r e) = (Spec.branchOf x br r Win bin Wo bo g b).a l e := by
  have hWl : ∀ i, IsReal (winL (F := Ideal) Win l i) := fun i => by
    obtain ⟨a, c, rfl⟩ : ∃ (a : Fin 2304) (c : Fin 768), i = ix2 a c := ⟨i 0, i 1, eq_ix2 i⟩
    rw [winL_apply]; exact hWin _
  have hbl : ∀ i, IsReal (binL (F := Ideal) bin l i) := fun i => by
    obtain ⟨a, rfl⟩ : ∃ a : Fin 2304, i = ix1 a := ⟨i 0, eq_ix1 i⟩
    rw [binL_apply]; exact hbin _
  unfold attL
  refine (mha_apply q (xchunk x k) (winL Win l) (binL bin l) (woL Wo l) (rowL bo l) hq (xchunk_isReal hx k) hWl hbl r e).trans ?_
  unfold Spec.Branch.a
  exact att_congr (fun j => xchunk_apply x br l k hk r j) (fun k' j => winL_apply Win l _ _) (fun k' => binL_apply bin l _)
    (fun e' k' => woL_apply Wo l _ _) (fun e' => rowL_apply bo l _) e

/-- Layer l of a branch of the reference at (r, e) is Spec's cascade at l, by recursion down the four layers. -/
private theorem branch_eq (x : FVec Ideal S4096x6144 .f32) (Win : FVec Ideal S4x2304x768 .f32) (bin : FVec Ideal S4x2304 .f32) (Wo : FVec Ideal S4x768x768 .f32) (bo g b : FVec Ideal S4x768 .f32)
    (br : Fin 2) (k0 k1 k2 k3 : Fin 8) (e0 : k0.val = 4 * br.val + 0) (e1 : k1.val = 4 * br.val + 1) (e2 : k2.val = 4 * br.val + 2) (e3 : k3.val = 4 * br.val + 3)
    (hx : ∀ i, IsReal (x i)) (hWin : ∀ i, IsReal (Win i)) (hbin : ∀ i, IsReal (bin i)) (hWo : ∀ i, IsReal (Wo i))
    (hbo : ∀ i, IsReal (bo i)) (hg : ∀ i, IsReal (g i)) (hb : ∀ i, IsReal (b i)) (l : Fin 4) (r : Fin 4096) (e : Fin 768) :
    ![c0 (F := Ideal) x Win bin Wo bo g b k0 k1 k2 k3, c1 (F := Ideal) x Win bin Wo bo g b k0 k1 k2 k3, c2 (F := Ideal) x Win bin Wo bo g b k0 k1 k2 k3, c3 (F := Ideal) x Win bin Wo bo g b k0 k1 k2 k3] l (ix2 r e) = (Spec.branchOf x br r Win bin Wo bo g b).casc l e := by
  have hR : ∀ r, (Spec.branchOf x br r Win bin Wo bo g b).Real := fun r =>
    { xs := fun l j => hx _, wv := fun l k j => hWin _, bv := fun l k => hbin _, wo := fun l e k => hWo _,
      bo := fun l e => hbo _, g := fun l e => hg _, b := fun l e => hb _ }
  have real : ∀ {f : FVec Ideal S4096x768 .f32} {pv : Fin 4096 → Fin 768 → EReal}, (∀ r e, f (ix2 r e) = pv r e) → (∀ r e, IsReal (pv r e)) → ∀ i, IsReal (f i) :=
    fun hf hp i => by
      obtain ⟨r, e, rfl⟩ : ∃ (r : Fin 4096) (e : Fin 768), i = ix2 r e := ⟨i 0, i 1, eq_ix2 i⟩
      rw [hf]; exact hp r e
  have step : ∀ (l : Fin 4) (k : Fin 8) (_ : k.val = 4 * br.val + l.val) (prev : FVec Ideal S4096x768 .f32) (pv : Fin 4096 → Fin 768 → EReal)
      (_ : ∀ r e, prev (ix2 r e) = pv r e) (_ : ∀ r e, IsReal (pv r e)) (r : Fin 4096) (e : Fin 768),
      resBn (F := Ideal) (attL x Win bin Wo bo k l prev) prev (rowL g l) (rowL b l) (ix2 r e)
        = (Spec.branchOf x br r Win bin Wo bo g b).next l (pv r) e := fun l k hk prev pv hf hp r e => by
    rw [resBn_apply, attL_apply x Win bin Wo bo g b br l k hk _ (real hf hp) hx hWin hbin r e, hf, rowL_apply, rowL_apply]
    rfl
  have H0 : ∀ r e, c0 (F := Ideal) x Win bin Wo bo g b k0 k1 k2 k3 (ix2 r e) = (Spec.branchOf x br r Win bin Wo bo g b).c0 e := fun r e =>
    attL_apply x Win bin Wo bo g b br 0 k0 e0 (xchunk x k0) (xchunk_isReal hx k0) hx hWin hbin r e
  have H1 := step 1 k1 e1 _ _ H0 fun r => Spec.Branch.c0_isReal (hR r)
  have H2 := step 2 k2 e2 _ _ H1 fun r => Spec.Branch.c1_isReal (hR r)
  have H3 := step 3 k3 e3 _ _ H2 fun r => Spec.Branch.c2_isReal (hR r)
  fin_cases l
  exacts [H0 r e, H1 r e, H2 r e, H3 r e]

/-- With real arguments the reference's result is Spec.result: each layer's reality feeds the next layer's score. -/
theorem refOut_eq (a0 : Vec Ideal S4096x6144 .f32) (a1 : Vec Ideal S4x2304x768 .f32) (a2 : Vec Ideal S4x2304 .f32) (a3 : Vec Ideal S4x768x768 .f32) (a4 : Vec Ideal S4x768 .f32) (a5 : Vec Ideal S4x768 .f32) (a6 : Vec Ideal S4x768 .f32) (a7 : Vec Ideal S4x2304x768 .f32) (a8 : Vec Ideal S4x2304 .f32) (a9 : Vec Ideal S4x768x768 .f32) (a10 : Vec Ideal S4x768 .f32) (a11 : Vec Ideal S4x768 .f32) (a12 : Vec Ideal S4x768 .f32) (a13 : Vec Ideal S512x6144 .f32) (a14 : Vec Ideal S512 .f32) (a15 : Vec Ideal S512 .f32) (a16 : Vec Ideal S512 .f32) (a17 : Vec Ideal S128x512 .f32) (a18 : Vec Ideal S128 .f32) (a19 : Vec Ideal S128 .f32) (a20 : Vec Ideal S128 .f32) (a21 : Vec Ideal S1x128 .f32) (a22 : Vec Ideal S1 .f32)
    (h0 : ∀ i, IsReal (a0 i)) (h1 : ∀ i, IsReal (a1 i)) (h2 : ∀ i, IsReal (a2 i)) (h3 : ∀ i, IsReal (a3 i)) (h4 : ∀ i, IsReal (a4 i)) (h5 : ∀ i, IsReal (a5 i)) (h6 : ∀ i, IsReal (a6 i)) (h7 : ∀ i, IsReal (a7 i)) (h8 : ∀ i, IsReal (a8 i)) (h9 : ∀ i, IsReal (a9 i)) (h10 : ∀ i, IsReal (a10 i)) (h11 : ∀ i, IsReal (a11 i)) (h12 : ∀ i, IsReal (a12 i)) :
    refOut (F := Ideal) a0 a1 a2 a3 a4 a5 a6 a7 a8 a9 a10 a11 a12 a13 a14 a15 a16 a17 a18 a19 a20 a21 a22 = Spec.result a0 a1 a2 a3 a4 a5 a6 a7 a8 a9 a10 a11 a12 a13 a14 a15 a16 a17 a18 a19 a20 a21 a22 := by
  funext i
  obtain ⟨r, z, rfl⟩ : ∃ (r : Fin 4096) (z : Fin 1), i = ix2 r z := ⟨i 0, i 1, eq_ix2 i⟩
  obtain rfl : z = 0 := Subsingleton.elim _ _
  unfold refOut
  refine (mlp_apply _ a13 a14 a15 a16 a17 a18 a19 a20 a21 a22 r).trans ?_
  refine congrArg (Spec.headOf a13 a14 a15 a16 a17 a18 a19 a20 a21 a22).out (funext fun k => ?_)
  unfold hAll
  exact hcat_row _ _ _ _ r (fun l e => branch_eq a0 a1 a2 a3 a4 a5 a6 0 0 1 2 3 rfl rfl rfl rfl h0 h1 h2 h3 h4 h5 h6 l r e)
    (fun l e => branch_eq a0 a7 a8 a9 a10 a11 a12 1 4 5 6 7 rfl rfl rfl rfl h0 h7 h8 h9 h10 h11 h12 l r e) k

end Cert.ReferenceIdeal.Chain

end
-- ==== Proof.Finite.lean ====
import proofs.«172500_j1709396984333_1_alg».proof.Pre_finite_inputs
import proofs.«172500_j1709396984333_1_alg».proof.Proof.Gen.Pre_finite_inputs
import proofs.«172500_j1709396984333_1_alg».proof.Proof.Spec
import Idealize.ShloMosaic.PureOps.Ideal
import Idealize.ShloMosaic.Lib.ReduceAll

noncomputable section

namespace Cert.Finite

open Cert.Pre_finite_inputs Idealize.ShloMosaic Idealize.ShloMosaic.TcCoe Cert.Spec

private instance : Subsingleton S_.Idx := ⟨fun _ _ => funext fun d => d.elim0⟩

private theorem inf_word : Ideal.ofBits .f32 0x7F800000#32 = ⊤ := by
  simp [Ideal.ofBits, Ideal.ieee]

private theorem isReal_of_abs_lt_top (x : EReal) (h : max x (-x) < ⊤) : IsReal x := by
  induction x using EReal.rec with
  | bot => simp at h
  | top => simp at h
  | coe r => exact ⟨r, rfl⟩

private theorem all_real {s : Shape} {axes : List (Fin s.rank)} (a : FVec Ideal s .f32) (dims : Fin S_.rank → Fin s.rank)
    (hb : S_.BroadcastsInDim s dims) (hr : s.ReducesTo axes S_) (hu : 0 < S_.numel)
    (e : Host.reduce IntOp.andi (cmpf .olt (Host.absf a) (broadcastInDim s dims hb (constant (F := Ideal) S_ .f32 0x7F800000#32)))
          (constantI S_ 1 1#1) hr hu ValueIdx.ix0 = 1#1) (i : s.Idx) : IsReal (a i) := by
  have h1 := Host.reduce_andi_all _ _ hr hu _ e i
  have h2 : BitVec.ofBool (decide (max (a i) (-(a i)) < Ideal.ofBits .f32 0x7F800000#32)) = 1#1 := h1
  rw [inf_word] at h2
  refine isReal_of_abs_lt_top (a i) ?_
  by_contra hn
  rw [decide_eq_false hn] at h2
  exact absurd h2 (by decide)

private theorem and_split (x y : IVec S_ 1) (h : andi x y ValueIdx.ix0 = 1#1) : x ValueIdx.ix0 = 1#1 ∧ y ValueIdx.ix0 = 1#1 :=
  IntOp.andi_eq_one.1 h

/-- The precondition makes every entry of every argument a real number. -/
theorem real_of_pre [Cert.Pre_finite_inputs.Facts]
    (a0 : FVec Ideal S4096x6144 .f32)
    (a1 : FVec Ideal S4x2304x768 .f32)
    (a2 : FVec Ideal S4x2304 .f32)
    (a3 : FVec Ideal S4x768x768 .f32)
    (a4 : FVec Ideal S4x768 .f32)
    (a5 : FVec Ideal S4x768 .f32)
    (a6 : FVec Ideal S4x768 .f32)
    (a7 : FVec Ideal S4x2304x768 .f32)
    (a8 : FVec Ideal S4x2304 .f32)
    (a9 : FVec Ideal S4x768x768 .f32)
    (a10 : FVec Ideal S4x768 .f32)
    (a11 : FVec Ideal S4x768 .f32)
    (a12 : FVec Ideal S4x768 .f32)
    (a13 : FVec Ideal S512x6144 .f32)
    (a14 : FVec Ideal S512 .f32)
    (a15 : FVec Ideal S512 .f32)
    (a16 : FVec Ideal S512 .f32)
    (a17 : FVec Ideal S128x512 .f32)
    (a18 : FVec Ideal S128 .f32)
    (a19 : FVec Ideal S128 .f32)
    (a20 : FVec Ideal S128 .f32)
    (a21 : FVec Ideal S1x128 .f32)
    (a22 : FVec Ideal S1 .f32)
    (h : Cert.Pre_finite_inputs.fn (F := Ideal) a0 a1 a2 a3 a4 a5 a6 a7 a8 a9 a10 a11 a12 a13 a14 a15 a16 a17 a18 a19 a20 a21 a22 = fun _ => 1#1) :
    (∀ i, IsReal (a0 i)) ∧
    (∀ i, IsReal (a1 i)) ∧
    (∀ i, IsReal (a2 i)) ∧
    (∀ i, IsReal (a3 i)) ∧
    (∀ i, IsReal (a4 i)) ∧
    (∀ i, IsReal (a5 i)) ∧
    (∀ i, IsReal (a6 i)) ∧
    (∀ i, IsReal (a7 i)) ∧
    (∀ i, IsReal (a8 i)) ∧
    (∀ i, IsReal (a9 i)) ∧
    (∀ i, IsReal (a10 i)) ∧
    (∀ i, IsReal (a11 i)) ∧
    (∀ i, IsReal (a12 i)) ∧
    (∀ i, IsReal (a13 i)) ∧
    (∀ i, IsReal (a14 i)) ∧
    (∀ i, IsReal (a15 i)) ∧
    (∀ i, IsReal (a16 i)) ∧
    (∀ i, IsReal (a17 i)) ∧
    (∀ i, IsReal (a18 i)) ∧
    (∀ i, IsReal (a19 i)) ∧
    (∀ i, IsReal (a20 i)) ∧
    (∀ i, IsReal (a21 i)) ∧
    (∀ i, IsReal (a22 i)) := by
  have h0 := congrFun h ValueIdx.ix0
  dsimp only [fn, fn_part1, fn_part2, fn_part3, fn_part4, fn_part5, fn_part6] at h0
  obtain ⟨h0, e22⟩ := and_split _ _ h0
  obtain ⟨h0, e21⟩ := and_split _ _ h0
  obtain ⟨h0, e20⟩ := and_split _ _ h0
  obtain ⟨h0, e19⟩ := and_split _ _ h0
  obtain ⟨h0, e18⟩ := and_split _ _ h0
  obtain ⟨h0, e17⟩ := and_split _ _ h0
  obtain ⟨h0, e16⟩ := and_split _ _ h0
  obtain ⟨h0, e15⟩ := and_split _ _ h0
  obtain ⟨h0, e14⟩ := and_split _ _ h0
  obtain ⟨h0, e13⟩ := and_split _ _ h0
  obtain ⟨h0, e12⟩ := and_split _ _ h0
  obtain ⟨h0, e11⟩ := and_split _ _ h0
  obtain ⟨h0, e10⟩ := and_split _ _ h0
  obtain ⟨h0, e9⟩ := and_split _ _ h0
  obtain ⟨h0, e8⟩ := and_split _ _ h0
  obtain ⟨h0, e7⟩ := and_split _ _ h0
  obtain ⟨h0, e6⟩ := and_split _ _ h0
  obtain ⟨h0, e5⟩ := and_split _ _ h0
  obtain ⟨h0, e4⟩ := and_split _ _ h0
  obtain ⟨h0, e3⟩ := and_split _ _ h0
  obtain ⟨h0, e2⟩ := and_split _ _ h0
  obtain ⟨e0, e1⟩ := and_split _ _ h0
  exact ⟨all_real a0 _ _ _ _ e0, all_real a1 _ _ _ _ e1, all_real a2 _ _ _ _ e2, all_real a3 _ _ _ _ e3, all_real a4 _ _ _ _ e4, all_real a5 _ _ _ _ e5,
    all_real a6 _ _ _ _ e6, all_real a7 _ _ _ _ e7, all_real a8 _ _ _ _ e8, all_real a9 _ _ _ _ e9, all_real a10 _ _ _ _ e10, all_real a11 _ _ _ _ e11,
    all_real a12 _ _ _ _ e12, all_real a13 _ _ _ _ e13, all_real a14 _ _ _ _ e14, all_real a15 _ _ _ _ e15, all_real a16 _ _ _ _ e16, all_real a17 _ _ _ _ e17,
    all_real a18 _ _ _ _ e18, all_real a19 _ _ _ _ e19, all_real a20 _ _ _ _ e20, all_real a21 _ _ _ _ e21, all_real a22 _ _ _ _ e22⟩

end Cert.Finite

end
-- ==== Proof.lean ====
/-
  Both programs end with Spec.result of their arguments (Proof/Spec.lean) when every input number is finite.
  Each attention layer of the reference has one query and one key position, so its softmax runs over ONE score; where that score
  is a real number the weight is 1 and the layer is its value projection followed by its output projection, which is all the kernel
  computes. Scores are finite sums of products of entries of the inputs and of earlier layer results, so with finite inputs they are
  real, layer after layer: the one place the precondition is used. Elsewhere the two programs agree operation by operation: the same
  normalisation word, format changes that are identities on the extended reals, matrix products that are the same finite sums.
-/
import proofs.«172500_j1709396984333_1_alg».proof.Defs
import proofs.«172500_j1709396984333_1_alg».proof.Proof.Gen.Kernel
import proofs.«172500_j1709396984333_1_alg».proof.Proof.Gen.Kernel.Skeleton
import proofs.«172500_j1709396984333_1_alg».proof.Proof.Gen.Kernel.Launch
import proofs.«172500_j1709396984333_1_alg».proof.Proof.Gen.Kernel.Points
import proofs.«172500_j1709396984333_1_alg».proof.Proof.Gen.Kernel.Frame
import proofs.«172500_j1709396984333_1_alg».proof.Proof.Gen.KernelIdeal
import proofs.«172500_j1709396984333_1_alg».proof.Proof.Gen.KernelIdeal.Skeleton
import proofs.«172500_j1709396984333_1_alg».proof.Proof.Gen.KernelIdeal.Launch
import proofs.«172500_j1709396984333_1_alg».proof.Proof.Gen.KernelIdeal.Points
import proofs.«172500_j1709396984333_1_alg».proof.Proof.Gen.KernelIdeal.Frame
import proofs.«172500_j1709396984333_1_alg».proof.Proof.Gen.ReferenceIdeal
import proofs.«172500_j1709396984333_1_alg».proof.Proof.Gen.Pre_finite_inputs
import proofs.«172500_j1709396984333_1_alg».proof.Proof.KRun
import proofs.«172500_j1709396984333_1_alg».proof.Proof.KValue
import proofs.«172500_j1709396984333_1_alg».proof.Proof.RRun
import proofs.«172500_j1709396984333_1_alg».proof.Proof.RGlue
import proofs.«172500_j1709396984333_1_alg».proof.Proof.Finite
import Idealize.ShloMosaic.Adequacy
import Idealize.ShloMosaic.Init

noncomputable section

namespace Cert.Proof

open Idealize.ShloMosaic Idealize.SL.Sem

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c =>
    ⟨(h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide)⟩)
    (Cert.ReferenceIdeal.RunH.run (F := Ideal) m ρ)

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨Cert.KernelIdeal.Val.out m, ?_, ?_⟩
  · exact (θ_run Cert.KernelIdeal.defs _ _).mono
      (fun _ h c => ⟨(h c).1.trans (Cert.KernelIdeal.Val.result_eq m ρ c), (h c).2⟩)
      (Cert.KernelIdeal.RunV.run (F := Ideal) m ρ)
  · refine (θ_run Cert.ReferenceIdeal.defs _ _).mono (fun _ h c => ⟨(h c).1.trans ?_, (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide), (h c).2 _ (by decide)⟩)
      (Cert.ReferenceIdeal.RunH.run (F := Ideal) m' ρ')
    obtain ⟨e0, e1, e2, e3, e4, e5, e6, e7, e8, e9, e10, e11, e12, e13, e14, e15, e16, e17, e18, e19, e20, e21, e22⟩ := hagree c
    obtain ⟨h0, h1, h2, h3, h4, h5, h6, h7, h8, h9, h10, h11, h12, h13, h14, h15, h16, h17, h18, h19, h20, h21, h22⟩ := Cert.Finite.real_of_pre _ _ _ _ _ _ _ _ _ _ _ _ _ _ _ _ _ _ _ _ _ _ _ (hpre c)
    rw [e0, e1, e2, e3, e4, e5, e6, e7, e8, e9, e10, e11, e12, e13, e14, e15, e16, e17, e18, e19, e20, e21, e22]
    exact Cert.ReferenceIdeal.Chain.refOut_eq _ _ _ _ _ _ _ _ _ _ _ _ _ _ _ _ _ _ _ _ _ _ _ h0 h1 h2 h3 h4 h5 h6 h7 h8 h9 h10 h11 h12

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri,
  trivial,
  algebraic⟩

end Cert.Proof

end
